-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S50000 : Shape := ⟨1, ![50000]⟩
abbrev S8192x1 : Shape := ⟨2, ![8192, 1]⟩
abbrev S2000000 : Shape := ⟨1, ![2000000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S50000 : S_.BroadcastsInDim S50000 (![] : Fin 0 → Fin S50000.rank)
  reducesTo_S50000_S_d0 : S50000.ReducesTo [0] S_

variable [Facts]

def fn_part1 {F : FTy → Type} [FloatOps F] (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  main_v18

def fn {F : FTy → Type} [FloatOps F] (main_arg0 : FVec F S150000x64 .f32) (main_arg1 : FVec F S150000x64 .f32) (main_arg2 : FVec F S50000 .f32) (main_arg3 : FVec F S50000 .f32) (main_arg4 : IVec S8192x1 32) (main_arg5 : IVec S8192x1 32) (main_arg6 : IVec S8192x1 32) (main_arg7 : IVec S8192x1 1) (main_arg8 : IVec S2000000 32) (main_arg9 : IVec S2000000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S50000 .f32 := Host.absf main_arg2
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S50000 .f32 := Host.absf main_arg3
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_v13 main_v16
-- ==== Kernel.lean ====
abbrev S150000x64 : Shape := ⟨2, ![150000, 64]⟩
abbrev S50000 : Shape := ⟨1, ![50000]⟩
abbrev S8192x1 : Shape := ⟨2, ![8192, 1]⟩
abbrev S2000000 : Shape := ⟨1, ![2000000]⟩
abbrev S_ : Shape := ⟨0, ![]⟩
abbrev S150000 : Shape := ⟨1, ![150000]⟩
abbrev S2000000x1 : Shape := ⟨2, ![2000000, 1]⟩
abbrev S150000x128 : Shape := ⟨2, ![150000, 128]⟩
abbrev S2000000x128 : Shape := ⟨2, ![2000000, 128]⟩
abbrev S6000x128 : Shape := ⟨2, ![6000, 128]⟩
abbrev S8192 : Shape := ⟨1, ![8192]⟩
abbrev S8192x128 : Shape := ⟨2, ![8192, 128]⟩
abbrev S8192x64 : Shape := ⟨2, ![8192, 64]⟩
abbrev S1x1 : Shape := ⟨2, ![1, 1]⟩
abbrev S2048x64 : Shape := ⟨2, ![2048, 64]⟩
abbrev S2048x1 : Shape := ⟨2, ![2048, 1]⟩
abbrev S2048 : Shape := ⟨1, ![2048]⟩
abbrev S1 : Shape := ⟨1, ![1]⟩

abbrev nBuf : Space → Nat
  | .hbm => 186
  | .vmem => 39
  | .smem => 0
  | _ => 0

abbrev hbmTy0_0 (i : Nat) : BufTy := match i % 128 with
  | 0 => ⟨S150000x64, .f32⟩
  | 1 => ⟨S150000x64, .f32⟩
  | 2 => ⟨S50000, .f32⟩
  | 3 => ⟨S50000, .f32⟩
  | 4 => ⟨S8192x1, .i32⟩
  | 5 => ⟨S8192x1, .i32⟩
  | 6 => ⟨S8192x1, .i32⟩
  | 7 => ⟨S8192x1, .i1⟩
  | 8 => ⟨S2000000, .i32⟩
  | 9 => ⟨S2000000, .i32⟩
  | 10 => ⟨S_, .f32⟩
  | 11 => ⟨S2000000, .f32⟩
  | 12 => ⟨S_, .f32⟩
  | 13 => ⟨S150000, .f32⟩
  | 14 => ⟨S2000000x1, .i32⟩
  | 15 => ⟨S150000, .f32⟩
  | 16 => ⟨S_, .f32⟩
  | 17 => ⟨S150000, .f32⟩
  | 18 => ⟨S2000000x1, .i32⟩
  | 19 => ⟨S150000, .f32⟩
  | 20 => ⟨S_, .f32⟩
  | 21 => ⟨S150000, .f32⟩
  | 22 => ⟨S150000, .f32⟩
  | 23 => ⟨S150000, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000, .f32⟩
  | 33 => ⟨S_, .f32⟩
  | 34 => ⟨S150000, .f32⟩
  | 35 => ⟨S150000, .f32⟩
  | 36 => ⟨S150000, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S2000000x1, .i32⟩
  | 45 => ⟨S2000000, .f32⟩
  | 46 => ⟨S2000000, .f32⟩
  | 47 => ⟨S150000x128, .f32⟩
  | 48 => ⟨S_, .i32⟩
  | 49 => ⟨S2000000, .i32⟩
  | 50 => ⟨S2000000, .i1⟩
  | 51 => ⟨S_, .i32⟩
  | 52 => ⟨S2000000, .i32⟩
  | 53 => ⟨S2000000, .i32⟩
  | 54 => ⟨S2000000, .i32⟩
  | 55 => ⟨S2000000x1, .i32⟩
  | 56 => ⟨S2000000x128, .f32⟩
  | 57 => ⟨S2000000x1, .f32⟩
  | 58 => ⟨S2000000x128, .f32⟩
  | 59 => ⟨S2000000x128, .f32⟩
  | 60 => ⟨S_, .f32⟩
  | 61 => ⟨S150000x128, .f32⟩
  | 62 => ⟨S2000000x1, .i32⟩
  | 63 => ⟨S150000x128, .f32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000x128, .f32⟩
  | 73 => ⟨S2000000x1, .f32⟩
  | 74 => ⟨S2000000x128, .f32⟩
  | 75 => ⟨S2000000x128, .f32⟩
  | 76 => ⟨S_, .f32⟩
  | 77 => ⟨S150000x128, .f32⟩
  | 78 => ⟨S2000000x1, .i32⟩
  | 79 => ⟨S150000x128, .f32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i32⟩
  | 86 => ⟨S2000000, .i32⟩
  | 87 => ⟨S2000000x1, .i32⟩
  | 88 => ⟨S2000000x128, .f32⟩
  | 89 => ⟨S2000000x1, .f32⟩
  | 90 => ⟨S2000000x128, .f32⟩
  | 91 => ⟨S2000000x128, .f32⟩
  | 92 => ⟨S_, .f32⟩
  | 93 => ⟨S150000x128, .f32⟩
  | 94 => ⟨S2000000x1, .i32⟩
  | 95 => ⟨S150000x128, .f32⟩
  | 96 => ⟨S150000x128, .f32⟩
  | 97 => ⟨S8192, .i32⟩
  | 98 => ⟨S8192, .i32⟩
  | 99 => ⟨S_, .i32⟩
  | 100 => ⟨S8192, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .i32⟩
  | 107 => ⟨S8192, .i32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8192x128, .f32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S8192x128, .f32⟩
  | 126 => ⟨S_, .i32⟩
  | 127 => ⟨S8192, .i32⟩
  | _ => ⟨S150000x64, .f32⟩

abbrev hbmTy0_1 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x128, .f32⟩
  | 7 => ⟨S8192x64, .f32⟩
  | 8 => ⟨S8192x64, .f32⟩
  | 9 => ⟨S8192x64, .f32⟩
  | 10 => ⟨S8192x64, .f32⟩
  | 11 => ⟨S8192x64, .f32⟩
  | 12 => ⟨S8192x64, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S8192, .f32⟩
  | 22 => ⟨S8192x1, .f32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192, .f32⟩
  | 32 => ⟨S8192x1, .f32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S8192, .f32⟩
  | 42 => ⟨S8192x1, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192, .f32⟩
  | 52 => ⟨S8192x1, .f32⟩
  | 53 => ⟨S8192x1, .f32⟩
  | 54 => ⟨S8192x1, .i1⟩
  | 55 => ⟨S8192x1, .f32⟩
  | 56 => ⟨S1x1, .f32⟩
  | 57 => ⟨S_, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S6000x128, .f32⟩
  | .local _ .vmem, ⟨5, _⟩ => ⟨S6000x128, .f32⟩
  | .local _ .vmem, ⟨6, _⟩ => ⟨S6000x128, .f32⟩
  | .local _ .vmem, ⟨7, _⟩ => ⟨S6000x128, .f32⟩
  | .local _ .vmem, ⟨8, _⟩ => ⟨S6000x128, .f32⟩
  | .local _ .vmem, ⟨9, _⟩ => ⟨S6000x128, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x1, .f32⟩
  | .local _ .vmem, ⟨23, _⟩ => ⟨S2048x1, .f32⟩
  | .local _ .vmem, ⟨24, _⟩ => ⟨S2048x1, .f32⟩
  | .local _ .vmem, ⟨25, _⟩ => ⟨S2048x1, .f32⟩
  | .local _ .vmem, ⟨26, _⟩ => ⟨S2048x1, .f32⟩
  | .local _ .vmem, ⟨27, _⟩ => ⟨S2048x1, .f32⟩
  | .local _ .vmem, ⟨28, _⟩ => ⟨S2048x1, .f32⟩
  | .local _ .vmem, ⟨29, _⟩ => ⟨S2048x1, .f32⟩
  | .local _ .vmem, ⟨30, _⟩ => ⟨S2048x1, .f32⟩
  | .local _ .vmem, ⟨31, _⟩ => ⟨S2048x1, .f32⟩
  | .local _ .vmem, ⟨32, _⟩ => ⟨S2048x1, .f32⟩
  | .local _ .vmem, ⟨33, _⟩ => ⟨S2048x1, .f32⟩
  | .local _ .vmem, ⟨34, _⟩ => ⟨S1x1, .f32⟩
  | .local _ .vmem, ⟨35, _⟩ => ⟨S1x1, .f32⟩
  | .local _ .vmem, ⟨36, _⟩ => ⟨S1x1, .f32⟩
  | .local _ .vmem, ⟨37, _⟩ => ⟨S1x1, .f32⟩
  | .local _ .vmem, ⟨38, _⟩ => ⟨S1x1, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_18 : Ref sig .tc := ⟨.hbm, 108, rfl⟩
abbrev main_v78 : Ref sig .tc := ⟨.hbm, 109, rfl⟩
abbrev main_v79 : Ref sig .tc := ⟨.hbm, 110, rfl⟩
abbrev main_c_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_20 : Ref sig .tc := ⟨.hbm, 117, rfl⟩
abbrev main_v85 : Ref sig .tc := ⟨.hbm, 118, rfl⟩
abbrev main_v86 : Ref sig .tc := ⟨.hbm, 119, rfl⟩
abbrev main_c_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_c_23 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_c_24 : Ref sig .tc := ⟨.hbm, 141, rfl⟩
abbrev main_v105 : Ref sig .tc := ⟨.hbm, 142, rfl⟩
abbrev main_v106 : Ref sig .tc := ⟨.hbm, 143, rfl⟩
abbrev main_c_25 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_26 : Ref sig .tc := ⟨.hbm, 151, rfl⟩
abbrev main_v113 : Ref sig .tc := ⟨.hbm, 152, rfl⟩
abbrev main_v114 : Ref sig .tc := ⟨.hbm, 153, rfl⟩
abbrev main_c_27 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_28 : Ref sig .tc := ⟨.hbm, 161, rfl⟩
abbrev main_v121 : Ref sig .tc := ⟨.hbm, 162, rfl⟩
abbrev main_v122 : Ref sig .tc := ⟨.hbm, 163, rfl⟩
abbrev main_c_29 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_c_30 : Ref sig .tc := ⟨.hbm, 171, rfl⟩
abbrev main_v129 : Ref sig .tc := ⟨.hbm, 172, rfl⟩
abbrev main_v130 : Ref sig .tc := ⟨.hbm, 173, rfl⟩
abbrev main_c_31 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_scratch0 : Ref sig .tc := ⟨.vmem, 35, rfl⟩
abbrev cc1_scratch1 : Ref sig .tc := ⟨.vmem, 36, rfl⟩
abbrev cc1_scratch2 : Ref sig .tc := ⟨.vmem, 37, rfl⟩
abbrev cc1_scratch3 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v210 : BitVec 1 := Scalar.cmpi .eq arg0 c3_i32
  let v211 : BitVec 32 := Scalar.extui v210
  let c0_i32_71 : BitVec 32 := 0#32
  let v212 : BitVec 1 := Scalar.cmpi .ne v211 c0_i32_71
  v212

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2048x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

class Facts₀ : Prop where
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  concatenates_S150000x64_S150000x64_S150000x128_d1 : Shape.Concatenates [S150000x64, S150000x64] S150000x128 1
  bcast_S2000000x1_S2000000x128_0_1 : S2000000x1.BroadcastsInDim S2000000x128 (![0, 1] : Fin 2 → Fin S2000000x128.rank)
  bcast_S_S150000x128 : S_.BroadcastsInDim S150000x128 (![] : Fin 0 → Fin S150000x128.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x128_S8192x64_0_0 : S8192x128.Slices ![0, 0] S8192x64
  slices_S8192x128_S8192x64_0_64 : S8192x128.Slices ![0, 64] S8192x64
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x1_S1 : S2048x1.Reduces [0] S1
  shapeCasts_S1_S1x1 : S1.ShapeCasts S1x1
  shapeCasts_S1x1_S_ : S1x1.ShapeCasts S_
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x128_S2000000x1_S2000000x128_1_0_n_n_0_1_1128_wf : GatherDims.WF S150000x128 S2000000x1 S2000000x128 [1] [0] [] [0] [] 1 ![1, 128]
  scatter_S150000x128_S2000000x1_S2000000x128_1_0_0_1_wf : ScatterDims.WF S150000x128 S2000000x1 S2000000x128 [1] [0] [0] 1
  gather_S150000x128_S8192x1_S8192x128_1_0_n_n_0_1_1128_wf : GatherDims.WF S150000x128 S8192x1 S8192x128 [1] [0] [] [0] [] 1 ![1, 128]
  gather_S50000_S8192x1_S8192_n_0_n_n_0_1_1_wf : GatherDims.WF S50000 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S150000x128.size a
  hwx0_0 : ∀ i : grid0.Coords, EltTy.bits .f32 = 32 ∨ (Rect.block (s := S150000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S150000x128.size a
  hwx0_1 : ∀ i : grid0.Coords, EltTy.bits .f32 = 32 ∨ (Rect.block (s := S150000x128) S6000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S150000x128.size a
  hwx0_2 : ∀ i : grid0.Coords, EltTy.bits .f32 = 32 ∨ (Rect.block (s := S150000x128) S6000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S150000x128.size a
  hwx0_3 : ∀ i : grid0.Coords, EltTy.bits .f32 = 32 ∨ (Rect.block (s := S150000x128) S6000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x128.size a ≤ S150000x128.size a
  hwx0_4 : ∀ i : grid0.Coords, EltTy.bits .f32 = 32 ∨ (Rect.block (s := S150000x128) S6000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S8192x64.size a
  hwx1_0 : ∀ i : grid1.Coords, EltTy.bits .f32 = 32 ∨ (Rect.block (s := S8192x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S8192x64.size a
  hwx1_3 : ∀ i : grid1.Coords, EltTy.bits .f32 = 32 ∨ (Rect.block (s := S8192x64) S2048x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S8192x64.size a
  hwx1_4 : ∀ i : grid1.Coords, EltTy.bits .f32 = 32 ∨ (Rect.block (s := S8192x64) S2048x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S8192x64.size a
  hwx1_5 : ∀ i : grid1.Coords, EltTy.bits .f32 = 32 ∨ (Rect.block (s := S8192x64) S2048x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x1.size a ≤ S8192x1.size a
  hwx1_6 : ∀ i : grid1.Coords, EltTy.bits .f32 = 32 ∨ (Rect.block (s := S8192x1) S2048x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x1.size a ≤ S8192x1.size a
  hwx1_7 : ∀ i : grid1.Coords, EltTy.bits .f32 = 32 ∨ (Rect.block (s := S8192x1) S2048x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x1.size a ≤ S8192x1.size a
  hwx1_8 : ∀ i : grid1.Coords, EltTy.bits .f32 = 32 ∨ (Rect.block (s := S8192x1) S2048x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x1.size a ≤ S8192x1.size a
  hwx1_9 : ∀ i : grid1.Coords, EltTy.bits .f32 = 32 ∨ (Rect.block (s := S8192x1) S2048x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2048x1.size a ≤ S8192x1.size a
  hwx1_10 : ∀ i : grid1.Coords, EltTy.bits .f32 = 32 ∨ (Rect.block (s := S8192x1) S2048x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2048x1.size a ≤ S8192x1.size a
  hwx1_11 : ∀ i : grid1.Coords, EltTy.bits .f32 = 32 ∨ (Rect.block (s := S8192x1) S2048x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x128_S2000000x1_S2000000x128_1_0_n_n_0_1_1128 : GatherDims S150000x128 S2000000x1 S2000000x128 where
  offsetDims := [1]
  collapsedSliceDims := [0]
  operandBatchingDims := []
  startIndicesBatchingDims := []
  startIndexMap := [0]
  indexVectorDim := 1
  sliceSizes := ![1, 128]
  wf := gather_S150000x128_S2000000x1_S2000000x128_1_0_n_n_0_1_1128_wf
def scatter_S150000x128_S2000000x1_S2000000x128_1_0_0_1 : ScatterDims S150000x128 S2000000x1 S2000000x128 where
  updateWindowDims := [1]
  insertedWindowDims := [0]
  scatterDimsToOperandDims := [0]
  indexVectorDim := 1
  wf := scatter_S150000x128_S2000000x1_S2000000x128_1_0_0_1_wf
def gather_S150000x128_S8192x1_S8192x128_1_0_n_n_0_1_1128 : GatherDims S150000x128 S8192x1 S8192x128 where
  offsetDims := [1]
  collapsedSliceDims := [0]
  operandBatchingDims := []
  startIndicesBatchingDims := []
  startIndexMap := [0]
  indexVectorDim := 1
  sliceSizes := ![1, 128]
  wf := gather_S150000x128_S8192x1_S8192x128_1_0_n_n_0_1_1128_wf
def gather_S50000_S8192x1_S8192_n_0_n_n_0_1_1 : GatherDims S50000 S8192x1 S8192 where
  offsetDims := []
  collapsedSliceDims := [0]
  operandBatchingDims := []
  startIndicesBatchingDims := []
  startIndexMap := [0]
  indexVectorDim := 1
  sliceSizes := ![1]
  wf := gather_S50000_S8192x1_S8192_n_0_n_n_0_1_1_wf

abbrev win0_0 : Pipeline.Window sig grid0 :=
  Pipeline.Window.ofSpec (Memref.whole main_v28) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S6000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v67) S6000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v68) S6000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v99) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v100) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v101) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v102) S2048x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v103) S2048x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v104) S2048x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v112) S2048x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v120) S2048x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v128) S2048x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v136) S2048x1.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v137) S2048x1.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v139) S2048x1.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v140) S1x1.size cc1_transform_12 reads1_12 true true 1 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev idle1 : Fin 13 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k1_cond2 i == 1#1) | ⟨_ + 13, h⟩ => absurd h (Nat.not_lt.2 (Nat.le_add_left _ _))

class Facts : Prop extends Facts₀ where

variable [Facts]
-- ==== ReferenceIdeal.lean ====
abbrev S150000x64 : Shape := ⟨2, ![150000, 64]⟩
abbrev S50000 : Shape := ⟨1, ![50000]⟩
abbrev S8192x1 : Shape := ⟨2, ![8192, 1]⟩
abbrev S2000000 : Shape := ⟨1, ![2000000]⟩
abbrev S_ : Shape := ⟨0, ![]⟩
abbrev S150000 : Shape := ⟨1, ![150000]⟩
abbrev S2000000x1 : Shape := ⟨2, ![2000000, 1]⟩
abbrev S2000000x64 : Shape := ⟨2, ![2000000, 64]⟩
abbrev S8192x1x1 : Shape := ⟨3, ![8192, 1, 1]⟩
abbrev S8192x1x64 : Shape := ⟨3, ![8192, 1, 64]⟩

abbrev nBuf : Space → Nat
  | .hbm => 430
  | .vmem => 0
  | .smem => 0
  | _ => 0

abbrev hbmTy0_0 (i : Nat) : BufTy := match i % 128 with
  | 0 => ⟨S150000x64, .f32⟩
  | 1 => ⟨S150000x64, .f32⟩
  | 2 => ⟨S50000, .f32⟩
  | 3 => ⟨S50000, .f32⟩
  | 4 => ⟨S8192x1, .i32⟩
  | 5 => ⟨S8192x1, .i32⟩
  | 6 => ⟨S8192x1, .i32⟩
  | 7 => ⟨S8192x1, .i1⟩
  | 8 => ⟨S2000000, .i32⟩
  | 9 => ⟨S2000000, .i32⟩
  | 10 => ⟨S_, .f32⟩
  | 11 => ⟨S2000000, .f32⟩
  | 12 => ⟨S_, .f32⟩
  | 13 => ⟨S150000, .f32⟩
  | 14 => ⟨S2000000x1, .i32⟩
  | 15 => ⟨S150000, .f32⟩
  | 16 => ⟨S_, .f32⟩
  | 17 => ⟨S150000, .f32⟩
  | 18 => ⟨S2000000x1, .i32⟩
  | 19 => ⟨S150000, .f32⟩
  | 20 => ⟨S_, .f32⟩
  | 21 => ⟨S150000, .f32⟩
  | 22 => ⟨S150000, .f32⟩
  | 23 => ⟨S150000, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000, .f32⟩
  | 33 => ⟨S_, .f32⟩
  | 34 => ⟨S150000, .f32⟩
  | 35 => ⟨S150000, .f32⟩
  | 36 => ⟨S150000, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S2000000x1, .i32⟩
  | 45 => ⟨S2000000, .f32⟩
  | 46 => ⟨S2000000, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S2000000x1, .f32⟩
  | 57 => ⟨S2000000x64, .f32⟩
  | 58 => ⟨S2000000x64, .f32⟩
  | 59 => ⟨S_, .f32⟩
  | 60 => ⟨S150000x64, .f32⟩
  | 61 => ⟨S2000000x1, .i32⟩
  | 62 => ⟨S150000x64, .f32⟩
  | 63 => ⟨S150000x64, .f32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000x64, .f32⟩
  | 73 => ⟨S2000000x1, .f32⟩
  | 74 => ⟨S2000000x64, .f32⟩
  | 75 => ⟨S2000000x64, .f32⟩
  | 76 => ⟨S_, .f32⟩
  | 77 => ⟨S150000x64, .f32⟩
  | 78 => ⟨S2000000x1, .i32⟩
  | 79 => ⟨S150000x64, .f32⟩
  | 80 => ⟨S150000x64, .f32⟩
  | 81 => ⟨S_, .i32⟩
  | 82 => ⟨S2000000, .i32⟩
  | 83 => ⟨S2000000, .i1⟩
  | 84 => ⟨S_, .i32⟩
  | 85 => ⟨S2000000, .i32⟩
  | 86 => ⟨S2000000, .i32⟩
  | 87 => ⟨S2000000, .i32⟩
  | 88 => ⟨S2000000x1, .i32⟩
  | 89 => ⟨S2000000x64, .f32⟩
  | 90 => ⟨S2000000x1, .f32⟩
  | 91 => ⟨S2000000x64, .f32⟩
  | 92 => ⟨S2000000x64, .f32⟩
  | 93 => ⟨S_, .f32⟩
  | 94 => ⟨S150000x64, .f32⟩
  | 95 => ⟨S2000000x1, .i32⟩
  | 96 => ⟨S150000x64, .f32⟩
  | 97 => ⟨S150000x64, .f32⟩
  | 98 => ⟨S_, .f32⟩
  | 99 => ⟨S150000x64, .f32⟩
  | 100 => ⟨S150000x64, .f32⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S2000000x1, .i32⟩
  | 109 => ⟨S2000000x64, .f32⟩
  | 110 => ⟨S2000000x1, .f32⟩
  | 111 => ⟨S2000000x64, .f32⟩
  | 112 => ⟨S2000000x64, .f32⟩
  | 113 => ⟨S_, .f32⟩
  | 114 => ⟨S150000x64, .f32⟩
  | 115 => ⟨S2000000x1, .i32⟩
  | 116 => ⟨S150000x64, .f32⟩
  | 117 => ⟨S150000x64, .f32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x64, .f32⟩
  | 127 => ⟨S2000000x1, .f32⟩
  | _ => ⟨S150000x64, .f32⟩

abbrev hbmTy0_1 (i : Nat) : BufTy := match i % 128 with
  | 0 => ⟨S2000000x64, .f32⟩
  | 1 => ⟨S2000000x64, .f32⟩
  | 2 => ⟨S_, .f32⟩
  | 3 => ⟨S150000x64, .f32⟩
  | 4 => ⟨S2000000x1, .i32⟩
  | 5 => ⟨S150000x64, .f32⟩
  | 6 => ⟨S150000x64, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x64, .f32⟩
  | 16 => ⟨S2000000x1, .f32⟩
  | 17 => ⟨S2000000x64, .f32⟩
  | 18 => ⟨S2000000x64, .f32⟩
  | 19 => ⟨S_, .f32⟩
  | 20 => ⟨S150000x64, .f32⟩
  | 21 => ⟨S2000000x1, .i32⟩
  | 22 => ⟨S150000x64, .f32⟩
  | 23 => ⟨S150000x64, .f32⟩
  | 24 => ⟨S_, .f32⟩
  | 25 => ⟨S150000x64, .f32⟩
  | 26 => ⟨S150000x64, .f32⟩
  | 27 => ⟨S_, .i32⟩
  | 28 => ⟨S8192x1, .i32⟩
  | 29 => ⟨S8192x1, .i32⟩
  | 30 => ⟨S_, .i32⟩
  | 31 => ⟨S8192x1, .i32⟩
  | 32 => ⟨S8192x1, .i32⟩
  | 33 => ⟨S_, .i32⟩
  | 34 => ⟨S8192x1, .i32⟩
  | 35 => ⟨S8192x1, .i1⟩
  | 36 => ⟨S_, .i32⟩
  | 37 => ⟨S8192x1, .i32⟩
  | 38 => ⟨S8192x1, .i32⟩
  | 39 => ⟨S8192x1, .i32⟩
  | 40 => ⟨S8192x1x1, .i32⟩
  | 41 => ⟨S8192x1x64, .f32⟩
  | 42 => ⟨S_, .i32⟩
  | 43 => ⟨S8192x1, .i32⟩
  | 44 => ⟨S8192x1, .i1⟩
  | 45 => ⟨S_, .i32⟩
  | 46 => ⟨S8192x1, .i32⟩
  | 47 => ⟨S8192x1, .i32⟩
  | 48 => ⟨S8192x1, .i32⟩
  | 49 => ⟨S8192x1x1, .i32⟩
  | 50 => ⟨S8192x1x64, .f32⟩
  | 51 => ⟨S_, .i32⟩
  | 52 => ⟨S8192x1, .i32⟩
  | 53 => ⟨S8192x1, .i1⟩
  | 54 => ⟨S_, .i32⟩
  | 55 => ⟨S8192x1, .i32⟩
  | 56 => ⟨S8192x1, .i32⟩
  | 57 => ⟨S8192x1, .i32⟩
  | 58 => ⟨S8192x1x1, .i32⟩
  | 59 => ⟨S8192x1x64, .f32⟩
  | 60 => ⟨S_, .i32⟩
  | 61 => ⟨S8192x1, .i32⟩
  | 62 => ⟨S8192x1, .i1⟩
  | 63 => ⟨S_, .i32⟩
  | 64 => ⟨S8192x1, .i32⟩
  | 65 => ⟨S8192x1, .i32⟩
  | 66 => ⟨S8192x1, .i32⟩
  | 67 => ⟨S8192x1x1, .i32⟩
  | 68 => ⟨S8192x1x64, .f32⟩
  | 69 => ⟨S_, .i32⟩
  | 70 => ⟨S8192x1, .i32⟩
  | 71 => ⟨S8192x1, .i1⟩
  | 72 => ⟨S_, .i32⟩
  | 73 => ⟨S8192x1, .i32⟩
  | 74 => ⟨S8192x1, .i32⟩
  | 75 => ⟨S8192x1, .i32⟩
  | 76 => ⟨S8192x1x1, .i32⟩
  | 77 => ⟨S8192x1x64, .f32⟩
  | 78 => ⟨S_, .i32⟩
  | 79 => ⟨S8192x1, .i32⟩
  | 80 => ⟨S8192x1, .i1⟩
  | 81 => ⟨S_, .i32⟩
  | 82 => ⟨S8192x1, .i32⟩
  | 83 => ⟨S8192x1, .i32⟩
  | 84 => ⟨S8192x1, .i32⟩
  | 85 => ⟨S8192x1x1, .i32⟩
  | 86 => ⟨S8192x1x64, .f32⟩
  | 87 => ⟨S8192x1x64, .f32⟩
  | 88 => ⟨S_, .f32⟩
  | 89 => ⟨S8192x1, .f32⟩
  | 90 => ⟨S8192x1x64, .f32⟩
  | 91 => ⟨S_, .f32⟩
  | 92 => ⟨S8192x1, .f32⟩
  | 93 => ⟨S8192x1x64, .f32⟩
  | 94 => ⟨S_, .f32⟩
  | 95 => ⟨S8192x1, .f32⟩
  | 96 => ⟨S8192x1x64, .f32⟩
  | 97 => ⟨S_, .f32⟩
  | 98 => ⟨S8192x1, .f32⟩
  | 99 => ⟨S8192x1, .f32⟩
  | 100 => ⟨S8192x1, .f32⟩
  | 101 => ⟨S8192x1, .f32⟩
  | 102 => ⟨S8192x1, .i1⟩
  | 103 => ⟨S8192x1, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x1, .f32⟩
  | 110 => ⟨S8192x1, .f32⟩
  | 111 => ⟨S8192x1, .i1⟩
  | 112 => ⟨S8192x1, .f32⟩
  | 113 => ⟨S8192x1, .f32⟩
  | 114 => ⟨S8192x1, .f32⟩
  | 115 => ⟨S8192x1, .f32⟩
  | 116 => ⟨S8192x1, .f32⟩
  | 117 => ⟨S8192x1, .f32⟩
  | 118 => ⟨S8192x1, .f32⟩
  | 119 => ⟨S8192x1, .f32⟩
  | 120 => ⟨S8192x1, .f32⟩
  | 121 => ⟨S8192x1, .f32⟩
  | 122 => ⟨S_, .f32⟩
  | 123 => ⟨S_, .f32⟩
  | 124 => ⟨S_, .f32⟩
  | 125 => ⟨S_, .f32⟩
  | 126 => ⟨S_, .f32⟩
  | 127 => ⟨S8192x1, .f32⟩
  | _ => ⟨S150000x64, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x1, .f32⟩
  | 5 => ⟨S8192x1, .f32⟩
  | 6 => ⟨S8192x1, .i1⟩
  | 7 => ⟨S8192x1, .f32⟩
  | 8 => ⟨S8192x1, .f32⟩
  | 9 => ⟨S8192x1, .f32⟩
  | 10 => ⟨S8192x1, .f32⟩
  | 11 => ⟨S8192x1, .f32⟩
  | 12 => ⟨S8192x1, .f32⟩
  | 13 => ⟨S8192x1, .f32⟩
  | 14 => ⟨S8192x1, .f32⟩
  | 15 => ⟨S8192x1, .f32⟩
  | 16 => ⟨S8192x1, .f32⟩
  | 17 => ⟨S_, .f32⟩
  | 18 => ⟨S_, .f32⟩
  | 19 => ⟨S_, .f32⟩
  | 20 => ⟨S_, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1, .f32⟩
  | 29 => ⟨S8192x1, .i1⟩
  | 30 => ⟨S8192x1, .f32⟩
  | 31 => ⟨S8192x1, .f32⟩
  | 32 => ⟨S8192x1, .f32⟩
  | 33 => ⟨S8192x1, .f32⟩
  | 34 => ⟨S8192x1, .f32⟩
  | 35 => ⟨S8192x1, .f32⟩
  | 36 => ⟨S8192x1, .f32⟩
  | 37 => ⟨S8192x1, .f32⟩
  | 38 => ⟨S8192x1, .f32⟩
  | 39 => ⟨S8192x1, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .i32⟩
  | 47 => ⟨S8192x1, .i32⟩
  | 48 => ⟨S8192x1, .i1⟩
  | 49 => ⟨S_, .i32⟩
  | 50 => ⟨S8192x1, .i32⟩
  | 51 => ⟨S8192x1, .i32⟩
  | 52 => ⟨S8192x1, .i32⟩
  | 53 => ⟨S8192x1x1, .i32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S8192x1, .i1⟩
  | 61 => ⟨S8192x1, .f32⟩
  | 62 => ⟨S8192x1, .f32⟩
  | 63 => ⟨S8192x1, .f32⟩
  | 64 => ⟨S8192x1, .f32⟩
  | 65 => ⟨S8192x1, .f32⟩
  | 66 => ⟨S8192x1, .f32⟩
  | 67 => ⟨S8192x1, .f32⟩
  | 68 => ⟨S8192x1, .f32⟩
  | 69 => ⟨S_, .i32⟩
  | 70 => ⟨S8192x1, .i32⟩
  | 71 => ⟨S8192x1, .i1⟩
  | 72 => ⟨S_, .i32⟩
  | 73 => ⟨S8192x1, .i32⟩
  | 74 => ⟨S8192x1, .i32⟩
  | 75 => ⟨S8192x1, .i32⟩
  | 76 => ⟨S8192x1x1, .i32⟩
  | 77 => ⟨S8192x1, .f32⟩
  | 78 => ⟨S_, .f32⟩
  | 79 => ⟨S8192x1, .f32⟩
  | 80 => ⟨S8192x1, .f32⟩
  | 81 => ⟨S8192x1, .f32⟩
  | 82 => ⟨S8192x1, .f32⟩
  | 83 => ⟨S8192x1, .i1⟩
  | 84 => ⟨S8192x1, .f32⟩
  | 85 => ⟨S8192x1, .f32⟩
  | 86 => ⟨S8192x1, .f32⟩
  | 87 => ⟨S8192x1, .f32⟩
  | 88 => ⟨S8192x1, .f32⟩
  | 89 => ⟨S8192x1, .f32⟩
  | 90 => ⟨S8192x1, .f32⟩
  | 91 => ⟨S8192x1, .f32⟩
  | 92 => ⟨S8192x1, .f32⟩
  | 93 => ⟨S_, .i32⟩
  | 94 => ⟨S8192x1, .i32⟩
  | 95 => ⟨S8192x1, .i1⟩
  | 96 => ⟨S_, .i32⟩
  | 97 => ⟨S8192x1, .i32⟩
  | 98 => ⟨S8192x1, .i32⟩
  | 99 => ⟨S8192x1, .i32⟩
  | 100 => ⟨S8192x1x1, .i32⟩
  | 101 => ⟨S8192x1, .f32⟩
  | 102 => ⟨S_, .f32⟩
  | 103 => ⟨S8192x1, .f32⟩
  | 104 => ⟨S8192x1, .f32⟩
  | 105 => ⟨S8192x1, .f32⟩
  | 106 => ⟨S8192x1, .f32⟩
  | 107 => ⟨S8192x1, .i1⟩
  | 108 => ⟨S8192x1, .f32⟩
  | 109 => ⟨S8192x1, .f32⟩
  | 110 => ⟨S8192x1, .f32⟩
  | 111 => ⟨S8192x1, .f32⟩
  | 112 => ⟨S8192x1, .f32⟩
  | 113 => ⟨S8192x1, .f32⟩
  | 114 => ⟨S8192x1, .f32⟩
  | 115 => ⟨S8192x1, .f32⟩
  | 116 => ⟨S_, .i32⟩
  | 117 => ⟨S8192x1, .i32⟩
  | 118 => ⟨S8192x1, .i1⟩
  | 119 => ⟨S_, .i32⟩
  | 120 => ⟨S8192x1, .i32⟩
  | 121 => ⟨S8192x1, .i32⟩
  | 122 => ⟨S8192x1, .i32⟩
  | 123 => ⟨S8192x1x1, .i32⟩
  | 124 => ⟨S8192x1, .f32⟩
  | 125 => ⟨S_, .f32⟩
  | 126 => ⟨S8192x1, .f32⟩
  | 127 => ⟨S8192x1, .f32⟩
  | _ => ⟨S150000x64, .f32⟩

abbrev hbmTy0_3 (i : Nat) : BufTy := match i % 128 with
  | 0 => ⟨S8192x1, .f32⟩
  | 1 => ⟨S8192x1, .f32⟩
  | 2 => ⟨S8192x1, .i1⟩
  | 3 => ⟨S8192x1, .f32⟩
  | 4 => ⟨S8192x1, .f32⟩
  | 5 => ⟨S8192x1, .f32⟩
  | 6 => ⟨S8192x1, .f32⟩
  | 7 => ⟨S8192x1, .f32⟩
  | 8 => ⟨S8192x1, .f32⟩
  | 9 => ⟨S8192x1, .f32⟩
  | 10 => ⟨S8192x1, .f32⟩
  | 11 => ⟨S8192x1, .f32⟩
  | 12 => ⟨S8192x1, .f32⟩
  | 13 => ⟨S8192x1, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S8192x1, .i1⟩
  | 24 => ⟨S8192x1, .f32⟩
  | 25 => ⟨S8192x1, .f32⟩
  | 26 => ⟨S8192x1, .f32⟩
  | 27 => ⟨S8192x1, .f32⟩
  | 28 => ⟨S8192x1, .f32⟩
  | 29 => ⟨S8192x1, .f32⟩
  | 30 => ⟨S8192x1, .f32⟩
  | 31 => ⟨S8192x1, .f32⟩
  | 32 => ⟨S8192x1, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | _ => ⟨S150000x64, .f32⟩

abbrev hbmTy (i : Nat) : BufTy := match i / 128 with
  | 0 => hbmTy0_0 i
  | 1 => hbmTy0_1 i
  | 2 => hbmTy0_2 i
  | 3 => hbmTy0_3 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_20 : Ref sig .tc := ⟨.hbm, 118, rfl⟩
abbrev main_v86 : Ref sig .tc := ⟨.hbm, 119, rfl⟩
abbrev main_v87 : Ref sig .tc := ⟨.hbm, 120, rfl⟩
abbrev main_c_21 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_22 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_23 : Ref sig .tc := ⟨.hbm, 135, rfl⟩
abbrev main_v100 : Ref sig .tc := ⟨.hbm, 136, rfl⟩
abbrev main_v101 : Ref sig .tc := ⟨.hbm, 137, rfl⟩
abbrev main_c_24 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_25 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_26 : Ref sig .tc := ⟨.hbm, 152, rfl⟩
abbrev main_v114 : Ref sig .tc := ⟨.hbm, 153, rfl⟩
abbrev main_v115 : Ref sig .tc := ⟨.hbm, 154, rfl⟩
abbrev main_c_27 : Ref sig .tc := ⟨.hbm, 155, rfl⟩
abbrev main_v116 : Ref sig .tc := ⟨.hbm, 156, rfl⟩
abbrev main_v117 : Ref sig .tc := ⟨.hbm, 157, rfl⟩
abbrev main_c_28 : Ref sig .tc := ⟨.hbm, 158, rfl⟩
abbrev main_v118 : Ref sig .tc := ⟨.hbm, 159, rfl⟩
abbrev main_v119 : Ref sig .tc := ⟨.hbm, 160, rfl⟩
abbrev main_c_29 : Ref sig .tc := ⟨.hbm, 161, rfl⟩
abbrev main_v120 : Ref sig .tc := ⟨.hbm, 162, rfl⟩
abbrev main_v121 : Ref sig .tc := ⟨.hbm, 163, rfl⟩
abbrev main_c_30 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_31 : Ref sig .tc := ⟨.hbm, 170, rfl⟩
abbrev main_v127 : Ref sig .tc := ⟨.hbm, 171, rfl⟩
abbrev main_v128 : Ref sig .tc := ⟨.hbm, 172, rfl⟩
abbrev main_c_32 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_33 : Ref sig .tc := ⟨.hbm, 179, rfl⟩
abbrev main_v134 : Ref sig .tc := ⟨.hbm, 180, rfl⟩
abbrev main_v135 : Ref sig .tc := ⟨.hbm, 181, rfl⟩
abbrev main_c_34 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_c_35 : Ref sig .tc := ⟨.hbm, 188, rfl⟩
abbrev main_v141 : Ref sig .tc := ⟨.hbm, 189, rfl⟩
abbrev main_v142 : Ref sig .tc := ⟨.hbm, 190, rfl⟩
abbrev main_c_36 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_c_37 : Ref sig .tc := ⟨.hbm, 197, rfl⟩
abbrev main_v148 : Ref sig .tc := ⟨.hbm, 198, rfl⟩
abbrev main_v149 : Ref sig .tc := ⟨.hbm, 199, rfl⟩
abbrev main_c_38 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c_39 : Ref sig .tc := ⟨.hbm, 206, rfl⟩
abbrev main_v155 : Ref sig .tc := ⟨.hbm, 207, rfl⟩
abbrev main_v156 : Ref sig .tc := ⟨.hbm, 208, rfl⟩
abbrev main_c_40 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_cst_41 : Ref sig .tc := ⟨.hbm, 216, rfl⟩
abbrev main_v163 : Ref sig .tc := ⟨.hbm, 217, rfl⟩
abbrev main_v164 : Ref sig .tc := ⟨.hbm, 218, rfl⟩
abbrev main_cst_42 : Ref sig .tc := ⟨.hbm, 219, rfl⟩
abbrev main_v165 : Ref sig .tc := ⟨.hbm, 220, rfl⟩
abbrev main_v166 : Ref sig .tc := ⟨.hbm, 221, rfl⟩
abbrev main_cst_43 : Ref sig .tc := ⟨.hbm, 222, rfl⟩
abbrev main_v167 : Ref sig .tc := ⟨.hbm, 223, rfl⟩
abbrev main_v168 : Ref sig .tc := ⟨.hbm, 224, rfl⟩
abbrev main_cst_44 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_call0_v0 : Ref sig .tc := ⟨.hbm, 233, rfl⟩
abbrev main_call0_call0_cst : Ref sig .tc := ⟨.hbm, 234, rfl⟩
abbrev main_call0_call0_v0 : Ref sig .tc := ⟨.hbm, 235, rfl⟩
abbrev main_call0_call0_v1 : Ref sig .tc := ⟨.hbm, 236, rfl⟩
abbrev main_call0_call0_v2 : Ref sig .tc := ⟨.hbm, 237, rfl⟩
abbrev main_call0_call0_v3 : Ref sig .tc := ⟨.hbm, 238, rfl⟩
abbrev main_call0_call0_v4 : Ref sig .tc := ⟨.hbm, 239, rfl⟩
abbrev main_call0_call0_v5 : Ref sig .tc := ⟨.hbm, 240, rfl⟩
abbrev main_call0_call0_v6 : Ref sig .tc := ⟨.hbm, 241, rfl⟩
abbrev main_call0_call0_v7 : Ref sig .tc := ⟨.hbm, 242, rfl⟩
abbrev main_call0_call0_v8 : Ref sig .tc := ⟨.hbm, 243, rfl⟩
abbrev main_call0_call0_v9 : Ref sig .tc := ⟨.hbm, 244, rfl⟩
abbrev main_call0_call0_v10 : Ref sig .tc := ⟨.hbm, 245, rfl⟩
abbrev main_call0_call0_v11 : Ref sig .tc := ⟨.hbm, 246, rfl⟩
abbrev main_call0_v1 : Ref sig .tc := ⟨.hbm, 247, rfl⟩
abbrev main_v176 : Ref sig .tc := ⟨.hbm, 248, rfl⟩
abbrev main_v177 : Ref sig .tc := ⟨.hbm, 249, rfl⟩
abbrev main_cst_45 : Ref sig .tc := ⟨.hbm, 250, rfl⟩
abbrev main_v178 : Ref sig .tc := ⟨.hbm, 251, rfl⟩
abbrev main_cst_46 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_call1_v0 : Ref sig .tc := ⟨.hbm, 256, rfl⟩
abbrev main_call1_call0_cst : Ref sig .tc := ⟨.hbm, 257, rfl⟩
abbrev main_call1_call0_v0 : Ref sig .tc := ⟨.hbm, 258, rfl⟩
abbrev main_call1_call0_v1 : Ref sig .tc := ⟨.hbm, 259, rfl⟩
abbrev main_call1_call0_v2 : Ref sig .tc := ⟨.hbm, 260, rfl⟩
abbrev main_call1_call0_v3 : Ref sig .tc := ⟨.hbm, 261, rfl⟩
abbrev main_call1_call0_v4 : Ref sig .tc := ⟨.hbm, 262, rfl⟩
abbrev main_call1_call0_v5 : Ref sig .tc := ⟨.hbm, 263, rfl⟩
abbrev main_call1_call0_v6 : Ref sig .tc := ⟨.hbm, 264, rfl⟩
abbrev main_call1_call0_v7 : Ref sig .tc := ⟨.hbm, 265, rfl⟩
abbrev main_call1_call0_v8 : Ref sig .tc := ⟨.hbm, 266, rfl⟩
abbrev main_call1_call0_v9 : Ref sig .tc := ⟨.hbm, 267, rfl⟩
abbrev main_call1_call0_v10 : Ref sig .tc := ⟨.hbm, 268, rfl⟩
abbrev main_call1_call0_v11 : Ref sig .tc := ⟨.hbm, 269, rfl⟩
abbrev main_call1_v1 : Ref sig .tc := ⟨.hbm, 270, rfl⟩
abbrev main_v182 : Ref sig .tc := ⟨.hbm, 271, rfl⟩
abbrev main_v183 : Ref sig .tc := ⟨.hbm, 272, rfl⟩
abbrev main_cst_47 : Ref sig .tc := ⟨.hbm, 273, rfl⟩
abbrev main_v184 : Ref sig .tc := ⟨.hbm, 274, rfl⟩
abbrev main_cst_48 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_call2_v0 : Ref sig .tc := ⟨.hbm, 279, rfl⟩
abbrev main_call2_call0_cst : Ref sig .tc := ⟨.hbm, 280, rfl⟩
abbrev main_call2_call0_v0 : Ref sig .tc := ⟨.hbm, 281, rfl⟩
abbrev main_call2_call0_v1 : Ref sig .tc := ⟨.hbm, 282, rfl⟩
abbrev main_call2_call0_v2 : Ref sig .tc := ⟨.hbm, 283, rfl⟩
abbrev main_call2_call0_v3 : Ref sig .tc := ⟨.hbm, 284, rfl⟩
abbrev main_call2_call0_v4 : Ref sig .tc := ⟨.hbm, 285, rfl⟩
abbrev main_call2_call0_v5 : Ref sig .tc := ⟨.hbm, 286, rfl⟩
abbrev main_call2_call0_v6 : Ref sig .tc := ⟨.hbm, 287, rfl⟩
abbrev main_call2_call0_v7 : Ref sig .tc := ⟨.hbm, 288, rfl⟩
abbrev main_call2_call0_v8 : Ref sig .tc := ⟨.hbm, 289, rfl⟩
abbrev main_call2_call0_v9 : Ref sig .tc := ⟨.hbm, 290, rfl⟩
abbrev main_call2_call0_v10 : Ref sig .tc := ⟨.hbm, 291, rfl⟩
abbrev main_call2_call0_v11 : Ref sig .tc := ⟨.hbm, 292, rfl⟩
abbrev main_call2_v1 : Ref sig .tc := ⟨.hbm, 293, rfl⟩
abbrev main_v188 : Ref sig .tc := ⟨.hbm, 294, rfl⟩
abbrev main_v189 : Ref sig .tc := ⟨.hbm, 295, rfl⟩
abbrev main_cst_49 : Ref sig .tc := ⟨.hbm, 296, rfl⟩
abbrev main_v190 : Ref sig .tc := ⟨.hbm, 297, rfl⟩
abbrev main_cst_50 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_c_51 : Ref sig .tc := ⟨.hbm, 302, rfl⟩
abbrev main_v194 : Ref sig .tc := ⟨.hbm, 303, rfl⟩
abbrev main_v195 : Ref sig .tc := ⟨.hbm, 304, rfl⟩
abbrev main_c_52 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_v200 : Ref sig .tc := ⟨.hbm, 310, rfl⟩
abbrev main_call3_cst : Ref sig .tc := ⟨.hbm, 311, rfl⟩
abbrev main_call3_v0 : Ref sig .tc := ⟨.hbm, 312, rfl⟩
abbrev main_call3_v1 : Ref sig .tc := ⟨.hbm, 313, rfl⟩
abbrev main_call3_v2 : Ref sig .tc := ⟨.hbm, 314, rfl⟩
abbrev main_call3_v3 : Ref sig .tc := ⟨.hbm, 315, rfl⟩
abbrev main_call3_v4 : Ref sig .tc := ⟨.hbm, 316, rfl⟩
abbrev main_call3_v5 : Ref sig .tc := ⟨.hbm, 317, rfl⟩
abbrev main_call3_v6 : Ref sig .tc := ⟨.hbm, 318, rfl⟩
abbrev main_call3_v7 : Ref sig .tc := ⟨.hbm, 319, rfl⟩
abbrev main_call3_v8 : Ref sig .tc := ⟨.hbm, 320, rfl⟩
abbrev main_call3_v9 : Ref sig .tc := ⟨.hbm, 321, rfl⟩
abbrev main_call3_v10 : Ref sig .tc := ⟨.hbm, 322, rfl⟩
abbrev main_call3_v11 : Ref sig .tc := ⟨.hbm, 323, rfl⟩
abbrev main_v201 : Ref sig .tc := ⟨.hbm, 324, rfl⟩
abbrev main_c_53 : Ref sig .tc := ⟨.hbm, 325, rfl⟩
abbrev main_v202 : Ref sig .tc := ⟨.hbm, 326, rfl⟩
abbrev main_v203 : Ref sig .tc := ⟨.hbm, 327, rfl⟩
abbrev main_c_54 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_v207 : Ref sig .tc := ⟨.hbm, 332, rfl⟩
abbrev main_v208 : Ref sig .tc := ⟨.hbm, 333, rfl⟩
abbrev main_call4_cst : Ref sig .tc := ⟨.hbm, 334, rfl⟩
abbrev main_call4_v0 : Ref sig .tc := ⟨.hbm, 335, rfl⟩
abbrev main_call4_v1 : Ref sig .tc := ⟨.hbm, 336, rfl⟩
abbrev main_call4_v2 : Ref sig .tc := ⟨.hbm, 337, rfl⟩
abbrev main_call4_v3 : Ref sig .tc := ⟨.hbm, 338, rfl⟩
abbrev main_call4_v4 : Ref sig .tc := ⟨.hbm, 339, rfl⟩
abbrev main_call4_v5 : Ref sig .tc := ⟨.hbm, 340, rfl⟩
abbrev main_call4_v6 : Ref sig .tc := ⟨.hbm, 341, rfl⟩
abbrev main_call4_v7 : Ref sig .tc := ⟨.hbm, 342, rfl⟩
abbrev main_call4_v8 : Ref sig .tc := ⟨.hbm, 343, rfl⟩
abbrev main_call4_v9 : Ref sig .tc := ⟨.hbm, 344, rfl⟩
abbrev main_call4_v10 : Ref sig .tc := ⟨.hbm, 345, rfl⟩
abbrev main_call4_v11 : Ref sig .tc := ⟨.hbm, 346, rfl⟩
abbrev main_v209 : Ref sig .tc := ⟨.hbm, 347, rfl⟩
abbrev main_v210 : Ref sig .tc := ⟨.hbm, 348, rfl⟩
abbrev main_c_55 : Ref sig .tc := ⟨.hbm, 349, rfl⟩
abbrev main_v211 : Ref sig .tc := ⟨.hbm, 350, rfl⟩
abbrev main_v212 : Ref sig .tc := ⟨.hbm, 351, rfl⟩
abbrev main_c_56 : Ref sig .tc := ⟨.hbm, 352, rfl⟩
abbrev main_v213 : Ref sig .tc := ⟨.hbm, 353, rfl⟩
abbrev main_v214 : Ref sig .tc := ⟨.hbm, 354, rfl⟩
abbrev main_v215 : Ref sig .tc := ⟨.hbm, 355, rfl⟩
abbrev main_v216 : Ref sig .tc := ⟨.hbm, 356, rfl⟩
abbrev main_v217 : Ref sig .tc := ⟨.hbm, 357, rfl⟩
abbrev main_call5_cst : Ref sig .tc := ⟨.hbm, 358, rfl⟩
abbrev main_call5_v0 : Ref sig .tc := ⟨.hbm, 359, rfl⟩
abbrev main_call5_v1 : Ref sig .tc := ⟨.hbm, 360, rfl⟩
abbrev main_call5_v2 : Ref sig .tc := ⟨.hbm, 361, rfl⟩
abbrev main_call5_v3 : Ref sig .tc := ⟨.hbm, 362, rfl⟩
abbrev main_call5_v4 : Ref sig .tc := ⟨.hbm, 363, rfl⟩
abbrev main_call5_v5 : Ref sig .tc := ⟨.hbm, 364, rfl⟩
abbrev main_call5_v6 : Ref sig .tc := ⟨.hbm, 365, rfl⟩
abbrev main_call5_v7 : Ref sig .tc := ⟨.hbm, 366, rfl⟩
abbrev main_call5_v8 : Ref sig .tc := ⟨.hbm, 367, rfl⟩
abbrev main_call5_v9 : Ref sig .tc := ⟨.hbm, 368, rfl⟩
abbrev main_call5_v10 : Ref sig .tc := ⟨.hbm, 369, rfl⟩
abbrev main_call5_v11 : Ref sig .tc := ⟨.hbm, 370, rfl⟩
abbrev main_v218 : Ref sig .tc := ⟨.hbm, 371, rfl⟩
abbrev main_c_57 : Ref sig .tc := ⟨.hbm, 372, rfl⟩
abbrev main_v219 : Ref sig .tc := ⟨.hbm, 373, rfl⟩
abbrev main_v220 : Ref sig .tc := ⟨.hbm, 374, rfl⟩
abbrev main_c_58 : Ref sig .tc := ⟨.hbm, 375, rfl⟩
abbrev main_v221 : Ref sig .tc := ⟨.hbm, 376, rfl⟩
abbrev main_v222 : Ref sig .tc := ⟨.hbm, 377, rfl⟩
abbrev main_v223 : Ref sig .tc := ⟨.hbm, 378, rfl⟩
abbrev main_v224 : Ref sig .tc := ⟨.hbm, 379, rfl⟩
abbrev main_v225 : Ref sig .tc := ⟨.hbm, 380, rfl⟩
abbrev main_call6_cst : Ref sig .tc := ⟨.hbm, 381, rfl⟩
abbrev main_call6_v0 : Ref sig .tc := ⟨.hbm, 382, rfl⟩
abbrev main_call6_v1 : Ref sig .tc := ⟨.hbm, 383, rfl⟩
abbrev main_call6_v2 : Ref sig .tc := ⟨.hbm, 384, rfl⟩
abbrev main_call6_v3 : Ref sig .tc := ⟨.hbm, 385, rfl⟩
abbrev main_call6_v4 : Ref sig .tc := ⟨.hbm, 386, rfl⟩
abbrev main_call6_v5 : Ref sig .tc := ⟨.hbm, 387, rfl⟩
abbrev main_call6_v6 : Ref sig .tc := ⟨.hbm, 388, rfl⟩
abbrev main_call6_v7 : Ref sig .tc := ⟨.hbm, 389, rfl⟩
abbrev main_call6_v8 : Ref sig .tc := ⟨.hbm, 390, rfl⟩
abbrev main_call6_v9 : Ref sig .tc := ⟨.hbm, 391, rfl⟩
abbrev main_call6_v10 : Ref sig .tc := ⟨.hbm, 392, rfl⟩
abbrev main_call6_v11 : Ref sig .tc := ⟨.hbm, 393, rfl⟩
abbrev main_v226 : Ref sig .tc := ⟨.hbm, 394, rfl⟩
abbrev main_v227 : Ref sig .tc := ⟨.hbm, 395, rfl⟩
abbrev main_v228 : Ref sig .tc := ⟨.hbm, 396, rfl⟩
abbrev main_v229 : Ref sig .tc := ⟨.hbm, 397, rfl⟩
abbrev main_v230 : Ref sig .tc := ⟨.hbm, 398, rfl⟩
abbrev main_v231 : Ref sig .tc := ⟨.hbm, 399, rfl⟩
abbrev main_v232 : Ref sig .tc := ⟨.hbm, 400, rfl⟩
abbrev main_call7_v0 : Ref sig .tc := ⟨.hbm, 401, rfl⟩
abbrev main_call7_call0_cst : Ref sig .tc := ⟨.hbm, 402, rfl⟩
abbrev main_call7_call0_v0 : Ref sig .tc := ⟨.hbm, 403, rfl⟩
abbrev main_call7_call0_v1 : Ref sig .tc := ⟨.hbm, 404, rfl⟩
abbrev main_call7_call0_v2 : Ref sig .tc := ⟨.hbm, 405, rfl⟩
abbrev main_call7_call0_v3 : Ref sig .tc := ⟨.hbm, 406, rfl⟩
abbrev main_call7_call0_v4 : Ref sig .tc := ⟨.hbm, 407, rfl⟩
abbrev main_call7_call0_v5 : Ref sig .tc := ⟨.hbm, 408, rfl⟩
abbrev main_call7_call0_v6 : Ref sig .tc := ⟨.hbm, 409, rfl⟩
abbrev main_call7_call0_v7 : Ref sig .tc := ⟨.hbm, 410, rfl⟩
abbrev main_call7_call0_v8 : Ref sig .tc := ⟨.hbm, 411, rfl⟩
abbrev main_call7_call0_v9 : Ref sig .tc := ⟨.hbm, 412, rfl⟩
abbrev main_call7_call0_v10 : Ref sig .tc := ⟨.hbm, 413, rfl⟩
abbrev main_call7_call0_v11 : Ref sig .tc := ⟨.hbm, 414, rfl⟩
abbrev main_call7_v1 : Ref sig .tc := ⟨.hbm, 415, rfl⟩
abbrev main_v233 : Ref sig .tc := ⟨.hbm, 416, rfl⟩
abbrev main_cst_59 : Ref sig .tc := ⟨.hbm, 417, rfl⟩
abbrev main_v234 : Ref sig .tc := ⟨.hbm, 418, rfl⟩
abbrev main_cst_60 : Ref sig .tc := ⟨.hbm, 419, rfl⟩
abbrev main_v235 : Ref sig .tc := ⟨.hbm, 420, rfl⟩
abbrev main_v236 : Ref sig .tc := ⟨.hbm, 421, rfl⟩
abbrev main_cst_61 : Ref sig .tc := ⟨.hbm, 422, rfl⟩
abbrev main_v237 : Ref sig .tc := ⟨.hbm, 423, rfl⟩
abbrev main_cst_62 : Ref sig .tc := ⟨.hbm, 424, rfl⟩
abbrev main_v238 : Ref sig .tc := ⟨.hbm, 425, rfl⟩
abbrev main_v239 : Ref sig .tc := ⟨.hbm, 426, rfl⟩
abbrev main_cst_63 : Ref sig .tc := ⟨.hbm, 427, rfl⟩
abbrev main_v240 : Ref sig .tc := ⟨.hbm, 428, rfl⟩
abbrev main_v241 : Ref sig .tc := ⟨.hbm, 429, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  bcast_S_S8192x1 : S_.BroadcastsInDim S8192x1 (![] : Fin 0 → Fin S8192x1.rank)
  bcast_S8192x1_S8192x1x1_0_1 : S8192x1.BroadcastsInDim S8192x1x1 (![0, 1] : Fin 2 → Fin S8192x1x1.rank)
  reducesTo_S8192x1x64_S8192x1_d2 : S8192x1x64.ReducesTo [2] S8192x1
  h_S_ : 0 < S_.numel
  reducesTo_S8192x1_S_d0_1 : S8192x1.ReducesTo [0, 1] S_
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S150000x64_S8192x1x1_S8192x1x64_2_0_n_n_0_2_164_wf : GatherDims.WF S150000x64 S8192x1x1 S8192x1x64 [2] [0] [] [0] [] 2 ![1, 64]
  gather_S50000_S8192x1x1_S8192x1_n_0_n_n_0_2_1_wf : GatherDims.WF S50000 S8192x1x1 S8192x1 [] [0] [] [0] [] 2 ![1]

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S150000x64_S8192x1x1_S8192x1x64_2_0_n_n_0_2_164 : GatherDims S150000x64 S8192x1x1 S8192x1x64 where
  offsetDims := [2]
  collapsedSliceDims := [0]
  operandBatchingDims := []
  startIndicesBatchingDims := []
  startIndexMap := [0]
  indexVectorDim := 2
  sliceSizes := ![1, 64]
  wf := gather_S150000x64_S8192x1x1_S8192x1x64_2_0_n_n_0_2_164_wf
def gather_S50000_S8192x1x1_S8192x1_n_0_n_n_0_2_1 : GatherDims S50000 S8192x1x1 S8192x1 where
  offsetDims := []
  collapsedSliceDims := [0]
  operandBatchingDims := []
  startIndicesBatchingDims := []
  startIndexMap := [0]
  indexVectorDim := 2
  sliceSizes := ![1]
  wf := gather_S50000_S8192x1x1_S8192x1_n_0_n_n_0_2_1_wf

class Facts : Prop extends Facts₀ where

variable [Facts]
-- ==== Proof.SameText.lean ====
import proofs.«409272_j89550068122385_3_alg».proof.Kernel
import proofs.«409272_j89550068122385_3_alg».proof.KernelIdeal

noncomputable section

namespace Cert.Kernel.Hand

open Idealize.ShloMosaic Idealize.SL.Sem

variable [Cert.Kernel.Facts] [Cert.KernelIdeal.Facts] {F : FTy → Type} [FloatOps F]

/-- The word-level program and its idealization are one text: label by label their kernel bodies are the same term. -/
theorem defs₀_tc : Cert.Kernel.defs₀ (F := F) .tc = Cert.KernelIdeal.defs₀ (F := F) .tc :=
  funext fun l => funext fun a => match l, a with
  | 0, (t, s) => rfl
  | 1, (t, s) => rfl
  | ⟨_ + 2, h⟩, _ => absurd h (by omega)

theorem defs₀_scScalar (k) : Cert.Kernel.defs₀ (F := F) (.scScalar k) = Cert.KernelIdeal.defs₀ (F := F) (.scScalar k) := by
  unfold Cert.Kernel.defs₀ Cert.KernelIdeal.defs₀ Defs.onTc; rfl

theorem defs₀_scVector (k i) : Cert.Kernel.defs₀ (F := F) (.scVector k i) = Cert.KernelIdeal.defs₀ (F := F) (.scVector k i) := by
  unfold Cert.Kernel.defs₀ Cert.KernelIdeal.defs₀ Defs.onTc; rfl

theorem defs₀_eq : Cert.Kernel.defs₀ (F := F) = Cert.KernelIdeal.defs₀ (F := F) :=
  funext fun
    | .tc => defs₀_tc
    | .scScalar k => defs₀_scScalar k
    | .scVector k i => defs₀_scVector k i

theorem defs_eq : Cert.Kernel.defs (F := F) = Cert.KernelIdeal.defs (F := F) :=
  congrArg (Pipeline.defs Cert.KernelIdeal.pcfgs) defs₀_eq

set_option maxHeartbeats 2000000 in
/-- The two host programs are the same statements. -/
theorem main_eq : Cert.Kernel.main (F := F) = Cert.KernelIdeal.main (F := F) := rfl

end Cert.Kernel.Hand

end
-- ==== Proof.KI.Common.lean ====
import proofs.«409272_j89550068122385_3_alg».proof.Proof.Gen.KernelIdeal.Launch

noncomputable section

namespace Cert.KernelIdeal.Hand

open Cert.KernelIdeal
open Idealize.ShloMosaic Idealize.ShloMosaic.TcCoe Idealize.SL.Sem

abbrev TcMem (F : FTy → Type) [FloatOps F] : Type := (c : Dev nD) → (b : Ref sig .tc) → Buf (Elt F) ((c : Thread nD τ).loc b)

end Cert.KernelIdeal.Hand

end
-- ==== Proof.KI.Reg0.lean ====
import proofs.«409272_j89550068122385_3_alg».proof.Proof.KI.Common
import proofs.«409272_j89550068122385_3_alg».proof.Proof.Gen.KernelIdeal.Launch
import proofs.«409272_j89550068122385_3_alg».proof.Proof.Gen.KernelIdeal.Skeleton
import proofs.«409272_j89550068122385_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def iblk0 (V : TcMem F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {V : TcMem F} {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {V : TcMem F} {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {V : TcMem F} {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {V : TcMem F} {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S6000x128 := Rect.unit (s := S6000x128) ![0, 0] S6000x128.size inb_S6000x128_S6000x128_0_0

def out0_4 (x0 x1 x2 x3 : Vec F S6000x128 .f32) : Vec F S6000x128 .f32 :=
  View.canon [⟨r0_0, k0_pay1 (View.ld x0 r0_0) (View.ld x1 r0_0) (View.ld x2 r0_0) (View.ld x3 r0_0)⟩]

theorem cover0_4 (p0 : Vec F S6000x128 .f32) (y : S6000x128.Idx) :
    ∃ pc ∈ ([⟨r0_0, p0⟩] : List (View.Piece (Elt F) S6000x128 .f32)), y ∈ pc.1.set :=
  View.cover_of_tiled [⟨r0_0, p0⟩] S6000x128.size (by rfl) y

set_option maxHeartbeats 1000000 in

theorem sound_kernel0 (c : Dev nD) (E : Set ℕ) (i : grid0.Coords)
    (arg0 : Memref sig .tc .vmem S6000x128 .f32) (harg0 : arg0.IsWhole) (arg1 : Memref sig .tc .vmem S6000x128 .f32) (harg1 : arg1.IsWhole)
    (arg2 : Memref sig .tc .vmem S6000x128 .f32) (harg2 : arg2.IsWhole) (arg3 : Memref sig .tc .vmem S6000x128 .f32) (harg3 : arg3.IsWhole)
    (arg4 : Memref sig .tc .vmem S6000x128 .f32) (harg4 : arg4.IsWhole)
    (x0 x1 x2 x3 : Vec F S6000x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1 x2 x3)) -∗ K ⟨⟩))
      ⊢ wp frame (wpE (defs₀ (F := F)) Variants.none c none) E (cc0__mean4_kernel i arg0 harg0 arg1 harg1 arg2 harg2 arg3 harg3 arg4 harg4) K := by
  simp only [cc0__mean4_kernel_eq_skeleton]; unfold cc0__mean4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dat0 (V : TcMem F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (V : TcMem F) (c : Dev nD) (w : Fin cfg0.W) : (dat0 V c).A w = V c (Pipeline.arrRef spec0 w) := by
  dsimp only [dat0]

theorem Phi_eq0 (V : TcMem F) (c : Dev nD) (t : Fin (cfg0.N + 1)) : (dat0 V c).Φ t = Pipeline.ΦA spec0 c := by
  dsimp only [dat0]

theorem owed_eq0 (V : TcMem F) (c : Dev nD) : (dat0 V c).owed = fun _ => 0 := by
  dsimp only [dat0]

theorem q_eq0 (V : TcMem F) (c : Dev nD) : (dat0 V c).q = fun _ => fullShare := by
  dsimp only [dat0]

theorem after0_0 (V : TcMem F) (c : Dev nD) (t : Fin cfg0.N) : (dat0 V c).after 0 t = iblk0 V c 0 t := by dsimp only [dat0]
theorem after0_1 (V : TcMem F) (c : Dev nD) (t : Fin cfg0.N) : (dat0 V c).after 1 t = iblk0 V c 1 t := by dsimp only [dat0]
theorem after0_2 (V : TcMem F) (c : Dev nD) (t : Fin cfg0.N) : (dat0 V c).after 2 t = iblk0 V c 2 t := by dsimp only [dat0]
theorem after0_3 (V : TcMem F) (c : Dev nD) (t : Fin cfg0.N) : (dat0 V c).after 3 t = iblk0 V c 3 t := by dsimp only [dat0]
theorem after0_4 (V : TcMem F) (c : Dev nD) (t : Fin cfg0.N) :
    (dat0 V c).after 4 t = out0_4 (iblk0 V c 0 t) (iblk0 V c 1 t) (iblk0 V c 2 t) (iblk0 V c 3 t) := by dsimp only [dat0]

theorem before0_0 (V : TcMem F) (c : Dev nD) (t : Fin cfg0.N) (d) : (dat0 V c).before 0 t d = iblk0 V c 0 t :=
  before0_0_of (dat0 V c) (A_eq0 V c 0) (after0_0 V c) t d
theorem before0_1 (V : TcMem F) (c : Dev nD) (t : Fin cfg0.N) (d) : (dat0 V c).before 1 t d = iblk0 V c 1 t :=
  before0_1_of (dat0 V c) (A_eq0 V c 1) (after0_1 V c) t d
theorem before0_2 (V : TcMem F) (c : Dev nD) (t : Fin cfg0.N) (d) : (dat0 V c).before 2 t d = iblk0 V c 2 t :=
  before0_2_of (dat0 V c) (A_eq0 V c 2) (after0_2 V c) t d
theorem before0_3 (V : TcMem F) (c : Dev nD) (t : Fin cfg0.N) (d) : (dat0 V c).before 3 t d = iblk0 V c 3 t :=
  before0_3_of (dat0 V c) (A_eq0 V c 3) (after0_3 V c) t d

def bodyPre0 (V : TcMem F) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (V : TcMem F) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (V : TcMem F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  iframe
  isplitl [H4]; · iexists _; iexact H4
  iintro ⟨H0, H1, H2, H3, H4⟩
  iframe

theorem body_obligation0 (V : TcMem F) (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Defs.lean ====
import proofs.«409272_j89550068122385_3_alg».proof.Proof.KI.Common
import proofs.«409272_j89550068122385_3_alg».proof.Proof.Gen.KernelIdeal.Launch
import proofs.«409272_j89550068122385_3_alg».proof.Proof.Gen.KernelIdeal.Skeleton
import proofs.«409272_j89550068122385_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scM1_0 : Memref sig .tc .vmem S1x1 .f32 := Memref.whole cc1_scratch0
abbrev scM1_1 : Memref sig .tc .vmem S1x1 .f32 := Memref.whole cc1_scratch1
abbrev scM1_2 : Memref sig .tc .vmem S1x1 .f32 := Memref.whole cc1_scratch2
abbrev scM1_3 : Memref sig .tc .vmem S1x1 .f32 := Memref.whole cc1_scratch3

def iblk1 (V : TcMem F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def col1_0 (x1 x3 x5 : Vec F S2048x64 .f32) (x11 : Vec F S2048x1 .f32) : FVec F S2048x1 .f32 :=
  k1_pay17 (k1_pay13 x11) (k1_pay15 x1 x3 x5) (k1_pay16 (F := F))

def col1_1 (x2 x4 x6 : Vec F S2048x64 .f32) (x11 : Vec F S2048x1 .f32) : FVec F S2048x1 .f32 :=
  k1_pay18 (k1_pay9 x2 x4) (k1_pay10 x2 x6) (k1_pay13 x11)

def col1_2 (x2 x4 x6 : Vec F S2048x64 .f32) (x12 : Vec F S2048x1 .f32) : FVec F S2048x1 .f32 :=
  k1_pay26 (k1_pay14 x12) (k1_pay20 (k1_pay9 x2 x4) (k1_pay10 x2 x6)) (k1_pay22 (k1_pay9 x2 x4) (k1_pay10 x2 x6))
    (k1_pay23 (k1_pay9 x2 x4) (k1_pay10 x2 x6)) (k1_pay24 (k1_pay9 x2 x4) (k1_pay10 x2 x6)) (k1_pay25 (F := F))

def col1_3 (x1 x2 x3 x4 x5 x6 : Vec F S2048x64 .f32) (x7 x8 x9 x10 : Vec F S2048x1 .f32) : FVec F S2048x1 .f32 :=
  k1_pay31 (k1_pay11 x1 x2 x3 x4) (k1_pay12 x1 x2 x5 x6) (k1_pay27 x8) (k1_pay28 x10) (k1_pay29 x7 x9)
    (Scalar.ofBits .f32 0x00000000#32) (k1_pay30 (F := F))

def colAt1_0 (V : TcMem F) (c : Dev nD) (t : Fin cfg1.N) : FVec F S2048x1 .f32 :=
  col1_0 (iblk1 V c 0 t) (iblk1 V c 2 t) (iblk1 V c 4 t) (iblk1 V c 10 t)
def colAt1_1 (V : TcMem F) (c : Dev nD) (t : Fin cfg1.N) : FVec F S2048x1 .f32 :=
  col1_1 (iblk1 V c 1 t) (iblk1 V c 3 t) (iblk1 V c 5 t) (iblk1 V c 10 t)
def colAt1_2 (V : TcMem F) (c : Dev nD) (t : Fin cfg1.N) : FVec F S2048x1 .f32 :=
  col1_2 (iblk1 V c 1 t) (iblk1 V c 3 t) (iblk1 V c 5 t) (iblk1 V c 11 t)
def colAt1_3 (V : TcMem F) (c : Dev nD) (t : Fin cfg1.N) : FVec F S2048x1 .f32 :=
  col1_3 (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t)

def accAt1 (V : TcMem F) (c : Dev nD) : (n : ℕ) → n < cfg1.N →
    Vec F S1x1 .f32 × Vec F S1x1 .f32 × Vec F S1x1 .f32 × Vec F S1x1 .f32
  | 0, hn => (k1_pay32 (colAt1_0 V c ⟨0, hn⟩) (k1_pay1 (F := F)), k1_pay33 (colAt1_1 V c ⟨0, hn⟩) (k1_pay2 (F := F)),
      k1_pay34 (colAt1_2 V c ⟨0, hn⟩) (k1_pay3 (F := F)), k1_pay35 (colAt1_3 V c ⟨0, hn⟩) (k1_pay4 (F := F)))
  | n + 1, hn => (k1_pay32 (colAt1_0 V c ⟨n + 1, hn⟩) (accAt1 V c n (Nat.lt_of_succ_lt hn)).1,
      k1_pay33 (colAt1_1 V c ⟨n + 1, hn⟩) (accAt1 V c n (Nat.lt_of_succ_lt hn)).2.1,
      k1_pay34 (colAt1_2 V c ⟨n + 1, hn⟩) (accAt1 V c n (Nat.lt_of_succ_lt hn)).2.2.1,
      k1_pay35 (colAt1_3 V c ⟨n + 1, hn⟩) (accAt1 V c n (Nat.lt_of_succ_lt hn)).2.2.2)

def outsAt1 (V : TcMem F) (c : Dev nD) (n : ℕ) (hn : n < cfg1.N) :
    Vec F S1x1 .f32 × Vec F S1x1 .f32 × Vec F S1x1 .f32 × Vec F S1x1 .f32 × Vec F S1x1 .f32 :=
  (k1_pay36 (accAt1 V c n hn).1 (accAt1 V c n hn).2.1 (accAt1 V c n hn).2.2.1 (accAt1 V c n hn).2.2.2, accAt1 V c n hn)

theorem outsAt1_zero (V : TcMem F) (c : Dev nD) (hn : 0 < cfg1.N) :
    (outsAt1 V c 0 hn).2 = (k1_pay32 (colAt1_0 V c ⟨0, hn⟩) (k1_pay1 (F := F)), k1_pay33 (colAt1_1 V c ⟨0, hn⟩) (k1_pay2 (F := F)),
      k1_pay34 (colAt1_2 V c ⟨0, hn⟩) (k1_pay3 (F := F)), k1_pay35 (colAt1_3 V c ⟨0, hn⟩) (k1_pay4 (F := F))) := rfl

theorem outsAt1_succ (V : TcMem F) (c : Dev nD) (n : ℕ) (hn : n + 1 < cfg1.N) :
    (outsAt1 V c (n + 1) hn).2 = (k1_pay32 (colAt1_0 V c ⟨n + 1, hn⟩) (outsAt1 V c n (Nat.lt_of_succ_lt hn)).2.1,
      k1_pay33 (colAt1_1 V c ⟨n + 1, hn⟩) (outsAt1 V c n (Nat.lt_of_succ_lt hn)).2.2.1,
      k1_pay34 (colAt1_2 V c ⟨n + 1, hn⟩) (outsAt1 V c n (Nat.lt_of_succ_lt hn)).2.2.2.1,
      k1_pay35 (colAt1_3 V c ⟨n + 1, hn⟩) (outsAt1 V c n (Nat.lt_of_succ_lt hn)).2.2.2.2) := rfl

theorem outsAt1_out (V : TcMem F) (c : Dev nD) (n : ℕ) (hn : n < cfg1.N) :
    (outsAt1 V c n hn).1 = k1_pay36 (outsAt1 V c n hn).2.1 (outsAt1 V c n hn).2.2.1 (outsAt1 V c n hn).2.2.2.1 (outsAt1 V c n hn).2.2.2.2 := rfl

end Cert.KernelIdeal.Hand

end
-- ==== Proof.KI.Reg1Cases.lean ====
import proofs.«409272_j89550068122385_3_alg».proof.Proof.KI.Reg1Defs
import Idealize.ShloMosaic.Lib.WholeRead
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off00 : (![0, 0] : Fin 2 → ℕ) = fun _ => 0 := by
  funext a; fin_cases a <;> rfl

theorem readAt_whole_unread {s : Shape} {e : EltTy} {m : Memref sig .tc .vmem s e} (h : m.IsWhole) (X : s.Idx → Elt F e)
    {off : Fin s.rank → ℕ} (h0 : off = fun _ => 0) (inb : ∀ a, off a + s.size a ≤ s.size a) :
    View.readAt (Elt F) m.view (Rect.unit off s.size inb).toLoadRect (h.unread X) = X := by
  funext x
  rw [h.readAt_unread]
  exact congrFun (View.ld_unit_zero h0 inb X) x

theorem read_writes_whole_last {s : Shape} {e : EltTy} (v : View sig .tc .vmem s e) (f : v.ty.Contents (Elt F))
    {off : Fin s.rank → ℕ} (h0 : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w :=
  (View.read_writes_eq_canon v f _ (fun y => ⟨_, List.mem_cons_self .., View.mem_set_unit_zero h0 inb y⟩)).trans
    (View.canon_cons_unit_zero h0 inb w L)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 3 :=
  (by decide +kernel : ∀ t : Fin grid1.N, cond1_1 (grid1.coords t) ↔ t.val = 3)

theorem idleAt1_12 : ∀ t : Fin cfg1.N, ¬cond1_1 (grid1.coords t) → cfg1.idle 12 (grid1.coords t) = true := by decide +kernel

theorem noFlush1_12 : ∀ t : Fin cfg1.N, ¬cond1_1 (grid1.coords t) → (cfg1.win 12).flush t = false := by decide +kernel

theorem liveAt1_12 : ∀ t : Fin cfg1.N, cond1_1 (grid1.coords t) → cfg1.idle 12 (grid1.coords t) = false := by decide +kernel

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev ms1_8 (t : Fin cfg1.N) := win1_8.stage (cfg1.slots t 8)
abbrev hs1_8 (t : Fin cfg1.N) : (ms1_8 t).IsWhole := hstage1_8 ((cfg1.slots t 8).cast nbuf1_8)
abbrev ms1_9 (t : Fin cfg1.N) := win1_9.stage (cfg1.slots t 9)
abbrev hs1_9 (t : Fin cfg1.N) : (ms1_9 t).IsWhole := hstage1_9 ((cfg1.slots t 9).cast nbuf1_9)
abbrev ms1_10 (t : Fin cfg1.N) := win1_10.stage (cfg1.slots t 10)
abbrev hs1_10 (t : Fin cfg1.N) : (ms1_10 t).IsWhole := hstage1_10 ((cfg1.slots t 10).cast nbuf1_10)
abbrev ms1_11 (t : Fin cfg1.N) := win1_11.stage (cfg1.slots t 11)
abbrev hs1_11 (t : Fin cfg1.N) : (ms1_11 t).IsWhole := hstage1_11 ((cfg1.slots t 11).cast nbuf1_11)
abbrev ms1_12 (t : Fin cfg1.N) := win1_12.stage (cfg1.slots t 12)
abbrev hs1_12 (t : Fin cfg1.N) : (ms1_12 t).IsWhole := hstage1_12 ((cfg1.slots t 12).cast nbuf1_12)

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.KI.Reg1RunA.lean ====
import proofs.«409272_j89550068122385_3_alg».proof.Proof.KI.Reg1Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

theorem kernelRun1_A (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond1_0 i) (hc1 : ¬cond1_1 i)
    (x1 x2 x3 x4 x5 x6 : Vec F S2048x64 .f32) (x7 x8 x9 x10 x11 x12 : Vec F S2048x1 .f32) (d13 : Vec F S1x1 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare d13
        ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare d13
            ∗ owns (c : Thread nD τ) arg14 fullShare (k1_pay32 (col1_0 x1 x3 x5 x11) (k1_pay1 (F := F)))
            ∗ owns (c : Thread nD τ) arg15 fullShare (k1_pay33 (col1_1 x2 x4 x6 x11) (k1_pay2 (F := F)))
            ∗ owns (c : Thread nD τ) arg16 fullShare (k1_pay34 (col1_2 x2 x4 x6 x12) (k1_pay3 (F := F)))
            ∗ owns (c : Thread nD τ) arg17 fullShare (k1_pay35 (col1_3 x1 x2 x3 x4 x5 x6 x7 x8 x9 x10) (k1_pay4 (F := F)))) -∗ K ⟨⟩))
      ⊢ wp frame (wpE (defs₀ (F := F)) Variants.none c none) E (cc1__loss_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have e1 := readAt_whole_unread (F := F) harg1 x1 off00 inb_S2048x64_S2048x64_0_0
  have e2 := readAt_whole_unread (F := F) harg2 x2 off00 inb_S2048x64_S2048x64_0_0
  have e3 := readAt_whole_unread (F := F) harg3 x3 off00 inb_S2048x64_S2048x64_0_0
  have e4 := readAt_whole_unread (F := F) harg4 x4 off00 inb_S2048x64_S2048x64_0_0
  have e5 := readAt_whole_unread (F := F) harg5 x5 off00 inb_S2048x64_S2048x64_0_0
  have e6 := readAt_whole_unread (F := F) harg6 x6 off00 inb_S2048x64_S2048x64_0_0
  have e7 := readAt_whole_unread (F := F) harg7 x7 off00 inb_S2048x1_S2048x1_0_0
  have e8 := readAt_whole_unread (F := F) harg8 x8 off00 inb_S2048x1_S2048x1_0_0
  have e9 := readAt_whole_unread (F := F) harg9 x9 off00 inb_S2048x1_S2048x1_0_0
  have e10 := readAt_whole_unread (F := F) harg10 x10 off00 inb_S2048x1_S2048x1_0_0
  have e11 := readAt_whole_unread (F := F) harg11 x11 off00 inb_S2048x1_S2048x1_0_0
  have e12 := readAt_whole_unread (F := F) harg12 x12 off00 inb_S2048x1_S2048x1_0_0
  simp only [cc1__loss_kernel_eq_skeleton]; unfold cc1__loss_kernel_skel
  simp only [k1_part5_eq_skeleton]; unfold k1_part5_skel
  simp only [k1_part1_eq_skeleton, k1_part2_eq_skeleton, k1_part3_eq_skeleton, k1_part4_eq_skeleton]; unfold k1_part1_skel k1_part2_skel k1_part3_skel k1_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact hf13
    iexact H13
  isplitl [H14]
  · iexists _; isplitr
    swap; · iexact H14
    ipureintro
    refine (read_writes_whole_last _ _ off00 _ _ _).trans (congrArg₂ (k1_pay32 (F := F)) ?_ ?_)
    · first | rfl | (simp only [e1, e2, e3, e4, e5, e6, e7, e8, e9, e10, e11, e12]; first | done | rfl)
    · exact View.readCov_unit_zero (Val := Elt F) arg14.view off00 _ _
  isplitl [H15]
  · iexists _; isplitr
    swap; · iexact H15
    ipureintro
    refine (read_writes_whole_last _ _ off00 _ _ _).trans (congrArg₂ (k1_pay33 (F := F)) ?_ ?_)
    · first | rfl | (simp only [e1, e2, e3, e4, e5, e6, e7, e8, e9, e10, e11, e12]; first | done | rfl)
    · exact View.readCov_unit_zero (Val := Elt F) arg15.view off00 _ _
  isplitl [H16]
  · iexists _; isplitr
    swap; · iexact H16
    ipureintro
    refine (read_writes_whole_last _ _ off00 _ _ _).trans (congrArg₂ (k1_pay34 (F := F)) ?_ ?_)
    · first | rfl | (simp only [e1, e2, e3, e4, e5, e6, e7, e8, e9, e10, e11, e12]; first | done | rfl)
    · exact View.readCov_unit_zero (Val := Elt F) arg16.view off00 _ _
  · iexists _; isplitr
    swap; · iexact H17
    ipureintro
    refine (read_writes_whole_last _ _ off00 _ _ _).trans (congrArg₂ (k1_pay35 (F := F)) ?_ ?_)
    · first | rfl | (simp only [e1, e2, e3, e4, e5, e6, e7, e8, e9, e10, e11, e12]; first | done | rfl)
    · exact View.readCov_unit_zero (Val := Elt F) arg17.view off00 _ _

end Cert.KernelIdeal.Hand

end
-- ==== Proof.KI.Reg1RunB.lean ====
import proofs.«409272_j89550068122385_3_alg».proof.Proof.KI.Reg1Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

theorem kernelRun1_B (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond1_0 i) (hc1 : ¬cond1_1 i)
    (x1 x2 x3 x4 x5 x6 : Vec F S2048x64 .f32) (x7 x8 x9 x10 x11 x12 : Vec F S2048x1 .f32) (d13 : Vec F S1x1 .f32) (a14 a15 a16 a17 : Vec F S1x1 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare d13
        ∗ owns (c : Thread nD τ) arg14 fullShare a14 ∗ owns (c : Thread nD τ) arg15 fullShare a15 ∗ owns (c : Thread nD τ) arg16 fullShare a16 ∗ owns (c : Thread nD τ) arg17 fullShare a17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare d13
            ∗ owns (c : Thread nD τ) arg14 fullShare (k1_pay32 (col1_0 x1 x3 x5 x11) a14)
            ∗ owns (c : Thread nD τ) arg15 fullShare (k1_pay33 (col1_1 x2 x4 x6 x11) a15)
            ∗ owns (c : Thread nD τ) arg16 fullShare (k1_pay34 (col1_2 x2 x4 x6 x12) a16)
            ∗ owns (c : Thread nD τ) arg17 fullShare (k1_pay35 (col1_3 x1 x2 x3 x4 x5 x6 x7 x8 x9 x10) a17)) -∗ K ⟨⟩))
      ⊢ wp frame (wpE (defs₀ (F := F)) Variants.none c none) E (cc1__loss_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have e1 := readAt_whole_unread (F := F) harg1 x1 off00 inb_S2048x64_S2048x64_0_0
  have e2 := readAt_whole_unread (F := F) harg2 x2 off00 inb_S2048x64_S2048x64_0_0
  have e3 := readAt_whole_unread (F := F) harg3 x3 off00 inb_S2048x64_S2048x64_0_0
  have e4 := readAt_whole_unread (F := F) harg4 x4 off00 inb_S2048x64_S2048x64_0_0
  have e5 := readAt_whole_unread (F := F) harg5 x5 off00 inb_S2048x64_S2048x64_0_0
  have e6 := readAt_whole_unread (F := F) harg6 x6 off00 inb_S2048x64_S2048x64_0_0
  have e7 := readAt_whole_unread (F := F) harg7 x7 off00 inb_S2048x1_S2048x1_0_0
  have e8 := readAt_whole_unread (F := F) harg8 x8 off00 inb_S2048x1_S2048x1_0_0
  have e9 := readAt_whole_unread (F := F) harg9 x9 off00 inb_S2048x1_S2048x1_0_0
  have e10 := readAt_whole_unread (F := F) harg10 x10 off00 inb_S2048x1_S2048x1_0_0
  have e11 := readAt_whole_unread (F := F) harg11 x11 off00 inb_S2048x1_S2048x1_0_0
  have e12 := readAt_whole_unread (F := F) harg12 x12 off00 inb_S2048x1_S2048x1_0_0
  have ea14 := readAt_whole_unread (F := F) harg14 a14 off00 inb_S1x1_S1x1_0_0
  have ea15 := readAt_whole_unread (F := F) harg15 a15 off00 inb_S1x1_S1x1_0_0
  have ea16 := readAt_whole_unread (F := F) harg16 a16 off00 inb_S1x1_S1x1_0_0
  have ea17 := readAt_whole_unread (F := F) harg17 a17 off00 inb_S1x1_S1x1_0_0
  simp only [cc1__loss_kernel_eq_skeleton]; unfold cc1__loss_kernel_skel
  simp only [k1_part5_eq_skeleton]; unfold k1_part5_skel
  simp only [k1_part1_eq_skeleton, k1_part2_eq_skeleton, k1_part3_eq_skeleton, k1_part4_eq_skeleton]; unfold k1_part1_skel k1_part2_skel k1_part3_skel k1_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  obtain rfl := harg14.eq_unread hf14; obtain rfl := harg15.eq_unread hf15; obtain rfl := harg16.eq_unread hf16; obtain rfl := harg17.eq_unread hf17
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact hf13
    iexact H13
  isplitl [H14]
  · iexists _; isplitr
    swap; · iexact H14
    ipureintro
    refine (read_writes_whole_last _ _ off00 _ _ _).trans ?_
    first | rfl | (simp only [e1, e2, e3, e4, e5, e6, e7, e8, e9, e10, e11, e12, ea14, ea15, ea16, ea17]; first | done | rfl)
  isplitl [H15]
  · iexists _; isplitr
    swap; · iexact H15
    ipureintro
    refine (read_writes_whole_last _ _ off00 _ _ _).trans ?_
    first | rfl | (simp only [e1, e2, e3, e4, e5, e6, e7, e8, e9, e10, e11, e12, ea14, ea15, ea16, ea17]; first | done | rfl)
  isplitl [H16]
  · iexists _; isplitr
    swap; · iexact H16
    ipureintro
    refine (read_writes_whole_last _ _ off00 _ _ _).trans ?_
    first | rfl | (simp only [e1, e2, e3, e4, e5, e6, e7, e8, e9, e10, e11, e12, ea14, ea15, ea16, ea17]; first | done | rfl)
  · iexists _; isplitr
    swap; · iexact H17
    ipureintro
    refine (read_writes_whole_last _ _ off00 _ _ _).trans ?_
    first | rfl | (simp only [e1, e2, e3, e4, e5, e6, e7, e8, e9, e10, e11, e12, ea14, ea15, ea16, ea17]; first | done | rfl)

end Cert.KernelIdeal.Hand

end
-- ==== Proof.KI.Reg1RunC.lean ====
import proofs.«409272_j89550068122385_3_alg».proof.Proof.KI.Reg1Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

theorem kernelRun1_C (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond1_0 i) (hc1 : cond1_1 i)
    (x1 x2 x3 x4 x5 x6 : Vec F S2048x64 .f32) (x7 x8 x9 x10 x11 x12 : Vec F S2048x1 .f32) (a14 a15 a16 a17 : Vec F S1x1 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
        ∗ owns (c : Thread nD τ) arg14 fullShare a14 ∗ owns (c : Thread nD τ) arg15 fullShare a15 ∗ owns (c : Thread nD τ) arg16 fullShare a16 ∗ owns (c : Thread nD τ) arg17 fullShare a17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ owns (c : Thread nD τ) arg13 fullShare (k1_pay36 (k1_pay32 (col1_0 x1 x3 x5 x11) a14) (k1_pay33 (col1_1 x2 x4 x6 x11) a15) (k1_pay34 (col1_2 x2 x4 x6 x12) a16) (k1_pay35 (col1_3 x1 x2 x3 x4 x5 x6 x7 x8 x9 x10) a17))
            ∗ owns (c : Thread nD τ) arg14 fullShare (k1_pay32 (col1_0 x1 x3 x5 x11) a14)
            ∗ owns (c : Thread nD τ) arg15 fullShare (k1_pay33 (col1_1 x2 x4 x6 x11) a15)
            ∗ owns (c : Thread nD τ) arg16 fullShare (k1_pay34 (col1_2 x2 x4 x6 x12) a16)
            ∗ owns (c : Thread nD τ) arg17 fullShare (k1_pay35 (col1_3 x1 x2 x3 x4 x5 x6 x7 x8 x9 x10) a17)) -∗ K ⟨⟩))
      ⊢ wp frame (wpE (defs₀ (F := F)) Variants.none c none) E (cc1__loss_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have e1 := readAt_whole_unread (F := F) harg1 x1 off00 inb_S2048x64_S2048x64_0_0
  have e2 := readAt_whole_unread (F := F) harg2 x2 off00 inb_S2048x64_S2048x64_0_0
  have e3 := readAt_whole_unread (F := F) harg3 x3 off00 inb_S2048x64_S2048x64_0_0
  have e4 := readAt_whole_unread (F := F) harg4 x4 off00 inb_S2048x64_S2048x64_0_0
  have e5 := readAt_whole_unread (F := F) harg5 x5 off00 inb_S2048x64_S2048x64_0_0
  have e6 := readAt_whole_unread (F := F) harg6 x6 off00 inb_S2048x64_S2048x64_0_0
  have e7 := readAt_whole_unread (F := F) harg7 x7 off00 inb_S2048x1_S2048x1_0_0
  have e8 := readAt_whole_unread (F := F) harg8 x8 off00 inb_S2048x1_S2048x1_0_0
  have e9 := readAt_whole_unread (F := F) harg9 x9 off00 inb_S2048x1_S2048x1_0_0
  have e10 := readAt_whole_unread (F := F) harg10 x10 off00 inb_S2048x1_S2048x1_0_0
  have e11 := readAt_whole_unread (F := F) harg11 x11 off00 inb_S2048x1_S2048x1_0_0
  have e12 := readAt_whole_unread (F := F) harg12 x12 off00 inb_S2048x1_S2048x1_0_0
  have ea14 := readAt_whole_unread (F := F) harg14 a14 off00 inb_S1x1_S1x1_0_0
  have ea15 := readAt_whole_unread (F := F) harg15 a15 off00 inb_S1x1_S1x1_0_0
  have ea16 := readAt_whole_unread (F := F) harg16 a16 off00 inb_S1x1_S1x1_0_0
  have ea17 := readAt_whole_unread (F := F) harg17 a17 off00 inb_S1x1_S1x1_0_0
  simp only [cc1__loss_kernel_eq_skeleton]; unfold cc1__loss_kernel_skel
  simp only [k1_part5_eq_skeleton]; unfold k1_part5_skel
  simp only [k1_part1_eq_skeleton, k1_part2_eq_skeleton, k1_part3_eq_skeleton, k1_part4_eq_skeleton]; unfold k1_part1_skel k1_part2_skel k1_part3_skel k1_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%f16, %hf16, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  obtain rfl := harg14.eq_unread hf14; obtain rfl := harg15.eq_unread hf15; obtain rfl := harg16.eq_unread hf16; obtain rfl := harg17.eq_unread hf17
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    refine (read_writes_whole_last _ _ off00 _ _ _).trans ?_
    refine congr (congr (congr (congrArg (k1_pay36 (F := F)) ?_) ?_) ?_) ?_
    all_goals (refine (View.readCov_unit_zero (Val := Elt F) (S := S1x1) _ off00 _ _).trans ?_)
    all_goals (first | rfl | (simp only [e1, e2, e3, e4, e5, e6, e7, e8, e9, e10, e11, e12, ea14, ea15, ea16, ea17]; first | done | rfl))
  isplitl [H14]
  · iexists _; isplitr
    swap; · iexact H14
    ipureintro
    refine (read_writes_whole_last _ _ off00 _ _ _).trans ?_
    first | rfl | (simp only [e1, e2, e3, e4, e5, e6, e7, e8, e9, e10, e11, e12, ea14, ea15, ea16, ea17]; first | done | rfl)
  isplitl [H15]
  · iexists _; isplitr
    swap; · iexact H15
    ipureintro
    refine (read_writes_whole_last _ _ off00 _ _ _).trans ?_
    first | rfl | (simp only [e1, e2, e3, e4, e5, e6, e7, e8, e9, e10, e11, e12, ea14, ea15, ea16, ea17]; first | done | rfl)
  isplitl [H16]
  · iexists _; isplitr
    swap; · iexact H16
    ipureintro
    refine (read_writes_whole_last _ _ off00 _ _ _).trans ?_
    first | rfl | (simp only [e1, e2, e3, e4, e5, e6, e7, e8, e9, e10, e11, e12, ea14, ea15, ea16, ea17]; first | done | rfl)
  · iexists _; isplitr
    swap; · iexact H17
    ipureintro
    refine (read_writes_whole_last _ _ off00 _ _ _).trans ?_
    first | rfl | (simp only [e1, e2, e3, e4, e5, e6, e7, e8, e9, e10, e11, e12, ea14, ea15, ea16, ea17]; first | done | rfl)

end Cert.KernelIdeal.Hand

end
-- ==== Proof.KI.Reg1.lean ====
import proofs.«409272_j89550068122385_3_alg».proof.Proof.KI.Reg1RunA
import proofs.«409272_j89550068122385_3_alg».proof.Proof.KI.Reg1RunB
import proofs.«409272_j89550068122385_3_alg».proof.Proof.KI.Reg1RunC
import proofs.«409272_j89550068122385_3_alg».proof.Proof.KI.Reg1Defs
import proofs.«409272_j89550068122385_3_alg».proof.Proof.Gen.KernelIdeal.Launch
import proofs.«409272_j89550068122385_3_alg».proof.Proof.Gen.KernelIdeal.Skeleton
import proofs.«409272_j89550068122385_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def PhiS1 (V : TcMem F) (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (V : TcMem F) (c : Dev nD) (n : ℕ) (h : n ≤ cfg1.N) (hz : n = 0) : PhiS1 V c n h = Pipeline.ΦA spec1 c := by
  subst hz; rfl

theorem PhiS1_succ (V : TcMem F) (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (V : TcMem F) (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

def dat1 (V : TcMem F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t.val t.isLt).1
  Φ t := PhiS1 V c t.val (Nat.le_of_lt_succ t.isLt)
  q _ := fullShare
  owed _ := 0

theorem A_eq1 (V : TcMem F) (c : Dev nD) (w : Fin cfg1.W) : (dat1 V c).A w = V c (Pipeline.arrRef spec1 w) := by
  dsimp only [dat1]

theorem owed_eq1 (V : TcMem F) (c : Dev nD) : (dat1 V c).owed = fun _ => 0 := rfl

theorem q_eq1 (V : TcMem F) (c : Dev nD) : (dat1 V c).q = fun _ => fullShare := rfl

theorem recorded_eq1 (V : TcMem F) (c : Dev nD) : (dat1 V c).recorded = fun _ => Set.univ := rfl

theorem after1_0 (V : TcMem F) (c : Dev nD) (t : Fin cfg1.N) : (dat1 V c).after 0 t = iblk1 V c 0 t := by dsimp only [dat1]
theorem after1_1 (V : TcMem F) (c : Dev nD) (t : Fin cfg1.N) : (dat1 V c).after 1 t = iblk1 V c 1 t := by dsimp only [dat1]
theorem after1_2 (V : TcMem F) (c : Dev nD) (t : Fin cfg1.N) : (dat1 V c).after 2 t = iblk1 V c 2 t := by dsimp only [dat1]
theorem after1_3 (V : TcMem F) (c : Dev nD) (t : Fin cfg1.N) : (dat1 V c).after 3 t = iblk1 V c 3 t := by dsimp only [dat1]
theorem after1_4 (V : TcMem F) (c : Dev nD) (t : Fin cfg1.N) : (dat1 V c).after 4 t = iblk1 V c 4 t := by dsimp only [dat1]
theorem after1_5 (V : TcMem F) (c : Dev nD) (t : Fin cfg1.N) : (dat1 V c).after 5 t = iblk1 V c 5 t := by dsimp only [dat1]
theorem after1_6 (V : TcMem F) (c : Dev nD) (t : Fin cfg1.N) : (dat1 V c).after 6 t = iblk1 V c 6 t := by dsimp only [dat1]
theorem after1_7 (V : TcMem F) (c : Dev nD) (t : Fin cfg1.N) : (dat1 V c).after 7 t = iblk1 V c 7 t := by dsimp only [dat1]
theorem after1_8 (V : TcMem F) (c : Dev nD) (t : Fin cfg1.N) : (dat1 V c).after 8 t = iblk1 V c 8 t := by dsimp only [dat1]
theorem after1_9 (V : TcMem F) (c : Dev nD) (t : Fin cfg1.N) : (dat1 V c).after 9 t = iblk1 V c 9 t := by dsimp only [dat1]
theorem after1_10 (V : TcMem F) (c : Dev nD) (t : Fin cfg1.N) : (dat1 V c).after 10 t = iblk1 V c 10 t := by dsimp only [dat1]
theorem after1_11 (V : TcMem F) (c : Dev nD) (t : Fin cfg1.N) : (dat1 V c).after 11 t = iblk1 V c 11 t := by dsimp only [dat1]
theorem after1_12 (V : TcMem F) (c : Dev nD) (t : Fin cfg1.N) : (dat1 V c).after 12 t = (outsAt1 V c t.val t.isLt).1 := by dsimp only [dat1]

theorem PhiS1_castSucc (V : TcMem F) (c : Dev nD) (t : Fin cfg1.N) :
    (dat1 V c).Φ t.castSucc = PhiS1 V c t.val (Nat.le_of_lt t.isLt) := by
  dsimp only [dat1]; simp only [Fin.coe_castSucc]

theorem before1_0 (V : TcMem F) (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (V : TcMem F) (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (V : TcMem F) (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (V : TcMem F) (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (V : TcMem F) (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (V : TcMem F) (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (V : TcMem F) (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (V : TcMem F) (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (V : TcMem F) (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (V : TcMem F) (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (V : TcMem F) (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem before1_11 (V : TcMem F) (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)

theorem leaves1_0 (V : TcMem F) (c : Dev nD) (t : Fin cfg1.N) : (dat1 V c).leavesExact 0 t = owns (c : Thread nD τ) (ms1_0 t) fullShare (iblk1 V c 0 t) := by
  rw [← after1_0]
theorem leaves1_1 (V : TcMem F) (c : Dev nD) (t : Fin cfg1.N) : (dat1 V c).leavesExact 1 t = owns (c : Thread nD τ) (ms1_1 t) fullShare (iblk1 V c 1 t) := by
  rw [← after1_1]
theorem leaves1_2 (V : TcMem F) (c : Dev nD) (t : Fin cfg1.N) : (dat1 V c).leavesExact 2 t = owns (c : Thread nD τ) (ms1_2 t) fullShare (iblk1 V c 2 t) := by
  rw [← after1_2]
theorem leaves1_3 (V : TcMem F) (c : Dev nD) (t : Fin cfg1.N) : (dat1 V c).leavesExact 3 t = owns (c : Thread nD τ) (ms1_3 t) fullShare (iblk1 V c 3 t) := by
  rw [← after1_3]
theorem leaves1_4 (V : TcMem F) (c : Dev nD) (t : Fin cfg1.N) : (dat1 V c).leavesExact 4 t = owns (c : Thread nD τ) (ms1_4 t) fullShare (iblk1 V c 4 t) := by
  rw [← after1_4]
theorem leaves1_5 (V : TcMem F) (c : Dev nD) (t : Fin cfg1.N) : (dat1 V c).leavesExact 5 t = owns (c : Thread nD τ) (ms1_5 t) fullShare (iblk1 V c 5 t) := by
  rw [← after1_5]
theorem leaves1_6 (V : TcMem F) (c : Dev nD) (t : Fin cfg1.N) : (dat1 V c).leavesExact 6 t = owns (c : Thread nD τ) (ms1_6 t) fullShare (iblk1 V c 6 t) := by
  rw [← after1_6]
theorem leaves1_7 (V : TcMem F) (c : Dev nD) (t : Fin cfg1.N) : (dat1 V c).leavesExact 7 t = owns (c : Thread nD τ) (ms1_7 t) fullShare (iblk1 V c 7 t) := by
  rw [← after1_7]
theorem leaves1_8 (V : TcMem F) (c : Dev nD) (t : Fin cfg1.N) : (dat1 V c).leavesExact 8 t = owns (c : Thread nD τ) (ms1_8 t) fullShare (iblk1 V c 8 t) := by
  rw [← after1_8]
theorem leaves1_9 (V : TcMem F) (c : Dev nD) (t : Fin cfg1.N) : (dat1 V c).leavesExact 9 t = owns (c : Thread nD τ) (ms1_9 t) fullShare (iblk1 V c 9 t) := by
  rw [← after1_9]
theorem leaves1_10 (V : TcMem F) (c : Dev nD) (t : Fin cfg1.N) : (dat1 V c).leavesExact 10 t = owns (c : Thread nD τ) (ms1_10 t) fullShare (iblk1 V c 10 t) := by
  rw [← after1_10]
theorem leaves1_11 (V : TcMem F) (c : Dev nD) (t : Fin cfg1.N) : (dat1 V c).leavesExact 11 t = owns (c : Thread nD τ) (ms1_11 t) fullShare (iblk1 V c 11 t) := by
  rw [← after1_11]

theorem outsAt1_first (V : TcMem F) (c : Dev nD) (t : Fin cfg1.N) (h : t.val = 0) :
    (outsAt1 V c t.val t.isLt).2 = (k1_pay32 (colAt1_0 V c t) (k1_pay1 (F := F)), k1_pay33 (colAt1_1 V c t) (k1_pay2 (F := F)), k1_pay34 (colAt1_2 V c t) (k1_pay3 (F := F)), k1_pay35 (colAt1_3 V c t) (k1_pay4 (F := F))) := by
  obtain ⟨n, hn⟩ := t
  cases n with
  | zero => rfl
  | succ n => exact absurd h (Nat.succ_ne_zero n)

theorem outsAt1_later (V : TcMem F) (c : Dev nD) (t : Fin cfg1.N) (h : t.val ≠ 0) :
    (outsAt1 V c t.val t.isLt).2 = (k1_pay32 (colAt1_0 V c t) (outsAt1 V c (t.val - 1) (Nat.lt_of_le_of_lt (Nat.sub_le _ _) t.isLt)).2.1, k1_pay33 (colAt1_1 V c t) (outsAt1 V c (t.val - 1) (Nat.lt_of_le_of_lt (Nat.sub_le _ _) t.isLt)).2.2.1, k1_pay34 (colAt1_2 V c t) (outsAt1 V c (t.val - 1) (Nat.lt_of_le_of_lt (Nat.sub_le _ _) t.isLt)).2.2.2.1, k1_pay35 (colAt1_3 V c t) (outsAt1 V c (t.val - 1) (Nat.lt_of_le_of_lt (Nat.sub_le _ _) t.isLt)).2.2.2.2) := by
  obtain ⟨n, hn⟩ := t
  cases n with
  | zero => exact absurd rfl h
  | succ n => rfl

def bodyPre1 (V : TcMem F) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

def bodyPost1 (V : TcMem F) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 8000000 in

theorem sound_body1 (V : TcMem F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  simp only [leaves1_0, leaves1_1, leaves1_2, leaves1_3, leaves1_4, leaves1_5, leaves1_6, leaves1_7, leaves1_8, leaves1_9, leaves1_10, leaves1_11]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 12 t (idleAt1_12 t hc1) (noFlush1_12 t hc1)]
    rw [outsAt1_first V c t h0]; dsimp only
    rw [PhiS1_castSucc V c t, PhiS1_zero V c _ _ h0, PhiA1_eq]
    iintro ⟨⟨⟨A1, A2, A3, A4, A5, A6, A7, A8, A9, A10, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _ Set.univ _)
    iframe
    iintro ⟨H0, H1, H2, H3, H4, H5, H6, H7, H8, H9, H10, H11, H12, HS0, HS1, HS2, HS3⟩
    iframe
    isplitr [H12]
    · isplitl [HS0]; · iexact HS0
      isplitl [HS1]; · iexact HS1
      isplitl [HS2]; · iexact HS2
      iexact HS3
    iexists _; iexact H12
  · by_cases h3 : t.val = 3
    · have hc0 : ¬cond1_0 (grid1.coords t) := fun h => h0 ((hcond1_0 t).mp h)
      have hc1 : cond1_1 (grid1.coords t) := (hcond1_1 t).mpr h3
      rw [show (dat1 V c).leavesExact 12 t = owns (c : Thread nD τ) (ms1_12 t) fullShare ((dat1 V c).after 12 t) from by
        unfold Dat.leavesExact; rw [liveAt1_12 t hc1], after1_12, outsAt1_out]
      rw [outsAt1_later V c t h0]; dsimp only
      rw [PhiS1_castSucc V c t, PhiS1_pos V c _ _ h0]
      iintro ⟨⟨⟨A1, A2, A3, A4, A5, A6, A7, A8, A9, A10, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _ _ _ _ Set.univ _)
      iframe
      isplitl [H12]; · iexists _; iexact H12
      iintro ⟨H0, H1, H2, H3, H4, H5, H6, H7, H8, H9, H10, H11, H12, HS0, HS1, HS2, HS3⟩
      iframe
      isplitr [H12]
      · isplitl [HS0]; · iexact HS0
        isplitl [HS1]; · iexact HS1
        isplitl [HS2]; · iexact HS2
        iexact HS3
      iexact H12
    · have hc0 : ¬cond1_0 (grid1.coords t) := fun h => h0 ((hcond1_0 t).mp h)
      have hc1 : ¬cond1_1 (grid1.coords t) := fun h => h3 ((hcond1_1 t).mp h)
      rw [Dat.leavesExact_idle (dat1 V c) 12 t (idleAt1_12 t hc1) (noFlush1_12 t hc1)]
      rw [outsAt1_later V c t h0]; dsimp only
      rw [PhiS1_castSucc V c t, PhiS1_pos V c _ _ h0]
      iintro ⟨⟨⟨A1, A2, A3, A4, A5, A6, A7, A8, A9, A10, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _ _ _ _ _ Set.univ _)
      iframe
      iintro ⟨H0, H1, H2, H3, H4, H5, H6, H7, H8, H9, H10, H11, H12, HS0, HS1, HS2, HS3⟩
      iframe
      isplitr [H12]
      · isplitl [HS0]; · iexact HS0
        isplitl [HS1]; · iexact HS1
        isplitl [HS2]; · iexact HS2
        iexact HS3
      iexists _; iexact H12

theorem body_obligation1 (V : TcMem F) (c : Dev nD) : BodyObligation (dat1 (F := F) V c) (defs₀ (F := F)) Variants.none () Set.univ := fun t => by
  rw [bigSep_W1, bigSep_W1]
  exact sound_body1 V c t

theorem hin1 (V : TcMem F) (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi_out1 (V : TcMem F) (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨A1, A2, A3, A4, A5, A6, A7, A8, A9, A10, HS0, HS1, HS2, HS3⟩, Hg⟩
  iframe
  isplitl [HS0]; · iexists _; iexact HS0
  isplitl [HS1]; · iexists _; iexact HS1
  isplitl [HS2]; · iexists _; iexact HS2
  iexists _; iexact HS3

theorem hout1 (V : TcMem F) (c : Dev nD) : (dat1 V c).Φ (Fin.last cfg1.N) ⊢ (Pipeline.ΦA spec1 c : sProp 𝕄) :=
  Phi_out1 V c _ (by rw [Fin.val_last]; have : cfg1.N = 4 := N_1; omega)

end Cert.KernelIdeal.Hand

end
-- ==== Proof.KI.Fold.lean ====
import proofs.«409272_j89550068122385_3_alg».proof.Proof.KI.Reg0
import proofs.«409272_j89550068122385_3_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

def wr0 : List (Ref sig .tc) := [
    main_cst, main_v0, main_cst_0, main_v1, main_v2, main_v3, main_cst_1, main_v4, main_v5, main_v6,
    main_cst_2, main_v7, main_v8, main_v9, main_c, main_v10, main_v11, main_c_3, main_v12, main_v13,
    main_v14, main_v15, main_v16, main_cst_4, main_v17, main_v18, main_v19, main_c_5, main_v20, main_v21,
    main_c_6, main_v22, main_v23, main_v24, main_v25, main_v26, main_v27, main_v28, main_c_7, main_v29,
    main_v30, main_c_8, main_v31, main_v32, main_v33, main_v34, main_v35, main_v36, main_v37, main_v38,
    main_cst_9, main_v39, main_v40, main_v41, main_c_10, main_v42, main_v43, main_c_11, main_v44, main_v45,
    main_v46, main_v47, main_v48, main_v49, main_v50, main_v51, main_cst_12, main_v52, main_v53, main_v54,
    main_c_13, main_v55, main_v56, main_c_14, main_v57, main_v58, main_v59, main_v60, main_v61, main_v62,
    main_v63, main_v64, main_cst_15, main_v65, main_v66, main_v67 ]

def wr1 : List (Ref sig .tc) := [
    main_v69, main_v70, main_c_16, main_v71, main_v72, main_v73, main_c_17, main_v74, main_v75, main_v76,
    main_v77, main_c_18, main_v78, main_v79, main_c_19, main_v80, main_v81, main_v82, main_v83, main_v84,
    main_c_20, main_v85, main_v86, main_c_21, main_v87, main_v88, main_v89, main_v90, main_v91, main_c_22,
    main_v92, main_v93, main_c_23, main_v94, main_v95, main_v96, main_v97, main_v98, main_v99, main_v100,
    main_v101, main_v102, main_v103, main_v104, main_c_24, main_v105, main_v106, main_c_25, main_v107, main_v108,
    main_v109, main_v110, main_v111, main_v112, main_c_26, main_v113, main_v114, main_c_27, main_v115, main_v116,
    main_v117, main_v118, main_v119, main_v120, main_c_28, main_v121, main_v122, main_c_29, main_v123, main_v124,
    main_v125, main_v126, main_v127, main_v128, main_c_30, main_v129, main_v130, main_c_31, main_v131, main_v132,
    main_v133, main_v134, main_v135, main_v136, main_v137, main_v138, main_v139 ]

theorem hostOps0_writes : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map.mpr ⟨_, by decide, rfl⟩
theorem hostOps1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map.mpr ⟨_, by decide, rfl⟩

theorem W1_of_not_mem (c : Dev nD) (b : Ref sig .tc) (hb : b ∉ wr0) : W1 m ρ c (Proc.devRef .tc b) = m ((c : Thread nD τ).loc b) :=
  StableHlo.after_of_writes_sub hostOps0 _ hostOps0_writes hb

theorem W3_of_not_mem (c : Dev nD) (b : Ref sig .tc) (hb : b ∉ wr1) : W3 m ρ c (Proc.devRef .tc b) = W2 m ρ c (Proc.devRef .tc b) :=
  StableHlo.after_of_writes_sub hostOps1 _ hostOps1_writes hb

theorem W5_of_ne (c : Dev nD) (b : Ref sig .tc) (hb : b ≠ main_v141) : W5 m ρ c (Proc.devRef .tc b) = W4 m ρ c (Proc.devRef .tc b) :=
  StableHlo.reshape_result_ne _ _ _ _ _ _ _ hb

theorem W5_of_untouched (c : Dev nD) (b : Ref sig .tc) (h5 : b ≠ main_v141) (h4 : ∀ w, Pipeline.arrRef spec1 w ≠ b) (h3 : b ∉ wr1)
    (h2 : ∀ w, Pipeline.arrRef spec0 w ≠ b) (h1 : b ∉ wr0) : W5 m ρ c (Proc.devRef .tc b) = m ((c : Thread nD τ).loc b) :=
  (W5_of_ne m ρ c b h5).trans ((W4_of_ne m ρ c b h4).trans ((W3_of_not_mem m ρ c b h3).trans ((W2_of_ne m ρ c b h2).trans (W1_of_not_mem m ρ c b h1))))
theorem W5_arg (c : Dev nD) :
    ∀ b ∈ [main_arg0, main_arg1, main_arg2, main_arg3, main_arg4, main_arg5, main_arg6, main_arg7, main_arg8, main_arg9],
      W5 m ρ c (Proc.devRef .tc b) = m ((c : Thread nD τ).loc b) := fun b h =>
  W5_of_untouched m ρ c b (by revert b; decide) (by revert b; decide) (by revert b; decide) (by revert b; decide) (by revert b; decide)

theorem W5_out (c : Dev nD) : W5 m ρ c (Proc.devRef .tc main_v141)
    = fun i => shapeCast S_ ((dat1 (V3 m ρ) c).arrAt 12 cfg1.N) shapeCasts_S1x1_S_ i := by
  have h := StableHlo.reshape_result (τ := τ) main_v140 main_v141 rfl shapeCasts_S1x1_S_ ⟨by decide, rfl⟩ ⟨by decide, rfl⟩ (W4 m ρ c)
  rw [W4_arr m ρ c 12] at h
  exact h

end Cert.KernelIdeal.Hand

end
-- ==== Proof.KI.Run.lean ====
import proofs.«409272_j89550068122385_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => congrFun (owed_eq0 (V1 m ρ) c) t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => congrFun (q_eq0 (V1 m ρ) c) w) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi_eq0 (V1 m ρ) c 0]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from Phi_eq0 (V1 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => congrFun (q_eq0 (V1 m ρ) c) w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => congrFun (owed_eq1 (V3 m ρ) c) t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => congrFun (q_eq1 (V3 m ρ) c) w) (V3 m ρ c) (A_eq1 (V3 m ρ) c)
    rw [Pipeline.unscopedBufs_held] at hsplit
    have ho : (pdats m ρ 1 c).owed = fun _ => 0 := owed_eq1 (V3 m ρ) c
    have hr : (pdats m ρ 1 c).recorded = fun _ => Set.univ := recorded_eq1 (V3 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho, hr]
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => congrFun (q_eq1 (V3 m ρ) c) w)
      (V3 m ρ c) (V4 m ρ c) ((pdats m ρ 1 c).arrAt · cfg1.N) (hF1 m ρ c) (hrest1 m ρ c)
    rw [Pipeline.unscopedBufs_held] at hjoin
    have ho : (pdats m ρ 1 c).owed = fun _ => 0 := owed_eq1 (V3 m ρ) c
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

theorem last_link (c : Dev nD) : iprop(StableHlo.held (c : Thread nD τ) (Pipeline.ucRefs τ sig) (W5 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := by
  rw [main_chain c, Pipeline.Seg.run_eq_chain]; rfl

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl,
      fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W5_arg m ρ c main_arg0 (by decide)),
     (h c _ (mem_uc main_arg1 (by decide))).trans (W5_arg m ρ c main_arg1 (by decide)),
     (h c _ (mem_uc main_arg2 (by decide))).trans (W5_arg m ρ c main_arg2 (by decide)),
     (h c _ (mem_uc main_arg3 (by decide))).trans (W5_arg m ρ c main_arg3 (by decide)),
     (h c _ (mem_uc main_arg4 (by decide))).trans (W5_arg m ρ c main_arg4 (by decide)),
     (h c _ (mem_uc main_arg5 (by decide))).trans (W5_arg m ρ c main_arg5 (by decide)),
     (h c _ (mem_uc main_arg6 (by decide))).trans (W5_arg m ρ c main_arg6 (by decide)),
     (h c _ (mem_uc main_arg7 (by decide))).trans (W5_arg m ρ c main_arg7 (by decide)),
     (h c _ (mem_uc main_arg8 (by decide))).trans (W5_arg m ρ c main_arg8 (by decide)),
     (h c _ (mem_uc main_arg9 (by decide))).trans (W5_arg m ρ c main_arg9 (by decide))⟩) (run_main m ρ)

end Cert.KernelIdeal.Hand

end
-- ==== Proof.Spec.Defs.lean ====
import Idealize.ShloMosaic.PureOps.Ideal
import Idealize.ShloMosaic.Lib.ValueIdx

noncomputable section

open scoped BigOperators

namespace Cert.Spec

open Idealize.ShloMosaic

abbrev Tab (n c : Nat) := Fin n → Fin c → EReal

def wrapI (n x : BitVec 32) : BitVec 32 := Scalar.select (IntOp.cmpi .slt x 0#32) (IntOp.addi x n) x

def rowOf (N : Nat) (hN : 0 < N) (x : BitVec 32) : Fin N := ⟨min x.toInt.toNat (N - 1), by omega⟩

structure Args where
  eI : Tab 150000 64
  eP : Tab 150000 64
  q : Fin 50000 → EReal
  b : Fin 50000 → EReal
  user : Fin 8192 → BitVec 32
  itemP : Fin 8192 → BitVec 32
  itemN : Fin 8192 → BitVec 32
  mask : Fin 8192 → BitVec 1
  src : Fin 2000000 → BitVec 32
  dst : Fin 2000000 → BitVec 32

structure Edges where
  sr : Fin 2000000 → Fin 150000
  hit : Fin 2000000 → Fin 150000 → Prop
  dhit : ∀ e n, Decidable (hit e n)
  nrm : Fin 2000000 → EReal

attribute [instance] Edges.dhit

def layer (E : Edges) {c : Nat} (h : Tab 150000 c) : Tab 150000 c :=
  fun n j => 0 + ∑ e ∈ Finset.univ.filter (fun e => E.hit e n), h (E.sr e) j * E.nrm e

def fuse (a b : Tab 150000 64) : Tab 150000 128 :=
  fun n j => if h : j.val < 64 then a n ⟨j.val, h⟩ else b n ⟨j.val - 64, by omega⟩

def lo {n : Nat} (t : Tab n 128) : Tab n 64 := fun r j => t r ⟨j.val, by omega⟩
def hi {n : Nat} (t : Tab n 128) : Tab n 64 := fun r j => t r ⟨64 + j.val, by omega⟩

def sum4 {c : Nat} (E : Edges) (h0 : Tab 150000 c) : Tab 150000 c :=
  fun n j => ((h0 n j + layer E h0 n j) + layer E (layer E h0) n j) + layer E (layer E (layer E h0)) n j

def meanK (quarter : EReal) (E : Edges) (h0 : Tab 150000 128) : Tab 150000 128 := fun n j => sum4 E h0 n j * quarter

def meanR (four : EReal) (E : Edges) (h0 : Tab 150000 64) : Tab 150000 64 := fun n j => Ideal.div (sum4 E h0 n j) four

structure Row where
  d1 : EReal
  d2 : EReal
  d3 : EReal
  d4 : EReal
  qp : EReal
  qn : EReal
  bp : EReal
  bn : EReal
  mf : EReal
  nmf : EReal

structure Samples where
  ru : Fin 8192 → Fin 150000
  rp : Fin 8192 → Fin 150000
  rn : Fin 8192 → Fin 150000
  ip : Fin 8192 → Fin 50000
  inn : Fin 8192 → Fin 50000

def dot (x y : Fin 64 → EReal) : EReal := ∑ j : Fin 64, x j * y j

def rowOfTabs (A : Args) (S : Samples) (fm fnm : Fin 8192 → EReal) (fI fP : Tab 150000 64) (s : Fin 8192) : Row where
  d1 := dot (fI (S.ru s)) (fI (S.rp s))
  d2 := dot (fI (S.ru s)) (fI (S.rn s))
  d3 := dot (fP (S.ru s)) (fP (S.rp s))
  d4 := dot (fP (S.ru s)) (fP (S.rn s))
  qp := A.q (S.ip s)
  qn := A.q (S.inn s)
  bp := A.b (S.ip s)
  bn := A.b (S.inn s)
  mf := fm s
  nmf := fnm s

structure Terms where
  tInt : Row → EReal
  tA : Row → EReal
  tB : Row → EReal
  tT : Row → EReal

def blockSum (rows : Fin 8192 → Row) (f : Row → EReal) (k : Fin 4) : EReal :=
  ∑ r : Fin 2048, f (rows ⟨2048 * k.val + r.val, by omega⟩)
def accK (rows : Fin 8192 → Row) (f : Row → EReal) : EReal :=
  (((0 + blockSum rows f 0) + blockSum rows f 1) + blockSum rows f 2) + blockSum rows f 3

def totR (rows : Fin 8192 → Row) (f : Row → EReal) : EReal := 0 + ∑ s : Fin 8192, f (rows s)

def combineK (negTenth tenth fifth n : EReal) (aInt aA aB aT : EReal) : EReal :=
  Ideal.div ((((negTenth * aInt) - (tenth * aA)) + (tenth * aB)) - (fifth * aT)) n

def combineR (tenth fifth n : EReal) (sInt sA sB sT : EReal) : EReal :=
  ((tenth * (-(Ideal.div sInt n))) + (tenth * ((-(Ideal.div sA n)) - (-(Ideal.div sB n))))) + (fifth * (-(Ideal.div sT n)))

def resK (A : Args) (E : Edges) (S : Samples) (fm fnm : Fin 8192 → EReal) (T : Terms) (quarter negTenth tenth fifth n : EReal) : EReal :=
  let f := meanK quarter E (fuse A.eI A.eP)
  let rows := rowOfTabs A S fm fnm (lo f) (hi f)
  combineK negTenth tenth fifth n (accK rows T.tInt) (accK rows T.tA) (accK rows T.tB) (accK rows T.tT)

def resR (A : Args) (E : Edges) (S : Samples) (fm fnm : Fin 8192 → EReal) (T : Terms) (four tenth fifth n : EReal) : EReal :=
  let rows := rowOfTabs A S fm fnm (meanR four E A.eI) (meanR four E A.eP)
  combineR tenth fifth n (totR rows T.tInt) (totR rows T.tA) (totR rows T.tB) (totR rows T.tT)

end Cert.Spec

end
-- ==== Proof.Spec.Inputs.lean ====
import proofs.«409272_j89550068122385_3_alg».proof.Proof.Spec.Defs

noncomputable section

open scoped BigOperators

namespace Cert.Spec

open Idealize.ShloMosaic

abbrev oneLit : EReal := Ideal.ofBits .f32 0x3F800000#32

abbrev zeroLit : EReal := Ideal.ofBits .f32 0x00000000#32

def lands {N : Nat} (x : BitVec 32) (n : Fin N) : Prop := x.toInt = (n.val : Int)

instance {N : Nat} (x : BitVec 32) (n : Fin N) : Decidable (lands x n) := by unfold lands; infer_instance

def deg (idx : Fin 2000000 → BitVec 32) (n : Fin 150000) : EReal :=
  zeroLit + ∑ e ∈ Finset.univ.filter (fun e => lands (idx e) n), oneLit

def nodeOf (x : BitVec 32) : Fin 150000 := rowOf 150000 (by decide) (wrapI 150000#32 x)

def nrmOf (src dst : Fin 2000000 → BitVec 32) (e : Fin 2000000) : EReal :=
  Ideal.rsqrt (max (deg src (nodeOf (src e))) oneLit) * Ideal.rsqrt (max (deg dst (nodeOf (dst e))) oneLit)

def edgesOf (A : Args) : Edges where
  sr e := nodeOf (A.src e)
  hit e n := lands (A.dst e) n
  dhit _ _ := inferInstance
  nrm := nrmOf A.src A.dst

def samplesOf (A : Args) : Samples where
  ru s := nodeOf (A.user s)
  rp s := nodeOf (IntOp.addi (A.itemP s) 100000#32)
  rn s := nodeOf (IntOp.addi (A.itemN s) 100000#32)
  ip s := rowOf 50000 (by decide) (wrapI 50000#32 (A.itemP s))
  inn s := rowOf 50000 (by decide) (wrapI 50000#32 (A.itemN s))

def fmOf (A : Args) (s : Fin 8192) : EReal := (((A.mask s).toNat : ℝ) : EReal)
def fnmOf (A : Args) (s : Fin 8192) : EReal := (((~~~(A.mask s)).toNat : ℝ) : EReal)

def fusedResult (A : Args) (T : Terms) (quarter negTenth tenth fifth n : EReal) : EReal :=
  resK A (edgesOf A) (samplesOf A) (fmOf A) (fnmOf A) T quarter negTenth tenth fifth n

def plainResult (A : Args) (T : Terms) (four tenth fifth n : EReal) : EReal :=
  resR A (edgesOf A) (samplesOf A) (fmOf A) (fnmOf A) T four tenth fifth n

end Cert.Spec

end
-- ==== Proof.Spec.IdxOps.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«409272_j89550068122385_3_alg».proof.Proof.Spec.Defs
import proofs.«409272_j89550068122385_3_alg».proof.Proof.Spec.Inputs

noncomputable section

open scoped BigOperators

namespace Cert.Spec.IdxOps

open Idealize.ShloMosaic Idealize.ShloMosaic.ValueIdx

section Gather
variable {α : Type}

abbrev rowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gather_rowsDims_apply {N E C : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (j : Fin C) :
    Host.gather (rowsDims N E C wf) x idx (ix2 e j) = x (ix2 (rowOf N hN (idx (ix2 e (0 : Fin 1)))) j) := by

  have h0 : (rowsDims N E C wf).start (ix2 e j) idx (0 : Fin 2) + (rowsDims N E C wf).batchCoord (ix2 e j) (0 : Fin 2)
      + (rowsDims N E C wf).offCoord (ix2 e j) (0 : Fin 2) = min (idx (ix2 e (0 : Fin 1))).toInt.toNat (N - 1) := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

  have h1 : (rowsDims N E C wf).start (ix2 e j) idx (1 : Fin 2) + (rowsDims N E C wf).batchCoord (ix2 e j) (1 : Fin 2)
      + (rowsDims N E C wf).offCoord (ix2 e j) (1 : Fin 2) = j.val := by
    rw [GatherDims.batchCoord_eq_zero _ _ _ List.not_mem_nil, Nat.add_zero]
    have hst : (rowsDims N E C wf).start (ix2 e j) idx (1 : Fin 2) = 0 := by
      unfold GatherDims.start
      rw [dif_neg (show (1 : Fin 2) ∉ ([0] : List (Fin 2)) by decide)]
    rw [hst, Nat.zero_add]
    rfl
  unfold Host.gather
  congr 1
  funext a
  refine Fin.ext ?_
  match a with
  | ⟨0, _⟩ => exact h0
  | ⟨1, _⟩ => exact h1

theorem gather_rows_apply {N E C : Nat} (hN : 0 < N)
    (d : GatherDims ⟨2, ![N, C]⟩ ⟨2, ![E, 1]⟩ ⟨2, ![E, C]⟩)
    (hoff : d.offsetDims = [1]) (hcol : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![E, 1]⟩ 32) (e : Fin E) (j : Fin C) :
    Host.gather d x idx (ix2 e j) = x (ix2 (rowOf N hN (idx (ix2 e (0 : Fin 1)))) j) := by
  obtain ⟨od, cd, ob, sb, sm, iv, ss, wf⟩ := d
  dsimp only at hoff hcol hob hsb hsim hiv hss
  subst hoff hcol hob hsb hsim hiv hss
  exact gather_rowsDims_apply hN wf x idx e j

end Gather

section Gather2
variable {α : Type}

abbrev rows3Dims (N R C : Nat) (wf : GatherDims.WF ⟨2, ![N, C]⟩ ⟨3, ![R, 1, 1]⟩ ⟨3, ![R, 1, C]⟩ [2] [0] [] [0] [] 2 ![1, C]) :
    GatherDims ⟨2, ![N, C]⟩ ⟨3, ![R, 1, 1]⟩ ⟨3, ![R, 1, C]⟩ where
  offsetDims := [2]
  collapsedSliceDims := [0]
  operandBatchingDims := []
  startIndicesBatchingDims := []
  startIndexMap := [0]
  indexVectorDim := 2
  sliceSizes := ![1, C]
  wf := wf

theorem gather_rows3Dims_apply {N R C : Nat} (hN : 0 < N)
    (wf : GatherDims.WF ⟨2, ![N, C]⟩ ⟨3, ![R, 1, 1]⟩ ⟨3, ![R, 1, C]⟩ [2] [0] [] [0] [] 2 ![1, C])
    (x : (⟨2, ![N, C]⟩ : Shape).Idx → α) (idx : IVec ⟨3, ![R, 1, 1]⟩ 32) (s : Fin R) (j : Fin C) :
    Host.gather (rows3Dims N R C wf) x idx (ix3 s (0 : Fin 1) j)
      = x (ix2 (rowOf N hN (idx (ix3 s (0 : Fin 1) (0 : Fin 1)))) j) := by
  have h0 : (rows3Dims N R C wf).start (ix3 s (0 : Fin 1) j) idx (0 : Fin 2)
      + (rows3Dims N R C wf).batchCoord (ix3 s (0 : Fin 1) j) (0 : Fin 2)
      + (rows3Dims N R C wf).offCoord (ix3 s (0 : Fin 1) j) (0 : Fin 2)
      = min (idx (ix3 s (0 : Fin 1) (0 : Fin 1))).toInt.toNat (N - 1) := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rows3Dims N R C wf).startIndexMap from List.mem_singleton.mpr rfl)]
    have hsi : (rows3Dims N R C wf).siIdx (ix3 s (0 : Fin 1) j) ⟨List.idxOf (0 : Fin 2) (rows3Dims N R C wf).startIndexMap,
        List.idxOf_lt_length_iff.2 (List.mem_singleton.mpr rfl)⟩ = ix3 s (0 : Fin 1) (0 : Fin 1) := by
      funext b; refine Fin.ext ?_
      match b with
      | ⟨0, _⟩ => rfl
      | ⟨1, _⟩ => rfl
      | ⟨2, _⟩ => rfl
    rw [hsi]
    rfl
  have h1 : (rows3Dims N R C wf).start (ix3 s (0 : Fin 1) j) idx (1 : Fin 2)
      + (rows3Dims N R C wf).batchCoord (ix3 s (0 : Fin 1) j) (1 : Fin 2)
      + (rows3Dims N R C wf).offCoord (ix3 s (0 : Fin 1) j) (1 : Fin 2) = j.val := by
    rw [GatherDims.batchCoord_eq_zero _ _ _ List.not_mem_nil, Nat.add_zero]
    have hst : (rows3Dims N R C wf).start (ix3 s (0 : Fin 1) j) idx (1 : Fin 2) = 0 := by
      unfold GatherDims.start
      rw [dif_neg (show (1 : Fin 2) ∉ ([0] : List (Fin 2)) by decide)]
    rw [hst, Nat.zero_add]
    rfl
  unfold Host.gather
  congr 1
  funext a
  refine Fin.ext ?_
  match a with
  | ⟨0, _⟩ => exact h0
  | ⟨1, _⟩ => exact h1

theorem gather_rows3_apply {N R C : Nat} (hN : 0 < N)
    (d : GatherDims ⟨2, ![N, C]⟩ ⟨3, ![R, 1, 1]⟩ ⟨3, ![R, 1, C]⟩)
    (hoff : d.offsetDims = [2]) (hcol : d.collapsedSliceDims = [0]) (hob : d.operandBatchingDims = [])
    (hsb : d.startIndicesBatchingDims = []) (hsim : d.startIndexMap = [0]) (hiv : d.indexVectorDim = 2)
    (hss : d.sliceSizes = ![1, C])
    (x : (⟨2, ![N, C]⟩ : Shape).Idx → α) (idx : IVec ⟨3, ![R, 1, 1]⟩ 32) (s : Fin R) (c : Fin 1) (j : Fin C) :
    Host.gather d x idx (ix3 s c j) = x (ix2 (rowOf N hN (idx (ix3 s (0 : Fin 1) (0 : Fin 1)))) j) := by
  obtain rfl : c = 0 := Subsingleton.elim _ _
  obtain ⟨od, cd, ob, sb, sm, iv, ss, wf⟩ := d
  dsimp only at hoff hcol hob hsb hsim hiv hss
  subst hoff hcol hob hsb hsim hiv hss
  exact gather_rows3Dims_apply hN wf x idx s j

abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_flatDims_apply {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (flatDims N E wf) x idx (ix1 e) = x (ix1 (rowOf N hN (idx (ix2 e (0 : Fin 1))))) := by
  unfold Host.gather
  congr 1
  funext a
  obtain rfl : a = 0 := Subsingleton.elim _ _
  refine Fin.ext ?_
  show (flatDims N E wf).start (ix1 e) idx 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gather_flat_apply {N E : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hsb : d.startIndicesBatchingDims = []) (hsim : d.startIndexMap = [0]) (hiv : d.indexVectorDim = 1)
    (hss : d.sliceSizes = ![1])
    (x : (⟨1, ![N]⟩ : Shape).Idx → α) (idx : IVec ⟨2, ![E, 1]⟩ 32) (e : Fin E) :
    Host.gather d x idx (ix1 e) = x (ix1 (rowOf N hN (idx (ix2 e (0 : Fin 1))))) := by
  obtain ⟨od, cd, ob, sb, sm, iv, ss, wf⟩ := d
  dsimp only at hoff hcol hob hsb hsim hiv hss
  subst hoff hcol hob hsb hsim hiv hss
  exact gather_flatDims_apply hN wf x idx e

theorem gather_flat3_apply {N R : Nat} (hN : 0 < N)
    (d : GatherDims ⟨1, ![N]⟩ ⟨3, ![R, 1, 1]⟩ ⟨2, ![R, 1]⟩)
    (hoff : d.offsetDims = []) (hcol : d.collapsedSliceDims = [0]) (hob : d.operandBatchingDims = [])
    (hsb : d.startIndicesBatchingDims = []) (hsim : d.startIndexMap = [0]) (hiv : d.indexVectorDim = 2)
    (hss : d.sliceSizes = ![1])
    (x : (⟨1, ![N]⟩ : Shape).Idx → α) (idx : IVec ⟨3, ![R, 1, 1]⟩ 32) (s : Fin R) (c : Fin 1) :
    Host.gather d x idx (ix2 s c) = x (ix1 (rowOf N hN (idx (ix3 s (0 : Fin 1) (0 : Fin 1))))) := by
  obtain rfl : c = 0 := Subsingleton.elim _ _
  obtain ⟨od, cd, ob, sb, sm, iv, ss, wf⟩ := d
  dsimp only at hoff hcol hob hsb hsim hiv hss
  subst hoff hcol hob hsb hsim hiv hss
  refine (gather_take_apply hN wf x idx (ix2 s (0 : Fin 1))).trans ?_
  have hti : takeIdx (ix2 s (0 : Fin 1)) = ix3 s (0 : Fin 1) (0 : Fin 1) := by
    funext b; refine Fin.ext ?_
    match b with
    | ⟨0, _⟩ => rfl
    | ⟨1, _⟩ => rfl
    | ⟨2, _⟩ => rfl
  exact congrArg (fun r : Fin N => x (ix1 r)) (Fin.ext (by
    show min (idx (takeIdx (ix2 s (0 : Fin 1)))).toInt.toNat (N - 1) = min (idx (ix3 s (0 : Fin 1) (0 : Fin 1))).toInt.toNat (N - 1)
    rw [hti]))

end Gather2

theorem scatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · next hc =>
      injection h with h
      subst h
      intro a
      exact (Int.toNat_of_nonneg (hc a).1).symm
    · exact absurd h (by simp)
  · intro h
    have hc : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hc]
    congr 1
    funext a
    refine Fin.ext ?_
    show (d.start j idx a + (d.window j a : Int)).toNat = (i a).val
    rw [h a]
    exact Int.toNat_natCast _

abbrev rowsScat (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem rowsScat_lands_iff {N E C : Nat} (wf : ScatterDims.WF ⟨2, ![N, C]⟩ ⟨2, ![E, 1]⟩ ⟨2, ![E, C]⟩ [1] [0] [0] 1)
    (idx : IVec ⟨2, ![E, 1]⟩ 32) (e : Fin E) (c : Fin C) (n : Fin N) (j : Fin C) :
    (rowsScat N E C wf).resultIdx? (ix2 e c) idx = some (ix2 n j) ↔ (Cert.Spec.lands (idx (ix2 e (0 : Fin 1))) n ∧ c = j) := by
  have hs0 : (rowsScat N E C wf).start (ix2 e c) idx (0 : Fin 2) = (idx (ix2 e (0 : Fin 1))).toInt := by
    unfold ScatterDims.start
    rw [dif_pos (show (0 : Fin 2) ∈ (rowsScat N E C wf).scatterDimsToOperandDims from List.mem_singleton.mpr rfl)]
    have hsi : (rowsScat N E C wf).siIdx (ix2 e c) ⟨List.idxOf (0 : Fin 2) (rowsScat N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScat N E C wf).start (ix2 e c) idx (1 : Fin 2) = 0 := by
    unfold ScatterDims.start
    rw [dif_neg (show (1 : Fin 2) ∉ ([0] : List (Fin 2)) by decide)]
  have hw0 : (rowsScat N E C wf).window (ix2 e c) (0 : Fin 2) = 0 := by
    unfold ScatterDims.window
    rw [dif_neg (by simp [ScatterDims.sKept, Shape.kept])]
  have hw1 : (rowsScat N E C wf).window (ix2 e c) (1 : Fin 2) = c.val := by
    unfold ScatterDims.window
    rw [dif_pos (by simp [ScatterDims.sKept, Shape.kept])]
    rfl
  rw [resultIdx?_eq_some_iff]
  constructor
  · intro h
    have h0 := h (0 : Fin 2)
    have h1 := h (1 : Fin 2)
    rw [hs0, hw0] at h0
    rw [hs1, hw1] at h1
    refine ⟨?_, Fin.ext ?_⟩
    · unfold Cert.Spec.lands
      simpa using h0
    · have h1' : ((c.val : Nat) : Int) = ((j.val : Nat) : Int) := by simpa using h1
      exact_mod_cast h1'
  · rintro ⟨hl, rfl⟩ a
    unfold Cert.Spec.lands at hl
    match a with
    | ⟨0, _⟩ =>
      show (rowsScat N E C wf).start (ix2 e c) idx (0 : Fin 2) + ((rowsScat N E C wf).window (ix2 e c) (0 : Fin 2) : Int) = (n.val : Int)
      rw [hs0, hw0, hl]; simp
    | ⟨1, _⟩ =>
      show (rowsScat N E C wf).start (ix2 e c) idx (1 : Fin 2) + ((rowsScat N E C wf).window (ix2 e c) (1 : Fin 2) : Int) = (c.val : Int)
      rw [hs1, hw1]; simp

theorem scatterAdd_rowsScat_apply {N E C : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ 32) (upd : (⟨2, ![E, C]⟩ : Shape).Idx → EReal)
    (n : Fin N) (j : Fin C) :
    Ideal.hostScatterAdd (rowsScat N E C wf) x idx upd (ix2 n j)
      = x (ix2 n j) + ∑ e ∈ Finset.univ.filter (fun e : Fin E => Cert.Spec.lands (idx (ix2 e (0 : Fin 1))) n), upd (ix2 e j) := by
  unfold Ideal.hostScatterAdd
  congr 1
  rw [Finset.sum_filter, sum_idx2, Finset.sum_filter]
  refine Finset.sum_congr rfl fun e _ => ?_
  have hc : ∀ c : Fin C, (if (rowsScat N E C wf).resultIdx? (ix2 e c) idx = some (ix2 n j) then upd (ix2 e c) else 0)
      = if c = j then (if Cert.Spec.lands (idx (ix2 e (0 : Fin 1))) n then upd (ix2 e j) else 0) else 0 := by
    intro c
    by_cases hcj : c = j
    · subst hcj
      rw [if_pos rfl]
      exact if_congr ((rowsScat_lands_iff wf idx e c n c).trans (and_iff_left rfl)) rfl rfl
    · rw [if_neg hcj, if_neg]
      intro h
      exact hcj ((rowsScat_lands_iff wf idx e c n j).mp h).2
  rw [Finset.sum_congr rfl fun c _ => hc c, Finset.sum_ite_eq' Finset.univ j, if_pos (Finset.mem_univ j)]

theorem scatterAdd_rows_apply {N E C : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ 32) (upd : (⟨2, ![E, C]⟩ : Shape).Idx → EReal)
    (n : Fin N) (j : Fin C) :
    Ideal.hostScatterAdd d x idx upd (ix2 n j)
      = x (ix2 n j) + ∑ e ∈ Finset.univ.filter (fun e : Fin E => Cert.Spec.lands (idx (ix2 e (0 : Fin 1))) n), upd (ix2 e j) := by
  obtain ⟨uw, iw, sd, iv, wf⟩ := d
  dsimp only at huw hiw hsd hiv
  subst huw hiw hsd hiv
  exact scatterAdd_rowsScat_apply wf x idx upd n j

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev flatScat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem flatScat_lands_iff {N E : Nat} (wf : ScatterDims.WF ⟨1, ![N]⟩ ⟨2, ![E, 1]⟩ ⟨1, ![E]⟩ [] [0] [0] 1)
    (idx : IVec ⟨2, ![E, 1]⟩ 32) (e : Fin E) (n : Fin N) :
    (flatScat N E wf).resultIdx? (ix1 e) idx = some (ix1 n) ↔ Cert.Spec.lands (idx (ix2 e (0 : Fin 1))) n := by
  have hs0 : (flatScat N E wf).start (ix1 e) idx (0 : Fin 1) = (idx (ix2 e (0 : Fin 1))).toInt := by
    unfold ScatterDims.start
    rw [dif_pos (show (0 : Fin 1) ∈ (flatScat N E wf).scatterDimsToOperandDims from List.mem_singleton.mpr rfl)]
    have hsi : (flatScat N E wf).siIdx (ix1 e) ⟨List.idxOf (0 : Fin 1) (flatScat N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (flatScat N E wf).window (ix1 e) (0 : Fin 1) = 0 := by
    unfold ScatterDims.window
    rw [dif_neg (by simp [ScatterDims.sKept, Shape.kept])]
  rw [resultIdx?_eq_some_iff]
  unfold Cert.Spec.lands
  constructor
  · intro h
    have h0 := h (0 : Fin 1)
    rw [hs0, hw0] at h0
    simpa using h0
  · intro hl a
    obtain rfl : a = 0 := Subsingleton.elim _ _
    show (flatScat N E wf).start (ix1 e) idx (0 : Fin 1) + ((flatScat N E wf).window (ix1 e) (0 : Fin 1) : Int) = (n.val : Int)
    rw [hs0, hw0, hl]
    simp

theorem scatterAdd_flatScat_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (n : Fin N) :
    Ideal.hostScatterAdd (flatScat N E wf) x idx upd (ix1 n)
      = x (ix1 n) + ∑ e ∈ Finset.univ.filter (fun e : Fin E => Cert.Spec.lands (idx (ix2 e (0 : Fin 1))) n), upd (ix1 e) := by
  unfold Ideal.hostScatterAdd
  congr 1
  rw [Finset.sum_filter, sum_idx1, Finset.sum_filter]
  exact Finset.sum_congr rfl fun e _ => if_congr (flatScat_lands_iff wf idx e n) rfl rfl

theorem scatterAdd_flat_apply {N E : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ 32) (upd : (⟨1, ![E]⟩ : Shape).Idx → EReal)
    (n : Fin N) :
    Ideal.hostScatterAdd d x idx upd (ix1 n)
      = x (ix1 n) + ∑ e ∈ Finset.univ.filter (fun e : Fin E => Cert.Spec.lands (idx (ix2 e (0 : Fin 1))) n), upd (ix1 e) := by
  obtain ⟨uw, iw, sd, iv, wf⟩ := d
  dsimp only at huw hiw hsd hiv
  subst huw hiw hsd hiv
  exact scatterAdd_flatScat_apply wf x idx upd n

end Cert.Spec.IdxOps

end
-- ==== Proof.Spec.IdxLayout.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Data.Fintype.BigOperators

noncomputable section

open scoped BigOperators

namespace Cert.Spec.IdxOps

open Idealize.ShloMosaic Idealize.ShloMosaic.ValueIdx

section Layout
variable {α : Type}

theorem concat_cols_apply {N : Nat} (a b : (⟨2, ![N, 64]⟩ : Shape).Idx → α)
    (h : Shape.Concatenates [(⟨2, ![N, 64]⟩ : Shape), ⟨2, ![N, 64]⟩] ⟨2, ![N, 128]⟩ 1) (n : Fin N) (j : Fin 128) :
    concatenate ⟨2, ![N, 128]⟩ 1 [⟨⟨2, ![N, 64]⟩, a⟩, ⟨⟨2, ![N, 64]⟩, b⟩] h (ix2 n j)
      = if hj : j.val < 64 then a (ix2 n ⟨j.val, hj⟩) else b (ix2 n ⟨j.val - 64, by omega⟩) := by
  by_cases hj : j.val < 64
  · rw [dif_pos hj]
    exact concatenate_pair_apply_left 1 a b h (ix2 n j) rfl (ix2 n ⟨j.val, hj⟩)
      (fun c => by match c with | ⟨0, _⟩ => rfl | ⟨1, _⟩ => rfl)
  · rw [dif_neg hj]
    refine concatenate_pair_apply_right 1 a b h (ix2 n j) rfl rfl (ix2 n ⟨j.val - 64, by omega⟩)
      (fun c hc => ?_) ?_
    · match c, hc with
      | ⟨0, _⟩, _ => rfl
      | ⟨1, _⟩, hc => exact absurd rfl hc
    · show (j.val - 64) + 64 = j.val
      omega

theorem slice_lo_apply {R : Nat} (x : (⟨2, ![R, 128]⟩ : Shape).Idx → α)
    (h : (⟨2, ![R, 128]⟩ : Shape).Slices ![0, 0] ⟨2, ![R, 64]⟩) (s : Fin R) (j : Fin 64) :
    extractStridedSlice ⟨2, ![R, 64]⟩ ![0, 0] x h (ix2 s j) = x (ix2 s ⟨j.val, by omega⟩) := by
  exact slice2_axis1_apply 0 x h s j ⟨j.val, by omega⟩ (Nat.zero_add _).symm

theorem slice_hi_apply {R : Nat} (x : (⟨2, ![R, 128]⟩ : Shape).Idx → α)
    (h : (⟨2, ![R, 128]⟩ : Shape).Slices ![0, 64] ⟨2, ![R, 64]⟩) (s : Fin R) (j : Fin 64) :
    extractStridedSlice ⟨2, ![R, 64]⟩ ![0, 64] x h (ix2 s j) = x (ix2 s ⟨64 + j.val, by omega⟩) := by
  exact slice2_axis1_apply 64 x h s j ⟨64 + j.val, by omega⟩ rfl

theorem shapeCast_col_apply {R : Nat} (x : (⟨1, ![R]⟩ : Shape).Idx → α)
    (h : (⟨1, ![R]⟩ : Shape).ShapeCasts ⟨2, ![R, 1]⟩) (r : Fin R) (c : Fin 1) :
    shapeCast ⟨2, ![R, 1]⟩ x h (ix2 r c) = x (ix1 r) := by
  refine shapeCast_apply x h (ix2 r c) (ix1 r) ?_
  rw [Shape.rowMajor_val_one, Shape.rowMajor_val_two]
  show r.val = r.val * 1 + c.val
  omega

theorem shapeCast_flat_apply {R : Nat} (x : (⟨2, ![R, 1]⟩ : Shape).Idx → α)
    (h : (⟨2, ![R, 1]⟩ : Shape).ShapeCasts ⟨1, ![R]⟩) (r : Fin R) :
    shapeCast ⟨1, ![R]⟩ x h (ix1 r) = x (ix2 r (0 : Fin 1)) := by
  refine shapeCast_apply x h (ix1 r) (ix2 r (0 : Fin 1)) ?_
  rw [Shape.rowMajor_val_one, Shape.rowMajor_val_two]
  show r.val * 1 + 0 = r.val
  omega

theorem shapeCast_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  refine shapeCast_apply x h j (ix2 (0 : Fin 1) (0 : Fin 1)) ?_
  have h0 : ((⟨0, ![]⟩ : Shape).rowMajor j).val < 1 := ((⟨0, ![]⟩ : Shape).rowMajor j).isLt
  rw [Shape.rowMajor_val_two]
  show 0 * 1 + 0 = _
  omega

theorem bcast_col_apply {E : Nat} (x : (⟨1, ![E]⟩ : Shape).Idx → α)
    (h : (⟨1, ![E]⟩ : Shape).BroadcastsInDim ⟨2, ![E, 1]⟩ ![0]) (e : Fin E) (c : Fin 1) :
    broadcastInDim ⟨2, ![E, 1]⟩ ![0] h x (ix2 e c) = x (ix1 e) := by
  refine broadcastInDim_apply _ h x (ix2 e c) (ix1 e) fun a => ?_
  match a with
  | ⟨0, _⟩ =>
    show e.val = if E = 1 then 0 else e.val
    split
    · have := e.isLt; omega
    · rfl

theorem bcast_row_apply {E C : Nat} (x : (⟨2, ![E, 1]⟩ : Shape).Idx → α)
    (h : (⟨2, ![E, 1]⟩ : Shape).BroadcastsInDim ⟨2, ![E, C]⟩ ![0, 1]) (e : Fin E) (j : Fin C) :
    broadcastInDim ⟨2, ![E, C]⟩ ![0, 1] h x (ix2 e j) = x (ix2 e (0 : Fin 1)) := by
  refine broadcastInDim_apply _ h x (ix2 e j) (ix2 e (0 : Fin 1)) fun a => ?_
  match a with
  | ⟨0, _⟩ =>
    show e.val = if E = 1 then 0 else e.val
    split
    · have := e.isLt; omega
    · rfl
  | ⟨1, _⟩ =>
    show 0 = if 1 = 1 then 0 else j.val
    first | rfl | exact (if_pos rfl).symm

theorem bcast_scalar_apply {T : Shape} (x : (⟨0, ![]⟩ : Shape).Idx → α)
    (h : (⟨0, ![]⟩ : Shape).BroadcastsInDim T ![]) (j : T.Idx) :
    broadcastInDim T ![] h x j = x ix0 := by
  exact broadcastInDim_apply _ h x j ix0 fun a => a.elim0

theorem bcast_col3_apply {R : Nat} (x : (⟨2, ![R, 1]⟩ : Shape).Idx → α)
    (h : (⟨2, ![R, 1]⟩ : Shape).BroadcastsInDim ⟨3, ![R, 1, 1]⟩ ![0, 1]) (r : Fin R) (a b : Fin 1) :
    broadcastInDim ⟨3, ![R, 1, 1]⟩ ![0, 1] h x (ix3 r a b) = x (ix2 r (0 : Fin 1)) := by
  refine broadcastInDim_apply _ h x (ix3 r a b) (ix2 r (0 : Fin 1)) fun c => ?_
  match c with
  | ⟨0, _⟩ =>
    show r.val = if R = 1 then 0 else r.val
    split
    · have := r.isLt; omega
    · rfl
  | ⟨1, _⟩ =>
    show 0 = if 1 = 1 then 0 else a.val
    first | rfl | exact (if_pos rfl).symm

end Layout

theorem hostReduceAdd_last_apply {R C : Nat} (h : (⟨3, ![R, 1, C]⟩ : Shape).ReducesTo [2] ⟨2, ![R, 1]⟩)
    (x : (⟨3, ![R, 1, C]⟩ : Shape).Idx → EReal) (init : EReal) (s : Fin R) (c : Fin 1) :
    Ideal.hostReduceAdd h x init (ix2 s c) = init + ∑ j : Fin C, x (ix3 s (0 : Fin 1) j) := by
  obtain rfl : c = 0 := Subsingleton.elim _ _
  have hr : (⟨3, ![R, 1, C]⟩ : Shape).Reduces [2] ⟨2, ![R, 1]⟩ := ⟨h.1, Nat.succ_pos 1, h.2⟩
  rw [Ideal.hostReduceAdd_single h hr x init (ix2 s 0)]
  congr 1
  refine Finset.sum_congr rfl fun k _ => congrArg x (funext fun a => ?_)
  match a with
  | ⟨0, _⟩ => rfl
  | ⟨1, _⟩ => rfl
  | ⟨2, _⟩ => rfl

theorem hostReduceAdd_all_apply {R : Nat} (h : (⟨2, ![R, 1]⟩ : Shape).ReducesTo [0, 1] ⟨0, ![]⟩)
    (x : (⟨2, ![R, 1]⟩ : Shape).Idx → EReal) (init : EReal) (j : (⟨0, ![]⟩ : Shape).Idx) :
    Ideal.hostReduceAdd h x init j = init + ∑ s : Fin R, x (ix2 s (0 : Fin 1)) := by
  rw [Ideal.hostReduceAdd_total h (fun b => b.elim0) x init j, sum_idx2]
  simp only [Fin.sum_univ_one]

theorem reduceAdd_cols_apply {R C : Nat} (h : (⟨2, ![R, C]⟩ : Shape).Reduces [1] ⟨1, ![R]⟩)
    (x : (⟨2, ![R, C]⟩ : Shape).Idx → EReal) (r : Fin R) :
    Ideal.reduceAdd h x (ix1 r) = ∑ j : Fin C, x (ix2 r j) := by
  rw [Ideal.reduceAdd_single h x (ix1 r)]
  refine Finset.sum_congr rfl fun k _ => congrArg x (funext fun a => ?_)
  match a with
  | ⟨0, _⟩ => rfl
  | ⟨1, _⟩ => rfl

theorem reduceAdd_rows_apply {R : Nat} (h : (⟨2, ![R, 1]⟩ : Shape).Reduces [0] ⟨1, ![1]⟩)
    (x : (⟨2, ![R, 1]⟩ : Shape).Idx → EReal) (j : (⟨1, ![1]⟩ : Shape).Idx) :
    Ideal.reduceAdd h x j = ∑ r : Fin R, x (ix2 r (0 : Fin 1)) := by
  rw [Ideal.reduceAdd_single h x j]
  refine Finset.sum_congr rfl fun k _ => congrArg x (funext fun a => ?_)
  match a with
  | ⟨0, _⟩ => rfl
  | ⟨1, hl⟩ =>
    apply Fin.ext
    have h1 := (h.lift j k ⟨1, hl⟩).isLt
    have h2 : ((⟨2, ![R, 1]⟩ : Shape).size ⟨1, hl⟩) = 1 := rfl
    show (h.lift j k ⟨1, hl⟩).val = 0
    omega

theorem multiReduction_cols_apply {R C : Nat} {φ : FTy} (src : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (r : Fin R) :
    multiReduction .add [1] ⟨1, ![R]⟩ src acc h hφ hacc (ix1 r) = ∑ j : Fin C, src (ix2 r j) := by
  exact reduceAdd_cols_apply h src r

theorem multiReduction_rows_apply {R : Nat} {φ : FTy} (src : FVec Ideal ⟨2, ![R, 1]⟩ φ) (acc : BitVec φ.bits)
    (h : (⟨2, ![R, 1]⟩ : Shape).Reduces [0] ⟨1, ![1]⟩) (hφ : FKind.Formats φ) (hacc : acc = FKind.add.neutral φ hφ)
    (j : (⟨1, ![1]⟩ : Shape).Idx) :
    multiReduction .add [0] ⟨1, ![1]⟩ src acc h hφ hacc j = ∑ r : Fin R, src (ix2 r (0 : Fin 1)) := by
  exact reduceAdd_rows_apply h src j

theorem Host_reduceAdd_last_apply {R C : Nat} {φ : FTy} (x : FVec Ideal ⟨3, ![R, 1, C]⟩ φ)
    (v : (⟨0, ![]⟩ : Shape).Idx → Ideal φ) (h : (⟨3, ![R, 1, C]⟩ : Shape).ReducesTo [2] ⟨2, ![R, 1]⟩)
    (hu : 0 < (⟨0, ![]⟩ : Shape).numel) (s : Fin R) (c : Fin 1) :
    Host.reduceAdd x v h hu (ix2 s c) = v ix0 + ∑ j : Fin C, x (ix3 s (0 : Fin 1) j) := by
  show Ideal.hostReduceAdd h x (v (Shape.Idx.first hu)) (ix2 s c) = _
  rw [hostReduceAdd_last_apply, eq_ix0 (Shape.Idx.first hu)]

theorem Host_reduceAdd_all_apply {R : Nat} {φ : FTy} (x : FVec Ideal ⟨2, ![R, 1]⟩ φ)
    (v : (⟨0, ![]⟩ : Shape).Idx → Ideal φ) (h : (⟨2, ![R, 1]⟩ : Shape).ReducesTo [0, 1] ⟨0, ![]⟩)
    (hu : 0 < (⟨0, ![]⟩ : Shape).numel) (j : (⟨0, ![]⟩ : Shape).Idx) :
    Host.reduceAdd x v h hu j = v ix0 + ∑ s : Fin R, x (ix2 s (0 : Fin 1)) := by
  show Ideal.hostReduceAdd h x (v (Shape.Idx.first hu)) j = _
  rw [hostReduceAdd_all_apply, eq_ix0 (Shape.Idx.first hu)]

end Cert.Spec.IdxOps

end
-- ==== Proof.KI.HostValue.lean ====
import proofs.«409272_j89550068122385_3_alg».proof.Proof.Gen.KernelIdeal.Launch
import proofs.«409272_j89550068122385_3_alg».proof.Proof.Spec.Defs
import proofs.«409272_j89550068122385_3_alg».proof.Proof.Spec.Inputs
import proofs.«409272_j89550068122385_3_alg».proof.Proof.Spec.IdxOps
import proofs.«409272_j89550068122385_3_alg».proof.Proof.Spec.IdxLayout
import Idealize.ShloMosaic.Lib.StableHlo.Run
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Cert.Spec.IdxOps

abbrev Val := Valuation τ sig (Elt Ideal)

def argsOfVal (W : Val) : Spec.Args where
  eI n j := (W (Proc.devRef .tc main_arg0) : S150000x64.Idx → EReal) (ix2 n j)
  eP n j := (W (Proc.devRef .tc main_arg1) : S150000x64.Idx → EReal) (ix2 n j)
  q i := (W (Proc.devRef .tc main_arg2) : S50000.Idx → EReal) (ix1 i)
  b i := (W (Proc.devRef .tc main_arg3) : S50000.Idx → EReal) (ix1 i)
  user s := (W (Proc.devRef .tc main_arg4) : S8192x1.Idx → BitVec 32) (ix2 s 0)
  itemP s := (W (Proc.devRef .tc main_arg5) : S8192x1.Idx → BitVec 32) (ix2 s 0)
  itemN s := (W (Proc.devRef .tc main_arg6) : S8192x1.Idx → BitVec 32) (ix2 s 0)
  mask s := (W (Proc.devRef .tc main_arg7) : S8192x1.Idx → BitVec 1) (ix2 s 0)
  src e := (W (Proc.devRef .tc main_arg8) : S2000000.Idx → BitVec 32) (ix1 e)
  dst e := (W (Proc.devRef .tc main_arg9) : S2000000.Idx → BitVec 32) (ix1 e)

abbrev T0 (W : Val) : Spec.Tab 150000 128 := Spec.fuse (argsOfVal W).eI (argsOfVal W).eP

abbrev meanOf (W : Val) : S150000x128.Idx → EReal := W (Proc.devRef .tc main_v68)

def wrapV (x : IVec S2000000 32) : IVec S2000000 32 :=
  select (cmpi .slt x (broadcastInDim S2000000 ![] bcast_S_S2000000 (constantI S_ 32 0#32)))
    (addi x (broadcastInDim S2000000 ![] bcast_S_S2000000 (constantI S_ 32 150000#32))) x

def sideV (x : IVec S2000000 32) : FVec Ideal S2000000 .f32 :=
  Host.gather gather_S150000_S2000000x1_S2000000_n_0_n_n_0_1_1
    (Host.rsqrt (maximumf
      (Host.scatterAdd scatter_S150000_S2000000x1_S2000000_n_0_0_1
        (broadcastInDim S150000 ![] bcast_S_S150000 (constant S_ .f32 0x00000000#32))
        (broadcastInDim S2000000x1 ![0] bcast_S2000000_S2000000x1_0 x)
        (broadcastInDim S2000000 ![] bcast_S_S2000000 (constant S_ .f32 0x3F800000#32)))
      (broadcastInDim S150000 ![] bcast_S_S150000 (constant S_ .f32 0x3F800000#32))))
    (broadcastInDim S2000000x1 ![0] bcast_S2000000_S2000000x1_0 (wrapV x))

def layerV (src dst : IVec S2000000 32) (nrm : FVec Ideal S2000000 .f32) (h : FVec Ideal S150000x128 .f32) :
    FVec Ideal S150000x128 .f32 :=
  Host.scatterAdd scatter_S150000x128_S2000000x1_S2000000x128_1_0_0_1
    (broadcastInDim S150000x128 ![] bcast_S_S150000x128 (constant S_ .f32 0x00000000#32))
    (broadcastInDim S2000000x1 ![0] bcast_S2000000_S2000000x1_0 dst)
    (mulf
      (Host.gather gather_S150000x128_S2000000x1_S2000000x128_1_0_n_n_0_1_1128 h
        (broadcastInDim S2000000x1 ![0] bcast_S2000000_S2000000x1_0 (wrapV src)))
      (broadcastInDim S2000000x128 ![0, 1] bcast_S2000000x1_S2000000x128_0_1
        (broadcastInDim S2000000x1 ![0] bcast_S2000000_S2000000x1_0 nrm)))

def fuseV (a b : FVec Ideal S150000x64 .f32) : FVec Ideal S150000x128 .f32 :=
  concatenate S150000x128 1 [⟨S150000x64, a⟩, ⟨S150000x64, b⟩] concatenates_S150000x64_S150000x64_S150000x128_d1

def nrmV (W : Val) : FVec Ideal S2000000 .f32 :=
  mulf (sideV (W (Proc.devRef .tc main_arg8))) (sideV (W (Proc.devRef .tc main_arg9)))

def layerW (W : Val) (h : FVec Ideal S150000x128 .f32) : FVec Ideal S150000x128 .f32 :=
  layerV (W (Proc.devRef .tc main_arg8)) (W (Proc.devRef .tc main_arg9)) (nrmV W) h

theorem gatherFlat_apply {α : Type} (x : S150000.Idx → α) (idx : IVec S2000000x1 32) (e : Fin 2000000) :
    Host.gather gather_S150000_S2000000x1_S2000000_n_0_n_n_0_1_1 x idx (ix1 e)
      = x (ix1 (Spec.rowOf 150000 (by decide) (idx (ix2 e (0 : Fin 1))))) :=
  gather_flat_apply (by decide) gather_S150000_S2000000x1_S2000000_n_0_n_n_0_1_1 rfl rfl rfl rfl rfl rfl rfl x idx e

theorem gatherRows_apply {α : Type} (x : S150000x128.Idx → α) (idx : IVec S2000000x1 32) (e : Fin 2000000) (j : Fin 128) :
    Host.gather gather_S150000x128_S2000000x1_S2000000x128_1_0_n_n_0_1_1128 x idx (ix2 e j)
      = x (ix2 (Spec.rowOf 150000 (by decide) (idx (ix2 e (0 : Fin 1)))) j) :=
  gather_rows_apply (by decide) gather_S150000x128_S2000000x1_S2000000x128_1_0_n_n_0_1_1128 rfl rfl rfl rfl rfl rfl rfl x idx e j

theorem scatFlat_apply (x : FVec Ideal S150000 .f32) (idx : IVec S2000000x1 32) (upd : FVec Ideal S2000000 .f32) (n : Fin 150000) :
    Host.scatterAdd scatter_S150000_S2000000x1_S2000000_n_0_0_1 x idx upd (ix1 n)
      = x (ix1 n) + ∑ e ∈ Finset.univ.filter (fun e : Fin 2000000 => Spec.lands (idx (ix2 e (0 : Fin 1))) n), upd (ix1 e) := by
  rw [scatterAdd_eq]
  exact scatterAdd_flat_apply scatter_S150000_S2000000x1_S2000000_n_0_0_1 rfl rfl rfl rfl x idx upd n

theorem scatRows_apply (x : FVec Ideal S150000x128 .f32) (idx : IVec S2000000x1 32) (upd : FVec Ideal S2000000x128 .f32)
    (n : Fin 150000) (j : Fin 128) :
    Host.scatterAdd scatter_S150000x128_S2000000x1_S2000000x128_1_0_0_1 x idx upd (ix2 n j)
      = x (ix2 n j) + ∑ e ∈ Finset.univ.filter (fun e : Fin 2000000 => Spec.lands (idx (ix2 e (0 : Fin 1))) n), upd (ix2 e j) := by
  rw [scatterAdd_eq]
  exact scatterAdd_rows_apply scatter_S150000x128_S2000000x1_S2000000x128_1_0_0_1 rfl rfl rfl rfl x idx upd n j

theorem hostRsqrt_max_apply {s : Shape} (a b : FVec Ideal s .f32) (i : s.Idx) :
    Host.rsqrt (maximumf a b) i = Ideal.rsqrt (max (a i) (b i)) := rfl

theorem wrap_apply {s : Shape} (x lo hi : IVec s 32) (i : s.Idx) :
    select (cmpi .slt x lo) (addi x hi) x i = Scalar.select (IntOp.cmpi .slt (x i) (lo i)) (IntOp.addi (x i) (hi i)) (x i) := rfl

theorem constI_apply (b : BitVec 32) (i : S_.Idx) : constantI S_ 32 b i = b := rfl

theorem wrapV_apply (x : IVec S2000000 32) (e : Fin 2000000) :
    wrapV x (ix1 e) = Spec.wrapI 150000#32 (x (ix1 e)) := by
  unfold wrapV Spec.wrapI
  rw [wrap_apply, bcast_scalar_apply, bcast_scalar_apply, constI_apply, constI_apply]

theorem sideV_apply (x : IVec S2000000 32) (e : Fin 2000000) :
    sideV x (ix1 e)
      = Ideal.rsqrt (max (Spec.deg (fun e => x (ix1 e)) (Spec.nodeOf (x (ix1 e)))) Spec.oneLit) := by
  unfold sideV
  rw [gatherFlat_apply, bcast_col_apply, wrapV_apply, hostRsqrt_max_apply, scatFlat_apply, bcast_scalar_apply,
    bcast_scalar_apply, constant_apply, constant_apply]
  unfold Spec.deg Spec.nodeOf
  rw [Finset.sum_congr
    (Finset.filter_congr fun e' _ => by rw [bcast_col_apply])
    (fun e' _ => by rw [bcast_scalar_apply, constant_apply])]

theorem nrmV_apply (W : Val) (e : Fin 2000000) :
    nrmV W (ix1 e) = Spec.nrmOf (argsOfVal W).src (argsOfVal W).dst e := by
  unfold nrmV Spec.nrmOf
  rw [mulf_apply, sideV_apply, sideV_apply]
  rfl

theorem layerV_apply (src dst : IVec S2000000 32) (nrm : FVec Ideal S2000000 .f32) (h : FVec Ideal S150000x128 .f32)
    (n : Fin 150000) (j : Fin 128) :
    layerV src dst nrm h (ix2 n j)
      = 0 + ∑ e ∈ Finset.univ.filter (fun e : Fin 2000000 => Spec.lands (dst (ix1 e)) n),
          h (ix2 (Spec.nodeOf (src (ix1 e))) j) * nrm (ix1 e) := by
  unfold layerV
  rw [scatRows_apply, bcast_scalar_apply, constant_apply, Ideal.ofBits_zero_f32]
  refine congrArg (fun t => (0 : EReal) + t) ?_
  refine Finset.sum_congr (Finset.filter_congr fun e' _ => by rw [bcast_col_apply]) fun e' _ => ?_
  rw [mulf_apply, gatherRows_apply, bcast_col_apply, wrapV_apply, bcast_row_apply, bcast_col_apply]
  unfold Spec.nodeOf
  rfl

theorem layerW_apply (W : Val) (h : FVec Ideal S150000x128 .f32) (H : Spec.Tab 150000 128)
    (hH : ∀ n j, h (ix2 n j) = H n j) (n : Fin 150000) (j : Fin 128) :
    layerW W h (ix2 n j) = Spec.layer (Spec.edgesOf (argsOfVal W)) H n j := by
  unfold layerW Spec.layer
  rw [layerV_apply]
  refine congrArg (fun t => (0 : EReal) + t) ?_
  refine Finset.sum_congr rfl fun e' _ => ?_
  rw [hH, nrmV_apply]
  rfl

theorem fuseV_apply (a b : FVec Ideal S150000x64 .f32) (n : Fin 150000) (j : Fin 128) :
    fuseV a b (ix2 n j) = Spec.fuse (fun n j => a (ix2 n j)) (fun n j => b (ix2 n j)) n j := by
  unfold fuseV Spec.fuse
  exact concat_cols_apply a b concatenates_S150000x64_S150000x64_S150000x128_d1 n j

set_option maxHeartbeats 4000000 in

theorem v28_eq (W : Val) :
    StableHlo.after hostOps0 W (Proc.devRef .tc main_v28)
      = fuseV (W (Proc.devRef .tc main_arg0)) (W (Proc.devRef .tc main_arg1)) := by
  unfold fuseV
  after_results

set_option maxHeartbeats 4000000 in

theorem v41_step (W : Val) :
    StableHlo.after hostOps0 W (Proc.devRef .tc main_v41)
      = layerW W (StableHlo.after hostOps0 W (Proc.devRef .tc main_v28)) := by
  unfold layerW layerV nrmV sideV wrapV
  after_results_simp

set_option maxHeartbeats 4000000 in

theorem v54_step (W : Val) :
    StableHlo.after hostOps0 W (Proc.devRef .tc main_v54)
      = layerW W (StableHlo.after hostOps0 W (Proc.devRef .tc main_v41)) := by
  unfold layerW layerV nrmV sideV wrapV
  after_results_simp

set_option maxHeartbeats 4000000 in

theorem v67_step (W : Val) :
    StableHlo.after hostOps0 W (Proc.devRef .tc main_v67)
      = layerW W (StableHlo.after hostOps0 W (Proc.devRef .tc main_v54)) := by
  unfold layerW layerV nrmV sideV wrapV
  after_results_simp

theorem host0_v28 (W : Val) (n : Fin 150000) (j : Fin 128) :
    (StableHlo.after hostOps0 W (Proc.devRef .tc main_v28) : S150000x128.Idx → EReal) (ix2 n j) = T0 W n j := by
  rw [v28_eq, fuseV_apply]
  rfl

theorem host0_v41 (W : Val) (n : Fin 150000) (j : Fin 128) :
    (StableHlo.after hostOps0 W (Proc.devRef .tc main_v41) : S150000x128.Idx → EReal) (ix2 n j)
      = Spec.layer (Spec.edgesOf (argsOfVal W)) (T0 W) n j := by
  rw [v41_step]
  exact layerW_apply W _ _ (host0_v28 W) n j

theorem host0_v54 (W : Val) (n : Fin 150000) (j : Fin 128) :
    (StableHlo.after hostOps0 W (Proc.devRef .tc main_v54) : S150000x128.Idx → EReal) (ix2 n j)
      = Spec.layer (Spec.edgesOf (argsOfVal W)) (Spec.layer (Spec.edgesOf (argsOfVal W)) (T0 W)) n j := by
  rw [v54_step]
  exact layerW_apply W _ _ (host0_v41 W) n j

theorem host0_v67 (W : Val) (n : Fin 150000) (j : Fin 128) :
    (StableHlo.after hostOps0 W (Proc.devRef .tc main_v67) : S150000x128.Idx → EReal) (ix2 n j)
      = Spec.layer (Spec.edgesOf (argsOfVal W)) (Spec.layer (Spec.edgesOf (argsOfVal W)) (Spec.layer (Spec.edgesOf (argsOfVal W)) (T0 W))) n j := by
  rw [v67_step]
  exact layerW_apply W _ _ (host0_v54 W) n j

noncomputable def written0 : List (Ref sig .tc) := [main_cst, main_v0, main_cst_0, main_v1, main_v2, main_v3, main_cst_1, main_v4, main_v5, main_v6, main_cst_2, main_v7, main_v8, main_v9, main_c, main_v10, main_v11, main_c_3, main_v12, main_v13, main_v14, main_v15, main_v16, main_cst_4, main_v17, main_v18, main_v19, main_c_5, main_v20, main_v21, main_c_6, main_v22, main_v23, main_v24, main_v25, main_v26, main_v27, main_v28, main_c_7, main_v29, main_v30, main_c_8, main_v31, main_v32, main_v33, main_v34, main_v35, main_v36, main_v37, main_v38, main_cst_9, main_v39, main_v40, main_v41, main_c_10, main_v42, main_v43, main_c_11, main_v44, main_v45, main_v46, main_v47, main_v48, main_v49, main_v50, main_v51, main_cst_12, main_v52, main_v53, main_v54, main_c_13, main_v55, main_v56, main_c_14, main_v57, main_v58, main_v59, main_v60, main_v61, main_v62, main_v63, main_v64, main_cst_15, main_v65, main_v66, main_v67]

set_option maxRecDepth 4096 in
theorem hostOps0_writes_ideal :
    (hostOps0 (F := Ideal)).Forall fun op => op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem host0_keep (W : Val) {r : Ref sig .tc} (hr : r ∉ written0) :
    StableHlo.after hostOps0 W (Proc.devRef .tc r) = W (Proc.devRef .tc r) :=
  StableHlo.after_of_writes_sub hostOps0 W hostOps0_writes_ideal hr

theorem host0_args (W : Val) :
    StableHlo.after hostOps0 W (Proc.devRef .tc main_arg0) = W (Proc.devRef .tc main_arg0)
    ∧ StableHlo.after hostOps0 W (Proc.devRef .tc main_arg1) = W (Proc.devRef .tc main_arg1)
    ∧ StableHlo.after hostOps0 W (Proc.devRef .tc main_arg2) = W (Proc.devRef .tc main_arg2)
    ∧ StableHlo.after hostOps0 W (Proc.devRef .tc main_arg3) = W (Proc.devRef .tc main_arg3)
    ∧ StableHlo.after hostOps0 W (Proc.devRef .tc main_arg4) = W (Proc.devRef .tc main_arg4)
    ∧ StableHlo.after hostOps0 W (Proc.devRef .tc main_arg5) = W (Proc.devRef .tc main_arg5)
    ∧ StableHlo.after hostOps0 W (Proc.devRef .tc main_arg6) = W (Proc.devRef .tc main_arg6)
    ∧ StableHlo.after hostOps0 W (Proc.devRef .tc main_arg7) = W (Proc.devRef .tc main_arg7)
    ∧ StableHlo.after hostOps0 W (Proc.devRef .tc main_arg8) = W (Proc.devRef .tc main_arg8)
    ∧ StableHlo.after hostOps0 W (Proc.devRef .tc main_arg9) = W (Proc.devRef .tc main_arg9) :=
  ⟨host0_keep W (by decide), host0_keep W (by decide), host0_keep W (by decide), host0_keep W (by decide),
   host0_keep W (by decide), host0_keep W (by decide), host0_keep W (by decide), host0_keep W (by decide),
   host0_keep W (by decide), host0_keep W (by decide)⟩

theorem host2_v141 (W : Val) :
    (StableHlo.after hostOps2 W (Proc.devRef .tc main_v141) : S_.Idx → EReal) ix0
      = (W (Proc.devRef .tc main_v140) : S1x1.Idx → EReal) (ix2 0 0) := by
  simp only [hostOps2, StableHlo.after_cons, StableHlo.after_nil]
  rw [StableHlo.reshape_result]
  exact shapeCast_scalar_apply (W (Proc.devRef .tc main_v140)) shapeCasts_S1x1_S_ ix0

end Cert.KernelIdeal.Hand

end
-- ==== Proof.KI.HostValue1.lean ====
import proofs.«409272_j89550068122385_3_alg».proof.Proof.KI.HostValue
import proofs.«409272_j89550068122385_3_alg».proof.Proof.Spec.IdxOps
import proofs.«409272_j89550068122385_3_alg».proof.Proof.Spec.IdxLayout
import Idealize.ShloMosaic.Lib.StableHlo.Run
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Cert.Spec.IdxOps

theorem wrap_col_apply (x : S8192.Idx → BitVec 32) (n : BitVec 32) (s : Fin 8192) :
    (broadcastInDim S8192x1 ![0] bcast_S8192_S8192x1_0
      (select (cmpi .slt x (broadcastInDim S8192 ![] bcast_S_S8192 (constantI S_ 32 0#32)))
        (addi x (broadcastInDim S8192 ![] bcast_S_S8192 (constantI S_ 32 n))) x) : S8192x1.Idx → BitVec 32) (ix2 s (0 : Fin 1))
      = Spec.wrapI n (x (ix1 s)) :=
  (bcast_col_apply _ _ s 0).trans rfl

theorem row_at (M : S150000x128.Idx → EReal) (x : S8192.Idx → BitVec 32) (s : Fin 8192) (jj : Fin 128) :
    Host.gather gather_S150000x128_S8192x1_S8192x128_1_0_n_n_0_1_1128 M
      (broadcastInDim S8192x1 ![0] bcast_S8192_S8192x1_0
        (select (cmpi .slt x (broadcastInDim S8192 ![] bcast_S_S8192 (constantI S_ 32 0#32)))
          (addi x (broadcastInDim S8192 ![] bcast_S_S8192 (constantI S_ 32 150000#32))) x)) (ix2 s jj)
      = M (ix2 (Spec.nodeOf (x (ix1 s))) jj) :=
  (gather_rows_apply (by decide) _ rfl rfl rfl rfl rfl rfl rfl M _ s jj).trans
    (congrArg (fun r : Fin 150000 => M (ix2 r jj)) (congrArg (Spec.rowOf 150000 (by decide)) (wrap_col_apply x 150000#32 s)))

theorem pop_at (v : S50000.Idx → EReal) (x : S8192.Idx → BitVec 32) (s : Fin 8192) :
    shapeCast S8192x1 (Host.gather gather_S50000_S8192x1_S8192_n_0_n_n_0_1_1 v
      (broadcastInDim S8192x1 ![0] bcast_S8192_S8192x1_0
        (select (cmpi .slt x (broadcastInDim S8192 ![] bcast_S_S8192 (constantI S_ 32 0#32)))
          (addi x (broadcastInDim S8192 ![] bcast_S_S8192 (constantI S_ 32 50000#32))) x))) shapeCasts_S8192_S8192x1 (ix2 s (0 : Fin 1))
      = v (ix1 (Spec.rowOf 50000 (by decide) (Spec.wrapI 50000#32 (x (ix1 s))))) :=
  (shapeCast_col_apply _ _ s 0).trans
    ((gather_flat_apply (by decide) _ rfl rfl rfl rfl rfl rfl rfl v _ s).trans
      (congrArg (fun r : Fin 50000 => v (ix1 r)) (congrArg (Spec.rowOf 50000 (by decide)) (wrap_col_apply x 50000#32 s))))

set_option maxHeartbeats 4000000 in
theorem host1_v99 (W : Val) (s : Fin 8192) (j : Fin 64) :
    (StableHlo.after hostOps1 W (Proc.devRef .tc main_v99) : S8192x64.Idx → EReal) (ix2 s j)
      = meanOf W (ix2 ((Spec.samplesOf (argsOfVal W)).ru s) ⟨j.val, by omega⟩) := by
  after_results_simp
  refine (slice_lo_apply _ _ s j).trans ((row_at _ _ s _).trans ?_)
  exact congrArg (fun y => meanOf W (ix2 (Spec.nodeOf y) _)) (shapeCast_flat_apply _ _ s)
set_option maxHeartbeats 4000000 in
theorem host1_v100 (W : Val) (s : Fin 8192) (j : Fin 64) :
    (StableHlo.after hostOps1 W (Proc.devRef .tc main_v100) : S8192x64.Idx → EReal) (ix2 s j)
      = meanOf W (ix2 ((Spec.samplesOf (argsOfVal W)).ru s) ⟨64 + j.val, by omega⟩) := by
  after_results_simp
  refine (slice_hi_apply _ _ s j).trans ((row_at _ _ s _).trans ?_)
  exact congrArg (fun y => meanOf W (ix2 (Spec.nodeOf y) _)) (shapeCast_flat_apply _ _ s)
set_option maxHeartbeats 4000000 in
theorem host1_v101 (W : Val) (s : Fin 8192) (j : Fin 64) :
    (StableHlo.after hostOps1 W (Proc.devRef .tc main_v101) : S8192x64.Idx → EReal) (ix2 s j)
      = meanOf W (ix2 ((Spec.samplesOf (argsOfVal W)).rp s) ⟨j.val, by omega⟩) := by
  after_results_simp
  refine (slice_lo_apply _ _ s j).trans ((row_at _ _ s _).trans ?_)
  exact congrArg (fun y => meanOf W (ix2 (Spec.nodeOf (IntOp.addi y 100000#32)) _)) (shapeCast_flat_apply _ _ s)
set_option maxHeartbeats 4000000 in
theorem host1_v102 (W : Val) (s : Fin 8192) (j : Fin 64) :
    (StableHlo.after hostOps1 W (Proc.devRef .tc main_v102) : S8192x64.Idx → EReal) (ix2 s j)
      = meanOf W (ix2 ((Spec.samplesOf (argsOfVal W)).rp s) ⟨64 + j.val, by omega⟩) := by
  after_results_simp
  refine (slice_hi_apply _ _ s j).trans ((row_at _ _ s _).trans ?_)
  exact congrArg (fun y => meanOf W (ix2 (Spec.nodeOf (IntOp.addi y 100000#32)) _)) (shapeCast_flat_apply _ _ s)
set_option maxHeartbeats 4000000 in
theorem host1_v103 (W : Val) (s : Fin 8192) (j : Fin 64) :
    (StableHlo.after hostOps1 W (Proc.devRef .tc main_v103) : S8192x64.Idx → EReal) (ix2 s j)
      = meanOf W (ix2 ((Spec.samplesOf (argsOfVal W)).rn s) ⟨j.val, by omega⟩) := by
  after_results_simp
  refine (slice_lo_apply _ _ s j).trans ((row_at _ _ s _).trans ?_)
  exact congrArg (fun y => meanOf W (ix2 (Spec.nodeOf (IntOp.addi y 100000#32)) _)) (shapeCast_flat_apply _ _ s)
set_option maxHeartbeats 4000000 in
theorem host1_v104 (W : Val) (s : Fin 8192) (j : Fin 64) :
    (StableHlo.after hostOps1 W (Proc.devRef .tc main_v104) : S8192x64.Idx → EReal) (ix2 s j)
      = meanOf W (ix2 ((Spec.samplesOf (argsOfVal W)).rn s) ⟨64 + j.val, by omega⟩) := by
  after_results_simp
  refine (slice_hi_apply _ _ s j).trans ((row_at _ _ s _).trans ?_)
  exact congrArg (fun y => meanOf W (ix2 (Spec.nodeOf (IntOp.addi y 100000#32)) _)) (shapeCast_flat_apply _ _ s)

set_option maxHeartbeats 4000000 in
theorem host1_v112 (W : Val) (s : Fin 8192) :
    (StableHlo.after hostOps1 W (Proc.devRef .tc main_v112) : S8192x1.Idx → EReal) (ix2 s 0)
      = (argsOfVal W).q ((Spec.samplesOf (argsOfVal W)).ip s) := by
  after_results_simp
  refine (pop_at _ _ s).trans ?_
  exact congrArg (fun y => (W (Proc.devRef .tc main_arg2) : S50000.Idx → EReal) (ix1 (Spec.rowOf 50000 (by decide) (Spec.wrapI 50000#32 y))))
    (shapeCast_flat_apply _ _ s)
set_option maxHeartbeats 4000000 in
theorem host1_v120 (W : Val) (s : Fin 8192) :
    (StableHlo.after hostOps1 W (Proc.devRef .tc main_v120) : S8192x1.Idx → EReal) (ix2 s 0)
      = (argsOfVal W).q ((Spec.samplesOf (argsOfVal W)).inn s) := by
  after_results_simp
  refine (pop_at _ _ s).trans ?_
  exact congrArg (fun y => (W (Proc.devRef .tc main_arg2) : S50000.Idx → EReal) (ix1 (Spec.rowOf 50000 (by decide) (Spec.wrapI 50000#32 y))))
    (shapeCast_flat_apply _ _ s)
set_option maxHeartbeats 4000000 in
theorem host1_v128 (W : Val) (s : Fin 8192) :
    (StableHlo.after hostOps1 W (Proc.devRef .tc main_v128) : S8192x1.Idx → EReal) (ix2 s 0)
      = (argsOfVal W).b ((Spec.samplesOf (argsOfVal W)).ip s) := by
  after_results_simp
  refine (pop_at _ _ s).trans ?_
  exact congrArg (fun y => (W (Proc.devRef .tc main_arg3) : S50000.Idx → EReal) (ix1 (Spec.rowOf 50000 (by decide) (Spec.wrapI 50000#32 y))))
    (shapeCast_flat_apply _ _ s)
set_option maxHeartbeats 4000000 in
theorem host1_v136 (W : Val) (s : Fin 8192) :
    (StableHlo.after hostOps1 W (Proc.devRef .tc main_v136) : S8192x1.Idx → EReal) (ix2 s 0)
      = (argsOfVal W).b ((Spec.samplesOf (argsOfVal W)).inn s) := by
  after_results_simp
  refine (pop_at _ _ s).trans ?_
  exact congrArg (fun y => (W (Proc.devRef .tc main_arg3) : S50000.Idx → EReal) (ix1 (Spec.rowOf 50000 (by decide) (Spec.wrapI 50000#32 y))))
    (shapeCast_flat_apply _ _ s)

set_option maxHeartbeats 4000000 in
theorem host1_v137 (W : Val) (s : Fin 8192) :
    (StableHlo.after hostOps1 W (Proc.devRef .tc main_v137) : S8192x1.Idx → EReal) (ix2 s 0)
      = Spec.fmOf (argsOfVal W) s := by
  after_results_simp
  rfl
set_option maxHeartbeats 4000000 in
theorem host1_v139 (W : Val) (s : Fin 8192) :
    (StableHlo.after hostOps1 W (Proc.devRef .tc main_v139) : S8192x1.Idx → EReal) (ix2 s 0)
      = Spec.fnmOf (argsOfVal W) s := by
  after_results_simp
  rfl

set_option maxHeartbeats 8000000 in

theorem host1_keeps (W : Val) :
    StableHlo.after hostOps1 W (Proc.devRef .tc main_v68) = W (Proc.devRef .tc main_v68)
    ∧ StableHlo.after hostOps1 W (Proc.devRef .tc main_arg0) = W (Proc.devRef .tc main_arg0)
    ∧ StableHlo.after hostOps1 W (Proc.devRef .tc main_arg1) = W (Proc.devRef .tc main_arg1)
    ∧ StableHlo.after hostOps1 W (Proc.devRef .tc main_arg2) = W (Proc.devRef .tc main_arg2)
    ∧ StableHlo.after hostOps1 W (Proc.devRef .tc main_arg3) = W (Proc.devRef .tc main_arg3)
    ∧ StableHlo.after hostOps1 W (Proc.devRef .tc main_arg4) = W (Proc.devRef .tc main_arg4)
    ∧ StableHlo.after hostOps1 W (Proc.devRef .tc main_arg5) = W (Proc.devRef .tc main_arg5)
    ∧ StableHlo.after hostOps1 W (Proc.devRef .tc main_arg6) = W (Proc.devRef .tc main_arg6)
    ∧ StableHlo.after hostOps1 W (Proc.devRef .tc main_arg7) = W (Proc.devRef .tc main_arg7)
    ∧ StableHlo.after hostOps1 W (Proc.devRef .tc main_arg8) = W (Proc.devRef .tc main_arg8)
    ∧ StableHlo.after hostOps1 W (Proc.devRef .tc main_arg9) = W (Proc.devRef .tc main_arg9) := by
  refine ⟨?_, ?_, ?_, ?_, ?_, ?_, ?_, ?_, ?_, ?_, ?_⟩ <;> after_results_simp

end Cert.KernelIdeal.Hand

end
-- ==== Proof.KI.Reg0Value.lean ====
import proofs.«409272_j89550068122385_3_alg».proof.Proof.KI.Reg0
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hzero_r0 : (![0, 0] : Fin 2 → Nat) = fun _ => 0 := funext fun a => by fin_cases a <;> rfl

abbrev G0_4 (a0 a1 a2 a3 : S150000x128.Idx → Elt Ideal .f32) : S150000x128.Idx → Elt Ideal .f32 :=
  fun i => (((a0 i + a1 i) + a2 i) + a3 i) * Ideal.ofBits .f32 0x3E800000#32

theorem pay0_apply (x0 x1 x2 x3 : Vec Ideal S6000x128 .f32) (j : S6000x128.Idx) :
    k0_pay1 x0 x1 x2 x3 j = (((x0 j + x1 j) + x2 j) + x3 j) * Ideal.ofBits .f32 0x3E800000#32 := by
  unfold k0_pay1
  simp only [shapeCast_self, mulf_apply, addf_apply, broadcast_apply]
  rfl

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem iblk0_apply_0 (V : TcMem Ideal) (c : Dev nD) (t : Fin cfg0.N) (j : S6000x128.Idx) :
    (iblk0 V c 0 t : Vec Ideal S6000x128 .f32) j
      = (V c (Pipeline.arrRef spec0 0) : S150000x128.Idx → Elt Ideal .f32) (((cfg0.win 0).blk t).view.emb j) := by
  unfold iblk0
  rw [View.read_apply]
  rfl
theorem iblk0_apply_1 (V : TcMem Ideal) (c : Dev nD) (t : Fin cfg0.N) (j : S6000x128.Idx) :
    (iblk0 V c 1 t : Vec Ideal S6000x128 .f32) j
      = (V c (Pipeline.arrRef spec0 1) : S150000x128.Idx → Elt Ideal .f32) (((cfg0.win 1).blk t).view.emb j) := by
  unfold iblk0
  rw [View.read_apply]
  rfl
theorem iblk0_apply_2 (V : TcMem Ideal) (c : Dev nD) (t : Fin cfg0.N) (j : S6000x128.Idx) :
    (iblk0 V c 2 t : Vec Ideal S6000x128 .f32) j
      = (V c (Pipeline.arrRef spec0 2) : S150000x128.Idx → Elt Ideal .f32) (((cfg0.win 2).blk t).view.emb j) := by
  unfold iblk0
  rw [View.read_apply]
  rfl
theorem iblk0_apply_3 (V : TcMem Ideal) (c : Dev nD) (t : Fin cfg0.N) (j : S6000x128.Idx) :
    (iblk0 V c 3 t : Vec Ideal S6000x128 .f32) j
      = (V c (Pipeline.arrRef spec0 3) : S150000x128.Idx → Elt Ideal .f32) (((cfg0.win 3).blk t).view.emb j) := by
  unfold iblk0
  rw [View.read_apply]
  rfl

theorem emb0_0 (t : Fin cfg0.N) (j : S6000x128.Idx) : ((cfg0.win 0).blk t).view.emb j = ((cfg0.win 4).blk t).view.emb j := by
  obtain ⟨e00, e01, e10, e11, e20, e21, e30, e31, e40, e41⟩ := idx_facts0 t
  funext a; apply Fin.ext
  match a with
  | ⟨0, _⟩ => show win0_0.index t (0 : Fin 2) * 6000 + 1 * (j 0).val = win0_4.index t (0 : Fin 2) * 6000 + 1 * (j 0).val; omega
  | ⟨1, _⟩ => show win0_0.index t (1 : Fin 2) * 128 + 1 * (j 1).val = win0_4.index t (1 : Fin 2) * 128 + 1 * (j 1).val; omega
theorem emb0_1 (t : Fin cfg0.N) (j : S6000x128.Idx) : ((cfg0.win 1).blk t).view.emb j = ((cfg0.win 4).blk t).view.emb j := by
  obtain ⟨e00, e01, e10, e11, e20, e21, e30, e31, e40, e41⟩ := idx_facts0 t
  funext a; apply Fin.ext
  match a with
  | ⟨0, _⟩ => show win0_1.index t (0 : Fin 2) * 6000 + 1 * (j 0).val = win0_4.index t (0 : Fin 2) * 6000 + 1 * (j 0).val; omega
  | ⟨1, _⟩ => show win0_1.index t (1 : Fin 2) * 128 + 1 * (j 1).val = win0_4.index t (1 : Fin 2) * 128 + 1 * (j 1).val; omega
theorem emb0_2 (t : Fin cfg0.N) (j : S6000x128.Idx) : ((cfg0.win 2).blk t).view.emb j = ((cfg0.win 4).blk t).view.emb j := by
  obtain ⟨e00, e01, e10, e11, e20, e21, e30, e31, e40, e41⟩ := idx_facts0 t
  funext a; apply Fin.ext
  match a with
  | ⟨0, _⟩ => show win0_2.index t (0 : Fin 2) * 6000 + 1 * (j 0).val = win0_4.index t (0 : Fin 2) * 6000 + 1 * (j 0).val; omega
  | ⟨1, _⟩ => show win0_2.index t (1 : Fin 2) * 128 + 1 * (j 1).val = win0_4.index t (1 : Fin 2) * 128 + 1 * (j 1).val; omega
theorem emb0_3 (t : Fin cfg0.N) (j : S6000x128.Idx) : ((cfg0.win 3).blk t).view.emb j = ((cfg0.win 4).blk t).view.emb j := by
  obtain ⟨e00, e01, e10, e11, e20, e21, e30, e31, e40, e41⟩ := idx_facts0 t
  funext a; apply Fin.ext
  match a with
  | ⟨0, _⟩ => show win0_3.index t (0 : Fin 2) * 6000 + 1 * (j 0).val = win0_4.index t (0 : Fin 2) * 6000 + 1 * (j 0).val; omega
  | ⟨1, _⟩ => show win0_3.index t (1 : Fin 2) * 128 + 1 * (j 1).val = win0_4.index t (1 : Fin 2) * 128 + 1 * (j 1).val; omega

theorem iblk0_at_0 (V : TcMem Ideal) (c : Dev nD) (t : Fin cfg0.N) (j : S6000x128.Idx) :
    (iblk0 V c 0 t : Vec Ideal S6000x128 .f32) j
      = (V c (Pipeline.arrRef spec0 0) : S150000x128.Idx → Elt Ideal .f32) (((cfg0.win 4).blk t).view.emb j) :=
  (iblk0_apply_0 V c t j).trans (congrArg (V c (Pipeline.arrRef spec0 0) : S150000x128.Idx → Elt Ideal .f32) (emb0_0 t j))
theorem iblk0_at_1 (V : TcMem Ideal) (c : Dev nD) (t : Fin cfg0.N) (j : S6000x128.Idx) :
    (iblk0 V c 1 t : Vec Ideal S6000x128 .f32) j
      = (V c (Pipeline.arrRef spec0 1) : S150000x128.Idx → Elt Ideal .f32) (((cfg0.win 4).blk t).view.emb j) :=
  (iblk0_apply_1 V c t j).trans (congrArg (V c (Pipeline.arrRef spec0 1) : S150000x128.Idx → Elt Ideal .f32) (emb0_1 t j))
theorem iblk0_at_2 (V : TcMem Ideal) (c : Dev nD) (t : Fin cfg0.N) (j : S6000x128.Idx) :
    (iblk0 V c 2 t : Vec Ideal S6000x128 .f32) j
      = (V c (Pipeline.arrRef spec0 2) : S150000x128.Idx → Elt Ideal .f32) (((cfg0.win 4).blk t).view.emb j) :=
  (iblk0_apply_2 V c t j).trans (congrArg (V c (Pipeline.arrRef spec0 2) : S150000x128.Idx → Elt Ideal .f32) (emb0_2 t j))
theorem iblk0_at_3 (V : TcMem Ideal) (c : Dev nD) (t : Fin cfg0.N) (j : S6000x128.Idx) :
    (iblk0 V c 3 t : Vec Ideal S6000x128 .f32) j
      = (V c (Pipeline.arrRef spec0 3) : S150000x128.Idx → Elt Ideal .f32) (((cfg0.win 4).blk t).view.emb j) :=
  (iblk0_apply_3 V c t j).trans (congrArg (V c (Pipeline.arrRef spec0 3) : S150000x128.Idx → Elt Ideal .f32) (emb0_3 t j))

theorem flushed0_4_pay (V : TcMem Ideal) (c : Dev nD) (t : Fin cfg0.N) :
    (dat0 V c).flushed 4 t = (cfg0.win 4).cut (grid0.coords t) (k0_pay1 (iblk0 V c 0 t) (iblk0 V c 1 t) (iblk0 V c 2 t) (iblk0 V c 3 t)) := by
  show (cfg0.win 4).cut (grid0.coords t) ((dat0 V c).after 4 t) = _
  rw [after0_4]
  unfold out0_4
  rw [View.canon_unit_zero hzero_r0]
  simp only [View.ld_unit_zero (S := S6000x128) hzero_r0]

theorem flushed0_4_eq (V : TcMem Ideal) (c : Dev nD) (t : Fin cfg0.N) :
    (dat0 V c).flushed 4 t = ((cfg0.win 4).blk t).view.read (Elt Ideal)
      (G0_4 (V c (Pipeline.arrRef spec0 0)) (V c (Pipeline.arrRef spec0 1)) (V c (Pipeline.arrRef spec0 2)) (V c (Pipeline.arrRef spec0 3))) := by
  rw [flushed0_4_pay]
  funext j
  have hL : (cfg0.win 4).cut (grid0.coords t) (k0_pay1 (iblk0 V c 0 t) (iblk0 V c 1 t) (iblk0 V c 2 t) (iblk0 V c 3 t)) j
      = k0_pay1 (iblk0 V c 0 t) (iblk0 V c 1 t) (iblk0 V c 2 t) (iblk0 V c 3 t) j := rfl
  rw [hL, View.read_apply, pay0_apply, iblk0_at_0, iblk0_at_1, iblk0_at_2, iblk0_at_3]
  rfl

theorem mem_blk0_4 (t : Fin cfg0.N) (i : S150000x128.Idx) :
    i ∈ ((cfg0.win 4).blk t).view.set ↔ ∀ a : Fin 2, win0_4.index t a * S6000x128.size a ≤ (i a).val ∧ (i a).val < win0_4.index t a * S6000x128.size a + S6000x128.size a := by
  show i ∈ ((View.whole main_v68).slice (win0_4.rect t)).set ↔ _
  rw [View.set_slice_whole, Rect.mem_set_unit]
  exact Iff.rfl

theorem idx_onto0_4 : ∀ q0 : Fin 25, ∃ t : Fin cfg0.N, win0_4.index t = ![q0.val, 0] :=
  (by decide +kernel : ∀ q0 : Fin 25, ∃ t : Fin grid0.N, win0_4.index t = ![q0.val, 0])

theorem cover0_arr (i : S150000x128.Idx) :
    ∃ t : Fin cfg0.N, (cfg0.win 4).flush t = true ∧ i ∈ ((cfg0.win 4).blk t).view.set := by
  have hi0 : (i 0).val < 150000 := (i 0).isLt
  have hi1 : (i 1).val < 128 := (i 1).isLt
  obtain ⟨t, ht⟩ := idx_onto0_4 ⟨(i 0).val / 6000, by omega⟩
  have q0 : win0_4.index t (0 : Fin 2) = (i 0).val / 6000 := congrFun ht 0
  have q1 : win0_4.index t (1 : Fin 2) = 0 := congrFun ht 1
  refine ⟨t, flush0_4 t, ?_⟩
  rw [mem_blk0_4]
  intro a
  match a with
  | ⟨0, _⟩ => show win0_4.index t (0 : Fin 2) * 6000 ≤ (i 0).val ∧ (i 0).val < win0_4.index t (0 : Fin 2) * 6000 + 6000; omega
  | ⟨1, _⟩ => show win0_4.index t (1 : Fin 2) * 128 ≤ (i 1).val ∧ (i 1).val < win0_4.index t (1 : Fin 2) * 128 + 128; omega

theorem arr0_4 (V : TcMem Ideal) (c : Dev nD) :
    (dat0 (F := Ideal) V c).arrAt 4 cfg0.N
      = G0_4 (V c (Pipeline.arrRef spec0 0)) (V c (Pipeline.arrRef spec0 1)) (V c (Pipeline.arrRef spec0 2)) (V c (Pipeline.arrRef spec0 3)) :=
  (dat0 V c).arrAt_eq_of_cover 4 _ (fun t _ => flushed0_4_eq V c t) cover0_arr

theorem arr0_in (V : TcMem Ideal) (c : Dev nD) (w : Fin cfg0.W) (hw : w.val < 4) (n : Nat) :
    (dat0 (F := Ideal) V c).arrAt w n = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
  rw [(dat0 V c).arrAt_in w hin n, A_eq0]

end Cert.KernelIdeal.Hand

end
-- ==== Proof.KI.Reg1Value.lean ====
import proofs.«409272_j89550068122385_3_alg».proof.Proof.KI.Reg1Defs
import proofs.«409272_j89550068122385_3_alg».proof.Proof.Spec.Defs
import proofs.«409272_j89550068122385_3_alg».proof.Proof.Spec.Inputs
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

abbrev zK : EReal := Ideal.ofBits .f32 0x00000000#32

theorem zK_eq : zK = 0 := Ideal.ofBits_zero_f32

def softplusK (x : EReal) : EReal :=
  Scalar.select (Ideal.cmp .one (x - zK) (x - zK)) (x + zK)
    (max x zK + Ideal.log1p (Ideal.exp (zK - max (x - zK) (-(x - zK)))))

def termsK : Spec.Terms where
  tInt r := r.mf * (zK - softplusK (zK - (r.d1 - r.d2)))
  tA r := r.mf * (zK - softplusK (zK - (r.d4 - r.d3)))
  tB r := r.nmf * (zK - softplusK (zK - (r.d3 - r.d4)))
  tT r := zK - softplusK (zK - (Ideal.tanh (softplusK r.qp + softplusK r.bp) * (r.d1 + r.d3)
      - Ideal.tanh (softplusK r.qn + softplusK r.bn) * (r.d2 + r.d4)))

theorem N1 : cfg1.N = 4 := rfl

abbrev arr1_0 (V : TcMem Ideal) (c : Dev nD) : S8192x64.Idx → EReal := V c (Pipeline.arrRef spec1 0)
abbrev arr1_1 (V : TcMem Ideal) (c : Dev nD) : S8192x64.Idx → EReal := V c (Pipeline.arrRef spec1 1)
abbrev arr1_2 (V : TcMem Ideal) (c : Dev nD) : S8192x64.Idx → EReal := V c (Pipeline.arrRef spec1 2)
abbrev arr1_3 (V : TcMem Ideal) (c : Dev nD) : S8192x64.Idx → EReal := V c (Pipeline.arrRef spec1 3)
abbrev arr1_4 (V : TcMem Ideal) (c : Dev nD) : S8192x64.Idx → EReal := V c (Pipeline.arrRef spec1 4)
abbrev arr1_5 (V : TcMem Ideal) (c : Dev nD) : S8192x64.Idx → EReal := V c (Pipeline.arrRef spec1 5)
abbrev arr1_6 (V : TcMem Ideal) (c : Dev nD) : S8192x1.Idx → EReal := V c (Pipeline.arrRef spec1 6)
abbrev arr1_7 (V : TcMem Ideal) (c : Dev nD) : S8192x1.Idx → EReal := V c (Pipeline.arrRef spec1 7)
abbrev arr1_8 (V : TcMem Ideal) (c : Dev nD) : S8192x1.Idx → EReal := V c (Pipeline.arrRef spec1 8)
abbrev arr1_9 (V : TcMem Ideal) (c : Dev nD) : S8192x1.Idx → EReal := V c (Pipeline.arrRef spec1 9)
abbrev arr1_10 (V : TcMem Ideal) (c : Dev nD) : S8192x1.Idx → EReal := V c (Pipeline.arrRef spec1 10)
abbrev arr1_11 (V : TcMem Ideal) (c : Dev nD) : S8192x1.Idx → EReal := V c (Pipeline.arrRef spec1 11)

def rowsOfV (V : TcMem Ideal) (c : Dev nD) (s : Fin 8192) : Spec.Row where
  d1 := ∑ j : Fin 64, arr1_0 V c (ix2 s j) * arr1_2 V c (ix2 s j)
  d2 := ∑ j : Fin 64, arr1_0 V c (ix2 s j) * arr1_4 V c (ix2 s j)
  d3 := ∑ j : Fin 64, arr1_1 V c (ix2 s j) * arr1_3 V c (ix2 s j)
  d4 := ∑ j : Fin 64, arr1_1 V c (ix2 s j) * arr1_5 V c (ix2 s j)
  qp := arr1_6 V c (ix2 s 0)
  qn := arr1_7 V c (ix2 s 0)
  bp := arr1_8 V c (ix2 s 0)
  bn := arr1_9 V c (ix2 s 0)
  mf := arr1_10 V c (ix2 s 0)
  nmf := arr1_11 V c (ix2 s 0)

def rowAt1 (t : Fin cfg1.N) (r : Fin 2048) : Fin 8192 :=
  ⟨2048 * t.val + r.val, by have h : t.val < 4 := t.isLt; omega⟩

theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0)
    ∧ (win1_11.index t (0 : Fin 2) = t.val ∧ win1_11.index t (1 : Fin 2) = 0) :=
  (by decide +kernel : ∀ t : Fin grid1.N, _)

theorem iblk1_apply_0 (V : TcMem Ideal) (c : Dev nD) (t : Fin cfg1.N) (r : Fin 2048) (j : Fin 64) :
    (iblk1 V c 0 t : Vec Ideal S2048x64 .f32) (ix2 r j) = arr1_0 V c (ix2 (rowAt1 t r) j) := by
  obtain ⟨f0, f1, f2, f3, f4, f5, f6, f7, f8, f9, f10, f11⟩ := idx_facts1 t
  obtain ⟨e0, e1⟩ := f0
  show arr1_0 V c (((cfg1.win 0).blk t).view.emb (ix2 r j)) = _
  congr 1
  funext a; apply Fin.ext
  match a with
  | ⟨0, _⟩ => show win1_0.index t (0 : Fin 2) * 2048 + 1 * r.val = 2048 * t.val + r.val; omega
  | ⟨1, _⟩ => show win1_0.index t (1 : Fin 2) * 64 + 1 * j.val = j.val; omega
theorem iblk1_apply_1 (V : TcMem Ideal) (c : Dev nD) (t : Fin cfg1.N) (r : Fin 2048) (j : Fin 64) :
    (iblk1 V c 1 t : Vec Ideal S2048x64 .f32) (ix2 r j) = arr1_1 V c (ix2 (rowAt1 t r) j) := by
  obtain ⟨f0, f1, f2, f3, f4, f5, f6, f7, f8, f9, f10, f11⟩ := idx_facts1 t
  obtain ⟨e0, e1⟩ := f1
  show arr1_1 V c (((cfg1.win 1).blk t).view.emb (ix2 r j)) = _
  congr 1
  funext a; apply Fin.ext
  match a with
  | ⟨0, _⟩ => show win1_1.index t (0 : Fin 2) * 2048 + 1 * r.val = 2048 * t.val + r.val; omega
  | ⟨1, _⟩ => show win1_1.index t (1 : Fin 2) * 64 + 1 * j.val = j.val; omega
theorem iblk1_apply_2 (V : TcMem Ideal) (c : Dev nD) (t : Fin cfg1.N) (r : Fin 2048) (j : Fin 64) :
    (iblk1 V c 2 t : Vec Ideal S2048x64 .f32) (ix2 r j) = arr1_2 V c (ix2 (rowAt1 t r) j) := by
  obtain ⟨f0, f1, f2, f3, f4, f5, f6, f7, f8, f9, f10, f11⟩ := idx_facts1 t
  obtain ⟨e0, e1⟩ := f2
  show arr1_2 V c (((cfg1.win 2).blk t).view.emb (ix2 r j)) = _
  congr 1
  funext a; apply Fin.ext
  match a with
  | ⟨0, _⟩ => show win1_2.index t (0 : Fin 2) * 2048 + 1 * r.val = 2048 * t.val + r.val; omega
  | ⟨1, _⟩ => show win1_2.index t (1 : Fin 2) * 64 + 1 * j.val = j.val; omega
theorem iblk1_apply_3 (V : TcMem Ideal) (c : Dev nD) (t : Fin cfg1.N) (r : Fin 2048) (j : Fin 64) :
    (iblk1 V c 3 t : Vec Ideal S2048x64 .f32) (ix2 r j) = arr1_3 V c (ix2 (rowAt1 t r) j) := by
  obtain ⟨f0, f1, f2, f3, f4, f5, f6, f7, f8, f9, f10, f11⟩ := idx_facts1 t
  obtain ⟨e0, e1⟩ := f3
  show arr1_3 V c (((cfg1.win 3).blk t).view.emb (ix2 r j)) = _
  congr 1
  funext a; apply Fin.ext
  match a with
  | ⟨0, _⟩ => show win1_3.index t (0 : Fin 2) * 2048 + 1 * r.val = 2048 * t.val + r.val; omega
  | ⟨1, _⟩ => show win1_3.index t (1 : Fin 2) * 64 + 1 * j.val = j.val; omega
theorem iblk1_apply_4 (V : TcMem Ideal) (c : Dev nD) (t : Fin cfg1.N) (r : Fin 2048) (j : Fin 64) :
    (iblk1 V c 4 t : Vec Ideal S2048x64 .f32) (ix2 r j) = arr1_4 V c (ix2 (rowAt1 t r) j) := by
  obtain ⟨f0, f1, f2, f3, f4, f5, f6, f7, f8, f9, f10, f11⟩ := idx_facts1 t
  obtain ⟨e0, e1⟩ := f4
  show arr1_4 V c (((cfg1.win 4).blk t).view.emb (ix2 r j)) = _
  congr 1
  funext a; apply Fin.ext
  match a with
  | ⟨0, _⟩ => show win1_4.index t (0 : Fin 2) * 2048 + 1 * r.val = 2048 * t.val + r.val; omega
  | ⟨1, _⟩ => show win1_4.index t (1 : Fin 2) * 64 + 1 * j.val = j.val; omega
theorem iblk1_apply_5 (V : TcMem Ideal) (c : Dev nD) (t : Fin cfg1.N) (r : Fin 2048) (j : Fin 64) :
    (iblk1 V c 5 t : Vec Ideal S2048x64 .f32) (ix2 r j) = arr1_5 V c (ix2 (rowAt1 t r) j) := by
  obtain ⟨f0, f1, f2, f3, f4, f5, f6, f7, f8, f9, f10, f11⟩ := idx_facts1 t
  obtain ⟨e0, e1⟩ := f5
  show arr1_5 V c (((cfg1.win 5).blk t).view.emb (ix2 r j)) = _
  congr 1
  funext a; apply Fin.ext
  match a with
  | ⟨0, _⟩ => show win1_5.index t (0 : Fin 2) * 2048 + 1 * r.val = 2048 * t.val + r.val; omega
  | ⟨1, _⟩ => show win1_5.index t (1 : Fin 2) * 64 + 1 * j.val = j.val; omega
theorem iblk1_apply_6 (V : TcMem Ideal) (c : Dev nD) (t : Fin cfg1.N) (r : Fin 2048) (j : Fin 1) :
    (iblk1 V c 6 t : Vec Ideal S2048x1 .f32) (ix2 r j) = arr1_6 V c (ix2 (rowAt1 t r) j) := by
  obtain ⟨f0, f1, f2, f3, f4, f5, f6, f7, f8, f9, f10, f11⟩ := idx_facts1 t
  obtain ⟨e0, e1⟩ := f6
  show arr1_6 V c (((cfg1.win 6).blk t).view.emb (ix2 r j)) = _
  congr 1
  funext a; apply Fin.ext
  match a with
  | ⟨0, _⟩ => show win1_6.index t (0 : Fin 2) * 2048 + 1 * r.val = 2048 * t.val + r.val; omega
  | ⟨1, _⟩ => show win1_6.index t (1 : Fin 2) * 1 + 1 * j.val = j.val; omega
theorem iblk1_apply_7 (V : TcMem Ideal) (c : Dev nD) (t : Fin cfg1.N) (r : Fin 2048) (j : Fin 1) :
    (iblk1 V c 7 t : Vec Ideal S2048x1 .f32) (ix2 r j) = arr1_7 V c (ix2 (rowAt1 t r) j) := by
  obtain ⟨f0, f1, f2, f3, f4, f5, f6, f7, f8, f9, f10, f11⟩ := idx_facts1 t
  obtain ⟨e0, e1⟩ := f7
  show arr1_7 V c (((cfg1.win 7).blk t).view.emb (ix2 r j)) = _
  congr 1
  funext a; apply Fin.ext
  match a with
  | ⟨0, _⟩ => show win1_7.index t (0 : Fin 2) * 2048 + 1 * r.val = 2048 * t.val + r.val; omega
  | ⟨1, _⟩ => show win1_7.index t (1 : Fin 2) * 1 + 1 * j.val = j.val; omega
theorem iblk1_apply_8 (V : TcMem Ideal) (c : Dev nD) (t : Fin cfg1.N) (r : Fin 2048) (j : Fin 1) :
    (iblk1 V c 8 t : Vec Ideal S2048x1 .f32) (ix2 r j) = arr1_8 V c (ix2 (rowAt1 t r) j) := by
  obtain ⟨f0, f1, f2, f3, f4, f5, f6, f7, f8, f9, f10, f11⟩ := idx_facts1 t
  obtain ⟨e0, e1⟩ := f8
  show arr1_8 V c (((cfg1.win 8).blk t).view.emb (ix2 r j)) = _
  congr 1
  funext a; apply Fin.ext
  match a with
  | ⟨0, _⟩ => show win1_8.index t (0 : Fin 2) * 2048 + 1 * r.val = 2048 * t.val + r.val; omega
  | ⟨1, _⟩ => show win1_8.index t (1 : Fin 2) * 1 + 1 * j.val = j.val; omega
theorem iblk1_apply_9 (V : TcMem Ideal) (c : Dev nD) (t : Fin cfg1.N) (r : Fin 2048) (j : Fin 1) :
    (iblk1 V c 9 t : Vec Ideal S2048x1 .f32) (ix2 r j) = arr1_9 V c (ix2 (rowAt1 t r) j) := by
  obtain ⟨f0, f1, f2, f3, f4, f5, f6, f7, f8, f9, f10, f11⟩ := idx_facts1 t
  obtain ⟨e0, e1⟩ := f9
  show arr1_9 V c (((cfg1.win 9).blk t).view.emb (ix2 r j)) = _
  congr 1
  funext a; apply Fin.ext
  match a with
  | ⟨0, _⟩ => show win1_9.index t (0 : Fin 2) * 2048 + 1 * r.val = 2048 * t.val + r.val; omega
  | ⟨1, _⟩ => show win1_9.index t (1 : Fin 2) * 1 + 1 * j.val = j.val; omega
theorem iblk1_apply_10 (V : TcMem Ideal) (c : Dev nD) (t : Fin cfg1.N) (r : Fin 2048) (j : Fin 1) :
    (iblk1 V c 10 t : Vec Ideal S2048x1 .f32) (ix2 r j) = arr1_10 V c (ix2 (rowAt1 t r) j) := by
  obtain ⟨f0, f1, f2, f3, f4, f5, f6, f7, f8, f9, f10, f11⟩ := idx_facts1 t
  obtain ⟨e0, e1⟩ := f10
  show arr1_10 V c (((cfg1.win 10).blk t).view.emb (ix2 r j)) = _
  congr 1
  funext a; apply Fin.ext
  match a with
  | ⟨0, _⟩ => show win1_10.index t (0 : Fin 2) * 2048 + 1 * r.val = 2048 * t.val + r.val; omega
  | ⟨1, _⟩ => show win1_10.index t (1 : Fin 2) * 1 + 1 * j.val = j.val; omega
theorem iblk1_apply_11 (V : TcMem Ideal) (c : Dev nD) (t : Fin cfg1.N) (r : Fin 2048) (j : Fin 1) :
    (iblk1 V c 11 t : Vec Ideal S2048x1 .f32) (ix2 r j) = arr1_11 V c (ix2 (rowAt1 t r) j) := by
  obtain ⟨f0, f1, f2, f3, f4, f5, f6, f7, f8, f9, f10, f11⟩ := idx_facts1 t
  obtain ⟨e0, e1⟩ := f11
  show arr1_11 V c (((cfg1.win 11).blk t).view.emb (ix2 r j)) = _
  congr 1
  funext a; apply Fin.ext
  match a with
  | ⟨0, _⟩ => show win1_11.index t (0 : Fin 2) * 2048 + 1 * r.val = 2048 * t.val + r.val; omega
  | ⟨1, _⟩ => show win1_11.index t (1 : Fin 2) * 1 + 1 * j.val = j.val; omega

theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem tanh_apply {s : Shape} {φ : FTy} (a : FVec Ideal s φ) (i : s.Idx) : tanh a i = Ideal.tanh (a i) := rfl
theorem absf_apply {s : Shape} {φ : FTy} (a : FVec Ideal s φ) (i : s.Idx) : absf a i = max (a i) (-(a i)) := rfl

theorem lift_cols (r : Fin 2048) (j : Fin 64) : reduces_S2048x64_S2048.lift (ix1 r) j = ix2 r j := by
  funext a; apply Fin.ext
  match a with
  | ⟨0, _⟩ => rfl
  | ⟨1, _⟩ => rfl

theorem lift_rows (k : S1.Idx) (r : Fin 2048) : reduces_S2048x1_S1.lift k r = ix2 r 0 := by
  funext a; apply Fin.ext
  match a with
  | ⟨0, _⟩ => rfl
  | ⟨1, _⟩ => show (k 0).val = 0; have h : (k 0).val < 1 := (k 0).isLt; omega

theorem rowDot_apply (x y : FVec Ideal S2048x64 .f32) (r : Fin 2048) :
    (shapeCast S2048x1 (multiReduction .add [1] S2048 (mulf x y) 0x00000000#32 reduces_S2048x64_S2048 (.inl rfl) rfl) shapeCasts_S2048_S2048x1 : FVec Ideal S2048x1 .f32) (ix2 r 0)
      = ∑ j : Fin 64, x (ix2 r j) * y (ix2 r j) := by
  rw [shapeCast_apply _ _ (ix2 r 0) (ix1 r) (by rw [Shape.rowMajor_val_one, Shape.rowMajor_val_two]; show r.val = r.val * 1 + 0; omega)]
  refine (Ideal.multiReduction_add_single (mulf x y) _ reduces_S2048x64_S2048 _ _ (ix1 r)).trans ?_
  show ∑ j : Fin 64, mulf x y (reduces_S2048x64_S2048.lift (ix1 r) j) = _
  refine Finset.sum_congr rfl fun j _ => ?_
  rw [lift_cols, mulf_apply]

theorem pay7_apply (x y : Vec Ideal S2048x64 .f32) (r : Fin 2048) :
    k1_pay7 x y (ix2 r 0) = ∑ j : Fin 64, x (ix2 r j) * y (ix2 r j) := by
  unfold k1_pay7 k1_pay5
  simp only [shapeCast_self]
  exact rowDot_apply x y r
theorem pay8_apply (x y : Vec Ideal S2048x64 .f32) (r : Fin 2048) :
    k1_pay8 x y (ix2 r 0) = ∑ j : Fin 64, x (ix2 r j) * y (ix2 r j) := by
  unfold k1_pay8 k1_pay5
  simp only [shapeCast_self]
  exact rowDot_apply x y r
theorem pay9_apply (x y : Vec Ideal S2048x64 .f32) (r : Fin 2048) :
    k1_pay9 x y (ix2 r 0) = ∑ j : Fin 64, x (ix2 r j) * y (ix2 r j) := by
  unfold k1_pay9 k1_pay6
  simp only [shapeCast_self]
  exact rowDot_apply x y r
theorem pay10_apply (x y : Vec Ideal S2048x64 .f32) (r : Fin 2048) :
    k1_pay10 x y (ix2 r 0) = ∑ j : Fin 64, x (ix2 r j) * y (ix2 r j) := by
  unfold k1_pay10 k1_pay6
  simp only [shapeCast_self]
  exact rowDot_apply x y r

theorem col1_0_apply (x1 x3 x5 : Vec Ideal S2048x64 .f32) (x11 : Vec Ideal S2048x1 .f32) (r : Fin 2048) :
    col1_0 x1 x3 x5 x11 (ix2 r 0) = x11 (ix2 r 0) * (zK - softplusK (zK - ((∑ j : Fin 64, x1 (ix2 r j) * x3 (ix2 r j)) - ∑ j : Fin 64, x1 (ix2 r j) * x5 (ix2 r j)))) := by
  unfold col1_0 k1_pay17 k1_pay13 k1_pay15 k1_pay16
  simp only [shapeCast_self, mulf_apply, subf_apply, addf_apply, maximumf_apply, select_apply, cmpf_apply, broadcast_apply, exp_apply, log1p_apply, absf_apply, pay7_apply, pay8_apply]
  rfl

theorem col1_1_apply (x2 x4 x6 : Vec Ideal S2048x64 .f32) (x11 : Vec Ideal S2048x1 .f32) (r : Fin 2048) :
    col1_1 x2 x4 x6 x11 (ix2 r 0) = x11 (ix2 r 0) * (zK - softplusK (zK - ((∑ j : Fin 64, x2 (ix2 r j) * x6 (ix2 r j)) - ∑ j : Fin 64, x2 (ix2 r j) * x4 (ix2 r j)))) := by
  unfold col1_1 k1_pay18 k1_pay13
  simp only [shapeCast_self, mulf_apply, subf_apply, addf_apply, maximumf_apply, select_apply, cmpf_apply, broadcast_apply, exp_apply, log1p_apply, absf_apply, pay9_apply, pay10_apply]
  rfl

theorem col1_2_apply (x2 x4 x6 : Vec Ideal S2048x64 .f32) (x12 : Vec Ideal S2048x1 .f32) (r : Fin 2048) :
    col1_2 x2 x4 x6 x12 (ix2 r 0) = x12 (ix2 r 0) * (zK - softplusK (zK - ((∑ j : Fin 64, x2 (ix2 r j) * x4 (ix2 r j)) - ∑ j : Fin 64, x2 (ix2 r j) * x6 (ix2 r j)))) := by
  unfold col1_2 k1_pay26 k1_pay14 k1_pay20 k1_pay22 k1_pay23 k1_pay24 k1_pay25 k1_pay21 k1_pay19
  simp only [shapeCast_self, mulf_apply, subf_apply, addf_apply, maximumf_apply, select_apply, cmpf_apply, broadcast_apply, exp_apply, log1p_apply, absf_apply, pay9_apply, pay10_apply]
  rfl

theorem col1_3_apply (x1 x2 x3 x4 x5 x6 : Vec Ideal S2048x64 .f32) (x7 x8 x9 x10 : Vec Ideal S2048x1 .f32) (r : Fin 2048) :
    col1_3 x1 x2 x3 x4 x5 x6 x7 x8 x9 x10 (ix2 r 0)
      = zK - softplusK (zK - (Ideal.tanh (softplusK (x7 (ix2 r 0)) + softplusK (x9 (ix2 r 0)))
            * ((∑ j : Fin 64, x1 (ix2 r j) * x3 (ix2 r j)) + ∑ j : Fin 64, x2 (ix2 r j) * x4 (ix2 r j))
          - Ideal.tanh (softplusK (x8 (ix2 r 0)) + softplusK (x10 (ix2 r 0)))
            * ((∑ j : Fin 64, x1 (ix2 r j) * x5 (ix2 r j)) + ∑ j : Fin 64, x2 (ix2 r j) * x6 (ix2 r j)))) := by
  unfold col1_3 k1_pay31 k1_pay11 k1_pay12 k1_pay27 k1_pay28 k1_pay29 k1_pay30
  simp only [shapeCast_self, mulf_apply, subf_apply, addf_apply, maximumf_apply, select_apply, cmpf_apply, broadcast_apply, exp_apply, log1p_apply, tanh_apply, absf_apply, pay7_apply, pay8_apply, pay9_apply, pay10_apply]
  rfl

theorem colAt1_0_apply (V : TcMem Ideal) (c : Dev nD) (t : Fin cfg1.N) (r : Fin 2048) :
    colAt1_0 V c t (ix2 r 0) = termsK.tInt (rowsOfV V c (rowAt1 t r)) := by
  unfold colAt1_0
  rw [col1_0_apply]
  simp only [iblk1_apply_0, iblk1_apply_2, iblk1_apply_4, iblk1_apply_10]
  rfl
theorem colAt1_1_apply (V : TcMem Ideal) (c : Dev nD) (t : Fin cfg1.N) (r : Fin 2048) :
    colAt1_1 V c t (ix2 r 0) = termsK.tA (rowsOfV V c (rowAt1 t r)) := by
  unfold colAt1_1
  rw [col1_1_apply]
  simp only [iblk1_apply_1, iblk1_apply_3, iblk1_apply_5, iblk1_apply_10]
  rfl
theorem colAt1_2_apply (V : TcMem Ideal) (c : Dev nD) (t : Fin cfg1.N) (r : Fin 2048) :
    colAt1_2 V c t (ix2 r 0) = termsK.tB (rowsOfV V c (rowAt1 t r)) := by
  unfold colAt1_2
  rw [col1_2_apply]
  simp only [iblk1_apply_1, iblk1_apply_3, iblk1_apply_5, iblk1_apply_11]
  rfl
theorem colAt1_3_apply (V : TcMem Ideal) (c : Dev nD) (t : Fin cfg1.N) (r : Fin 2048) :
    colAt1_3 V c t (ix2 r 0) = termsK.tT (rowsOfV V c (rowAt1 t r)) := by
  unfold colAt1_3
  rw [col1_3_apply]
  simp only [iblk1_apply_0, iblk1_apply_1, iblk1_apply_2, iblk1_apply_3, iblk1_apply_4, iblk1_apply_5, iblk1_apply_6, iblk1_apply_7, iblk1_apply_8, iblk1_apply_9]
  rfl

theorem pay1_apply (i : S1x1.Idx) : k1_pay1 (F := Ideal) i = zK := by
  unfold k1_pay1
  simp only [shapeCast_self, broadcast_apply]
  rfl
theorem pay2_apply (i : S1x1.Idx) : k1_pay2 (F := Ideal) i = zK := by
  unfold k1_pay2
  simp only [shapeCast_self, broadcast_apply]
  rfl
theorem pay3_apply (i : S1x1.Idx) : k1_pay3 (F := Ideal) i = zK := by
  unfold k1_pay3
  simp only [shapeCast_self, broadcast_apply]
  rfl
theorem pay4_apply (i : S1x1.Idx) : k1_pay4 (F := Ideal) i = zK := by
  unfold k1_pay4
  simp only [shapeCast_self, broadcast_apply]
  rfl

theorem colSum_apply (col : FVec Ideal S2048x1 .f32) (i : S1x1.Idx) :
    (shapeCast S1x1 (multiReduction .add [0] S1 col 0x00000000#32 reduces_S2048x1_S1 (.inl rfl) rfl) shapeCasts_S1_S1x1 : FVec Ideal S1x1 .f32) i
      = ∑ r : Fin 2048, col (ix2 r 0) := by
  rw [shapeCast_apply _ _ i (ix1 0) (by
    rw [Shape.rowMajor_val_one, Shape.rowMajor_val_two]
    have h0 := (i 0).isLt; have h1 := (i 1).isLt
    show 0 = (i 0).val * 1 + (i 1).val
    have h0' : (i 0).val < 1 := h0
    have h1' : (i 1).val < 1 := h1
    omega)]
  refine (Ideal.multiReduction_add_single col _ reduces_S2048x1_S1 _ _ (ix1 0)).trans ?_
  show ∑ r : Fin 2048, col (reduces_S2048x1_S1.lift (ix1 0) r) = _
  refine Finset.sum_congr rfl fun r _ => ?_
  rw [lift_rows]

theorem pay32_apply (col : FVec Ideal S2048x1 .f32) (acc : Vec Ideal S1x1 .f32) (i : S1x1.Idx) :
    k1_pay32 col acc i = acc i + ∑ r : Fin 2048, col (ix2 r 0) := by
  unfold k1_pay32
  simp only [shapeCast_self, addf_apply]
  rw [colSum_apply]
theorem pay33_apply (col : FVec Ideal S2048x1 .f32) (acc : Vec Ideal S1x1 .f32) (i : S1x1.Idx) :
    k1_pay33 col acc i = acc i + ∑ r : Fin 2048, col (ix2 r 0) := by
  unfold k1_pay33
  simp only [shapeCast_self, addf_apply]
  rw [colSum_apply]
theorem pay34_apply (col : FVec Ideal S2048x1 .f32) (acc : Vec Ideal S1x1 .f32) (i : S1x1.Idx) :
    k1_pay34 col acc i = acc i + ∑ r : Fin 2048, col (ix2 r 0) := by
  unfold k1_pay34
  simp only [shapeCast_self, addf_apply]
  rw [colSum_apply]
theorem pay35_apply (col : FVec Ideal S2048x1 .f32) (acc : Vec Ideal S1x1 .f32) (i : S1x1.Idx) :
    k1_pay35 col acc i = acc i + ∑ r : Fin 2048, col (ix2 r 0) := by
  unfold k1_pay35
  simp only [shapeCast_self, addf_apply]
  rw [colSum_apply]

theorem blockSum_eq (V : TcMem Ideal) (c : Dev nD) (f : Spec.Row → EReal) (k : Fin 4) (hk : k.val < cfg1.N) :
    ∑ r : Fin 2048, f (rowsOfV V c (rowAt1 ⟨k.val, hk⟩ r)) = Spec.blockSum (rowsOfV V c) f k := rfl

theorem acc_eq (V : TcMem Ideal) (c : Dev nD) (h3 : 3 < cfg1.N) :
    (outsAt1 (F := Ideal) V c 3 h3).2.1 = (fun _ => Spec.accK (rowsOfV V c) termsK.tInt)
    ∧ (outsAt1 (F := Ideal) V c 3 h3).2.2.1 = (fun _ => Spec.accK (rowsOfV V c) termsK.tA)
    ∧ (outsAt1 (F := Ideal) V c 3 h3).2.2.2.1 = (fun _ => Spec.accK (rowsOfV V c) termsK.tB)
    ∧ (outsAt1 (F := Ideal) V c 3 h3).2.2.2.2 = (fun _ => Spec.accK (rowsOfV V c) termsK.tT) := by
  have h0 : 0 < cfg1.N := by decide
  have h1 : 1 < cfg1.N := by decide
  have h2 : 2 < cfg1.N := by decide
  refine ⟨?_, ?_, ?_, ?_⟩
  · funext i
    show k1_pay32 (colAt1_0 V c ⟨3, h3⟩) (k1_pay32 (colAt1_0 V c ⟨2, h2⟩) (k1_pay32 (colAt1_0 V c ⟨1, h1⟩)
      (k1_pay32 (colAt1_0 V c ⟨0, h0⟩) (k1_pay1 (F := Ideal))))) i = _
    rw [pay32_apply, pay32_apply, pay32_apply, pay32_apply, pay1_apply]
    simp only [colAt1_0_apply]
    rw [zK_eq]
    rfl
  · funext i
    show k1_pay33 (colAt1_1 V c ⟨3, h3⟩) (k1_pay33 (colAt1_1 V c ⟨2, h2⟩) (k1_pay33 (colAt1_1 V c ⟨1, h1⟩)
      (k1_pay33 (colAt1_1 V c ⟨0, h0⟩) (k1_pay2 (F := Ideal))))) i = _
    rw [pay33_apply, pay33_apply, pay33_apply, pay33_apply, pay2_apply]
    simp only [colAt1_1_apply]
    rw [zK_eq]
    rfl
  · funext i
    show k1_pay34 (colAt1_2 V c ⟨3, h3⟩) (k1_pay34 (colAt1_2 V c ⟨2, h2⟩) (k1_pay34 (colAt1_2 V c ⟨1, h1⟩)
      (k1_pay34 (colAt1_2 V c ⟨0, h0⟩) (k1_pay3 (F := Ideal))))) i = _
    rw [pay34_apply, pay34_apply, pay34_apply, pay34_apply, pay3_apply]
    simp only [colAt1_2_apply]
    rw [zK_eq]
    rfl
  · funext i
    show k1_pay35 (colAt1_3 V c ⟨3, h3⟩) (k1_pay35 (colAt1_3 V c ⟨2, h2⟩) (k1_pay35 (colAt1_3 V c ⟨1, h1⟩)
      (k1_pay35 (colAt1_3 V c ⟨0, h0⟩) (k1_pay4 (F := Ideal))))) i = _
    rw [pay35_apply, pay35_apply, pay35_apply, pay35_apply, pay4_apply]
    simp only [colAt1_3_apply]
    rw [zK_eq]
    rfl

theorem out_last (V : TcMem Ideal) (c : Dev nD) (h3 : 3 < cfg1.N) :
    (outsAt1 (F := Ideal) V c 3 h3).1 = fun _ => Spec.combineK (Ideal.ofBits .f32 0xBDCCCCCD#32) (Ideal.ofBits .f32 0x3DCCCCCD#32)
      (Ideal.ofBits .f32 0x3E4CCCCD#32) (Ideal.ofBits .f32 0x46000000#32)
      (Spec.accK (rowsOfV V c) termsK.tInt) (Spec.accK (rowsOfV V c) termsK.tA)
      (Spec.accK (rowsOfV V c) termsK.tB) (Spec.accK (rowsOfV V c) termsK.tT) := by
  obtain ⟨a0, a1, a2, a3⟩ := acc_eq V c h3
  rw [outsAt1_out, a0, a1, a2, a3]
  funext i
  unfold k1_pay36
  simp only [mulf_apply, subf_apply, addf_apply, divf_apply, broadcast_apply]
  rfl

end Cert.KernelIdeal.Hand

end
-- ==== Proof.KI.Reg1Arr.lean ====
import proofs.«409272_j89550068122385_3_alg».proof.Proof.KI.Reg1
import Idealize.ShloMosaic.PureOps.Ideal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

theorem idx1x1_eq (x y : S1x1.Idx) : x = y := by
  funext a; apply Fin.ext
  match a with
  | ⟨0, _⟩ => have hx : (x 0).val < 1 := (x 0).isLt; have hy : (y 0).val < 1 := (y 0).isLt; show (x 0).val = (y 0).val; omega
  | ⟨1, _⟩ => have hx : (x 1).val < 1 := (x 1).isLt; have hy : (y 1).val < 1 := (y 1).isLt; show (x 1).val = (y 1).val; omega

theorem flush1_12_val (t : Fin cfg1.N) (ht : (cfg1.win 12).flush t = true) : t.val = 3 := by
  have h := (flush1_12 t).1 ht
  have h4 : t.val < 4 := t.isLt
  omega

theorem flushed1_12_eq (V : TcMem Ideal) (c : Dev nD) (h3 : 3 < cfg1.N) (t : Fin cfg1.N) (ht : (cfg1.win 12).flush t = true) :
    (dat1 (F := Ideal) V c).flushed 12 t = ((cfg1.win 12).blk t).view.read (Elt Ideal) (outsAt1 (F := Ideal) V c 3 h3).1 := by
  have hv := flush1_12_val t ht
  obtain ⟨tv, htv⟩ := t
  simp only at hv
  subst hv
  show (cfg1.win 12).cut (grid1.coords ⟨3, htv⟩) ((dat1 (F := Ideal) V c).after 12 ⟨3, htv⟩) = _
  rw [after1_12]
  funext j
  show (outsAt1 (F := Ideal) V c 3 htv).1 j = (outsAt1 (F := Ideal) V c 3 h3).1 (((cfg1.win 12).blk ⟨3, htv⟩).view.emb j)
  exact congrArg _ (idx1x1_eq _ _)

theorem cover1_12 (h3 : 3 < cfg1.N) (i : S1x1.Idx) :
    ∃ t : Fin cfg1.N, (cfg1.win 12).flush t = true ∧ i ∈ ((cfg1.win 12).blk t).view.set := by
  refine ⟨⟨3, h3⟩, (flush1_12 ⟨3, h3⟩).2 rfl, ?_⟩
  show i ∈ ((View.whole main_v140).slice (win1_12.rect ⟨3, h3⟩)).set
  rw [View.set_slice_whole, Rect.mem_set_unit]
  have hi0 : (i 0).val < 1 := (i 0).isLt
  have hi1 : (i 1).val < 1 := (i 1).isLt
  have e0 : win1_12.index ⟨3, h3⟩ (0 : Fin 2) = 0 := rfl
  have e1 : win1_12.index ⟨3, h3⟩ (1 : Fin 2) = 0 := rfl
  intro a
  match a with
  | ⟨0, _⟩ => show win1_12.index ⟨3, h3⟩ (0 : Fin 2) * 1 ≤ (i 0).val ∧ (i 0).val < win1_12.index ⟨3, h3⟩ (0 : Fin 2) * 1 + 1; omega
  | ⟨1, _⟩ => show win1_12.index ⟨3, h3⟩ (1 : Fin 2) * 1 ≤ (i 1).val ∧ (i 1).val < win1_12.index ⟨3, h3⟩ (1 : Fin 2) * 1 + 1; omega

theorem arr1_12 (V : TcMem Ideal) (c : Dev nD) (h3 : 3 < cfg1.N) :
    (dat1 (F := Ideal) V c).arrAt 12 cfg1.N = (outsAt1 (F := Ideal) V c 3 h3).1 :=
  (dat1 V c).arrAt_eq_of_cover 12 _ (fun t ht => flushed1_12_eq V c h3 t ht) (cover1_12 h3)

end Cert.KernelIdeal.Hand

end
-- ==== Proof.KI.Value.lean ====
import proofs.«409272_j89550068122385_3_alg».proof.Proof.KI.HostValue
import proofs.«409272_j89550068122385_3_alg».proof.Proof.KI.HostValue1
import proofs.«409272_j89550068122385_3_alg».proof.Proof.KI.Fold
import proofs.«409272_j89550068122385_3_alg».proof.Proof.KI.Reg0Value
import proofs.«409272_j89550068122385_3_alg».proof.Proof.KI.Reg1Value
import proofs.«409272_j89550068122385_3_alg».proof.Proof.KI.Reg1Arr
import proofs.«409272_j89550068122385_3_alg».proof.Proof.Spec.Defs
import proofs.«409272_j89550068122385_3_alg».proof.Proof.Spec.Inputs
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx

theorem mean_of_layers (A : Spec.Args) (quarter : EReal) (mean a0 a1 a2 a3 : S150000x128.Idx → EReal)
    (hm : ∀ i, mean i = (((a0 i + a1 i) + a2 i) + a3 i) * quarter)
    (h0 : ∀ n j, a0 (ix2 n j) = Spec.fuse A.eI A.eP n j)
    (h1 : ∀ n j, a1 (ix2 n j) = Spec.layer (Spec.edgesOf A) (Spec.fuse A.eI A.eP) n j)
    (h2 : ∀ n j, a2 (ix2 n j) = Spec.layer (Spec.edgesOf A) (Spec.layer (Spec.edgesOf A) (Spec.fuse A.eI A.eP)) n j)
    (h3 : ∀ n j, a3 (ix2 n j)
      = Spec.layer (Spec.edgesOf A) (Spec.layer (Spec.edgesOf A) (Spec.layer (Spec.edgesOf A) (Spec.fuse A.eI A.eP))) n j)
    (n : Fin 150000) (j : Fin 128) :
    mean (ix2 n j) = Spec.meanK quarter (Spec.edgesOf A) (Spec.fuse A.eI A.eP) n j := by
  rw [hm, h0, h1, h2, h3]
  rfl

theorem rows_of_arrays (A : Spec.Args) (f : Spec.Tab 150000 128) (mean : S150000x128.Idx → EReal)
    (hmean : ∀ n j, mean (ix2 n j) = f n j)
    (rows : Fin 8192 → Spec.Row)
    (x0 x1 x2 x3 x4 x5 : S8192x64.Idx → EReal) (y6 y7 y8 y9 y10 y11 : S8192x1.Idx → EReal)
    (hrows : ∀ s, rows s =
      { d1 := ∑ j : Fin 64, x0 (ix2 s j) * x2 (ix2 s j)
        d2 := ∑ j : Fin 64, x0 (ix2 s j) * x4 (ix2 s j)
        d3 := ∑ j : Fin 64, x1 (ix2 s j) * x3 (ix2 s j)
        d4 := ∑ j : Fin 64, x1 (ix2 s j) * x5 (ix2 s j)
        qp := y6 (ix2 s 0), qn := y7 (ix2 s 0), bp := y8 (ix2 s 0), bn := y9 (ix2 s 0)
        mf := y10 (ix2 s 0), nmf := y11 (ix2 s 0) })
    (h0 : ∀ s (j : Fin 64), x0 (ix2 s j) = mean (ix2 ((Spec.samplesOf A).ru s) ⟨j.val, by omega⟩))
    (h1 : ∀ s (j : Fin 64), x1 (ix2 s j) = mean (ix2 ((Spec.samplesOf A).ru s) ⟨64 + j.val, by omega⟩))
    (h2 : ∀ s (j : Fin 64), x2 (ix2 s j) = mean (ix2 ((Spec.samplesOf A).rp s) ⟨j.val, by omega⟩))
    (h3 : ∀ s (j : Fin 64), x3 (ix2 s j) = mean (ix2 ((Spec.samplesOf A).rp s) ⟨64 + j.val, by omega⟩))
    (h4 : ∀ s (j : Fin 64), x4 (ix2 s j) = mean (ix2 ((Spec.samplesOf A).rn s) ⟨j.val, by omega⟩))
    (h5 : ∀ s (j : Fin 64), x5 (ix2 s j) = mean (ix2 ((Spec.samplesOf A).rn s) ⟨64 + j.val, by omega⟩))
    (h6 : ∀ s, y6 (ix2 s 0) = A.q ((Spec.samplesOf A).ip s))
    (h7 : ∀ s, y7 (ix2 s 0) = A.q ((Spec.samplesOf A).inn s))
    (h8 : ∀ s, y8 (ix2 s 0) = A.b ((Spec.samplesOf A).ip s))
    (h9 : ∀ s, y9 (ix2 s 0) = A.b ((Spec.samplesOf A).inn s))
    (h10 : ∀ s, y10 (ix2 s 0) = Spec.fmOf A s)
    (h11 : ∀ s, y11 (ix2 s 0) = Spec.fnmOf A s) :
    rows = Spec.rowOfTabs A (Spec.samplesOf A) (Spec.fmOf A) (Spec.fnmOf A) (Spec.lo f) (Spec.hi f) := by
  funext s
  rw [hrows s]
  simp only [h0, h1, h2, h3, h4, h5, h6, h7, h8, h9, h10, h11, hmean]
  rfl

theorem fused_of_vals (W0' W2' : Val) (T : Spec.Terms) (negTenth tenth fifth n : EReal)
    (rows : Fin 8192 → Spec.Row)
    (x0 x1 x2 x3 x4 x5 : S8192x64.Idx → EReal) (y6 y7 y8 y9 y10 y11 : S8192x1.Idx → EReal)
    (hrows : ∀ s, rows s =
      { d1 := ∑ j : Fin 64, x0 (ix2 s j) * x2 (ix2 s j)
        d2 := ∑ j : Fin 64, x0 (ix2 s j) * x4 (ix2 s j)
        d3 := ∑ j : Fin 64, x1 (ix2 s j) * x3 (ix2 s j)
        d4 := ∑ j : Fin 64, x1 (ix2 s j) * x5 (ix2 s j)
        qp := y6 (ix2 s 0), qn := y7 (ix2 s 0), bp := y8 (ix2 s 0), bn := y9 (ix2 s 0)
        mf := y10 (ix2 s 0), nmf := y11 (ix2 s 0) })
    (hA : argsOfVal W2' = argsOfVal W0')
    (a0 a1 a2 a3 : S150000x128.Idx → EReal)
    (ea0 : a0 = (StableHlo.after hostOps0 W0' (Proc.devRef .tc main_v28) : S150000x128.Idx → EReal))
    (ea1 : a1 = (StableHlo.after hostOps0 W0' (Proc.devRef .tc main_v41) : S150000x128.Idx → EReal))
    (ea2 : a2 = (StableHlo.after hostOps0 W0' (Proc.devRef .tc main_v54) : S150000x128.Idx → EReal))
    (ea3 : a3 = (StableHlo.after hostOps0 W0' (Proc.devRef .tc main_v67) : S150000x128.Idx → EReal))
    (hm : ∀ i, meanOf W2' i = (((a0 i + a1 i) + a2 i) + a3 i) * Ideal.ofBits .f32 0x3E800000#32)
    (e0 : x0 = (StableHlo.after hostOps1 W2' (Proc.devRef .tc main_v99) : S8192x64.Idx → EReal))
    (e1 : x1 = (StableHlo.after hostOps1 W2' (Proc.devRef .tc main_v100) : S8192x64.Idx → EReal))
    (e2 : x2 = (StableHlo.after hostOps1 W2' (Proc.devRef .tc main_v101) : S8192x64.Idx → EReal))
    (e3 : x3 = (StableHlo.after hostOps1 W2' (Proc.devRef .tc main_v102) : S8192x64.Idx → EReal))
    (e4 : x4 = (StableHlo.after hostOps1 W2' (Proc.devRef .tc main_v103) : S8192x64.Idx → EReal))
    (e5 : x5 = (StableHlo.after hostOps1 W2' (Proc.devRef .tc main_v104) : S8192x64.Idx → EReal))
    (e6 : y6 = (StableHlo.after hostOps1 W2' (Proc.devRef .tc main_v112) : S8192x1.Idx → EReal))
    (e7 : y7 = (StableHlo.after hostOps1 W2' (Proc.devRef .tc main_v120) : S8192x1.Idx → EReal))
    (e8 : y8 = (StableHlo.after hostOps1 W2' (Proc.devRef .tc main_v128) : S8192x1.Idx → EReal))
    (e9 : y9 = (StableHlo.after hostOps1 W2' (Proc.devRef .tc main_v136) : S8192x1.Idx → EReal))
    (e10 : y10 = (StableHlo.after hostOps1 W2' (Proc.devRef .tc main_v137) : S8192x1.Idx → EReal))
    (e11 : y11 = (StableHlo.after hostOps1 W2' (Proc.devRef .tc main_v139) : S8192x1.Idx → EReal)) :
    Spec.combineK negTenth tenth fifth n (Spec.accK rows T.tInt) (Spec.accK rows T.tA) (Spec.accK rows T.tB)
        (Spec.accK rows T.tT)
      = Spec.fusedResult (argsOfVal W0') T (Ideal.ofBits .f32 0x3E800000#32) negTenth tenth fifth n := by
  have hmean := mean_of_layers (argsOfVal W0') (Ideal.ofBits .f32 0x3E800000#32) (meanOf W2') a0 a1 a2 a3 hm
    (fun n j => by rw [ea0]; exact host0_v28 W0' n j) (fun n j => by rw [ea1]; exact host0_v41 W0' n j)
    (fun n j => by rw [ea2]; exact host0_v54 W0' n j) (fun n j => by rw [ea3]; exact host0_v67 W0' n j)
  have hr := rows_of_arrays (argsOfVal W0') _ (meanOf W2') hmean rows x0 x1 x2 x3 x4 x5 y6 y7 y8 y9 y10 y11 hrows
    (fun s j => by rw [e0, host1_v99 W2' s j, hA]) (fun s j => by rw [e1, host1_v100 W2' s j, hA])
    (fun s j => by rw [e2, host1_v101 W2' s j, hA]) (fun s j => by rw [e3, host1_v102 W2' s j, hA])
    (fun s j => by rw [e4, host1_v103 W2' s j, hA]) (fun s j => by rw [e5, host1_v104 W2' s j, hA])
    (fun s => by rw [e6, host1_v112 W2' s, hA]) (fun s => by rw [e7, host1_v120 W2' s, hA])
    (fun s => by rw [e8, host1_v128 W2' s, hA]) (fun s => by rw [e9, host1_v136 W2' s, hA])
    (fun s => by rw [e10, host1_v137 W2' s, hA]) (fun s => by rw [e11, host1_v139 W2' s, hA])
  rw [hr]
  rfl

section Result
variable (m : (ℓ : Loc nD τ sig) → Buf (Elt Ideal) ℓ) (ρ : Dev nD → PrngReg)

theorem args_W2 (c : Dev nD) : argsOfVal (W2 m ρ c) = argsOfVal (W0 m ρ c) := by
  obtain ⟨g0, g1, g2, g3, g4, g5, g6, g7, g8, g9⟩ := host0_args (W0 m ρ c)
  have e0 : W2 m ρ c (Proc.devRef .tc main_arg0) = W0 m ρ c (Proc.devRef .tc main_arg0) :=
    (W2_of_ne m ρ c main_arg0 (by decide)).trans g0
  have e1 : W2 m ρ c (Proc.devRef .tc main_arg1) = W0 m ρ c (Proc.devRef .tc main_arg1) :=
    (W2_of_ne m ρ c main_arg1 (by decide)).trans g1
  have e2 : W2 m ρ c (Proc.devRef .tc main_arg2) = W0 m ρ c (Proc.devRef .tc main_arg2) :=
    (W2_of_ne m ρ c main_arg2 (by decide)).trans g2
  have e3 : W2 m ρ c (Proc.devRef .tc main_arg3) = W0 m ρ c (Proc.devRef .tc main_arg3) :=
    (W2_of_ne m ρ c main_arg3 (by decide)).trans g3
  have e4 : W2 m ρ c (Proc.devRef .tc main_arg4) = W0 m ρ c (Proc.devRef .tc main_arg4) :=
    (W2_of_ne m ρ c main_arg4 (by decide)).trans g4
  have e5 : W2 m ρ c (Proc.devRef .tc main_arg5) = W0 m ρ c (Proc.devRef .tc main_arg5) :=
    (W2_of_ne m ρ c main_arg5 (by decide)).trans g5
  have e6 : W2 m ρ c (Proc.devRef .tc main_arg6) = W0 m ρ c (Proc.devRef .tc main_arg6) :=
    (W2_of_ne m ρ c main_arg6 (by decide)).trans g6
  have e7 : W2 m ρ c (Proc.devRef .tc main_arg7) = W0 m ρ c (Proc.devRef .tc main_arg7) :=
    (W2_of_ne m ρ c main_arg7 (by decide)).trans g7
  have e8 : W2 m ρ c (Proc.devRef .tc main_arg8) = W0 m ρ c (Proc.devRef .tc main_arg8) :=
    (W2_of_ne m ρ c main_arg8 (by decide)).trans g8
  have e9 : W2 m ρ c (Proc.devRef .tc main_arg9) = W0 m ρ c (Proc.devRef .tc main_arg9) :=
    (W2_of_ne m ρ c main_arg9 (by decide)).trans g9
  unfold argsOfVal
  rw [e0, e1, e2, e3, e4, e5, e6, e7, e8, e9]

theorem mean_W2 (c : Dev nD) :
    meanOf (W2 m ρ c)
      = G0_4 (V1 m ρ c (Pipeline.arrRef spec0 0)) (V1 m ρ c (Pipeline.arrRef spec0 1))
          (V1 m ρ c (Pipeline.arrRef spec0 2)) (V1 m ρ c (Pipeline.arrRef spec0 3)) := by
  show (W2 m ρ c (Proc.devRef .tc (Pipeline.arrRef spec0 4)) : S150000x128.Idx → EReal) = _
  rw [W2_arr m ρ c 4, arr0_4 (V1 m ρ) c]

theorem result_eq (c : Dev nD) :
    (W5 (F := Ideal) m ρ c (Proc.devRef .tc main_v141) : S_.Idx → EReal)
      = fun _ => Spec.fusedResult (argsOfVal (W0 m ρ c)) termsK (Ideal.ofBits .f32 0x3E800000#32)
          (Ideal.ofBits .f32 0xBDCCCCCD#32) (Ideal.ofBits .f32 0x3DCCCCCD#32) (Ideal.ofBits .f32 0x3E4CCCCD#32)
          (Ideal.ofBits .f32 0x46000000#32) := by
  have h3 : 3 < cfg1.N := by decide
  rw [W5_out m ρ c, arr1_12 (V3 m ρ) c h3, out_last (V3 m ρ) c h3]
  funext i
  show Spec.combineK _ _ _ _ _ _ _ _ = _
  exact fused_of_vals (W0 m ρ c) (W2 m ρ c) termsK _ _ _ _ (rowsOfV (V3 m ρ) c)
    (arr1_0 (V3 m ρ) c) (arr1_1 (V3 m ρ) c) (arr1_2 (V3 m ρ) c) (arr1_3 (V3 m ρ) c) (arr1_4 (V3 m ρ) c)
    (arr1_5 (V3 m ρ) c) (arr1_6 (V3 m ρ) c) (arr1_7 (V3 m ρ) c) (arr1_8 (V3 m ρ) c) (arr1_9 (V3 m ρ) c)
    (arr1_10 (V3 m ρ) c) (arr1_11 (V3 m ρ) c) (fun _ => rfl) (args_W2 m ρ c)
    (V1 m ρ c (Pipeline.arrRef spec0 0)) (V1 m ρ c (Pipeline.arrRef spec0 1))
    (V1 m ρ c (Pipeline.arrRef spec0 2)) (V1 m ρ c (Pipeline.arrRef spec0 3)) rfl rfl rfl rfl
    (fun i => congrFun (mean_W2 m ρ c) i)
    rfl rfl rfl rfl rfl rfl rfl rfl rfl rfl rfl rfl

end Result

end Cert.KernelIdeal.Hand

end
-- ==== Proof.Ref.Run.lean ====
import proofs.«409272_j89550068122385_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.nullary main_cst (constant S_ .f32 0x3F800000#32),
    StableHlo.unary main_cst main_v0 (broadcastInDim S2000000 ![] bcast_S_S2000000),
    StableHlo.nullary main_cst_0 (constant S_ .f32 0x00000000#32),
    StableHlo.unary main_cst_0 main_v1 (broadcastInDim S150000 ![] bcast_S_S150000),
    StableHlo.unary main_arg8 main_v2 (broadcastInDim S2000000x1 ![0] bcast_S2000000_S2000000x1_0),
    StableHlo.ternary main_v1 main_v2 main_v0 main_v3 (fun x i u => Host.scatterAdd scatter_S150000_S2000000x1_S2000000_n_0_0_1 x i u),
    StableHlo.nullary main_cst_1 (constant S_ .f32 0x00000000#32),
    StableHlo.unary main_cst_1 main_v4 (broadcastInDim S150000 ![] bcast_S_S150000),
    StableHlo.unary main_arg9 main_v5 (broadcastInDim S2000000x1 ![0] bcast_S2000000_S2000000x1_0),
    StableHlo.ternary main_v4 main_v5 main_v0 main_v6 (fun x i u => Host.scatterAdd scatter_S150000_S2000000x1_S2000000_n_0_0_1 x i u),
    StableHlo.nullary main_cst_2 (constant S_ .f32 0x3F800000#32),
    StableHlo.unary main_cst_2 main_v7 (broadcastInDim S150000 ![] bcast_S_S150000),
    StableHlo.binary main_v3 main_v7 main_v8 maximumf,
    StableHlo.unary main_v8 main_v9 Host.rsqrt,
    StableHlo.nullary main_c (constantI S_ 32 0#32),
    StableHlo.unary main_c main_v10 (broadcastInDim S2000000 ![] bcast_S_S2000000),
    StableHlo.binary main_arg8 main_v10 main_v11 (cmpi .slt),
    StableHlo.nullary main_c_3 (constantI S_ 32 150000#32),
    StableHlo.unary main_c_3 main_v12 (broadcastInDim S2000000 ![] bcast_S_S2000000),
    StableHlo.binary main_arg8 main_v12 main_v13 addi,
    StableHlo.ternary main_v11 main_v13 main_arg8 main_v14 select,
    StableHlo.unary main_v14 main_v15 (broadcastInDim S2000000x1 ![0] bcast_S2000000_S2000000x1_0),
    StableHlo.binary main_v9 main_v15 main_v16 (fun x i => Host.gather gather_S150000_S2000000x1_S2000000_n_0_n_n_0_1_1 x i),
    StableHlo.nullary main_cst_4 (constant S_ .f32 0x3F800000#32),
    StableHlo.unary main_cst_4 main_v17 (broadcastInDim S150000 ![] bcast_S_S150000),
    StableHlo.binary main_v6 main_v17 main_v18 maximumf,
    StableHlo.unary main_v18 main_v19 Host.rsqrt,
    StableHlo.nullary main_c_5 (constantI S_ 32 0#32),
    StableHlo.unary main_c_5 main_v20 (broadcastInDim S2000000 ![] bcast_S_S2000000),
    StableHlo.binary main_arg9 main_v20 main_v21 (cmpi .slt),
    StableHlo.nullary main_c_6 (constantI S_ 32 150000#32),
    StableHlo.unary main_c_6 main_v22 (broadcastInDim S2000000 ![] bcast_S_S2000000),
    StableHlo.binary main_arg9 main_v22 main_v23 addi,
    StableHlo.ternary main_v21 main_v23 main_arg9 main_v24 select,
    StableHlo.unary main_v24 main_v25 (broadcastInDim S2000000x1 ![0] bcast_S2000000_S2000000x1_0),
    StableHlo.binary main_v19 main_v25 main_v26 (fun x i => Host.gather gather_S150000_S2000000x1_S2000000_n_0_n_n_0_1_1 x i),
    StableHlo.binary main_v16 main_v26 main_v27 mulf,
    StableHlo.nullary main_c_7 (constantI S_ 32 0#32),
    StableHlo.unary main_c_7 main_v28 (broadcastInDim S2000000 ![] bcast_S_S2000000),
    StableHlo.binary main_arg8 main_v28 main_v29 (cmpi .slt),
    StableHlo.nullary main_c_8 (constantI S_ 32 150000#32),
    StableHlo.unary main_c_8 main_v30 (broadcastInDim S2000000 ![] bcast_S_S2000000),
    StableHlo.binary main_arg8 main_v30 main_v31 addi,
    StableHlo.ternary main_v29 main_v31 main_arg8 main_v32 select,
    StableHlo.unary main_v32 main_v33 (broadcastInDim S2000000x1 ![0] bcast_S2000000_S2000000x1_0),
    StableHlo.binary main_arg0 main_v33 main_v34 (fun x i => Host.gather gather_S150000x64_S2000000x1_S2000000x64_1_0_n_n_0_1_164 x i),
    StableHlo.unary main_v27 main_v35 (broadcastInDim S2000000x1 ![0] bcast_S2000000_S2000000x1_0),
    StableHlo.unary main_v35 main_v36 (broadcastInDim S2000000x64 ![0, 1] bcast_S2000000x1_S2000000x64_0_1),
    StableHlo.binary main_v34 main_v36 main_v37 mulf,
    StableHlo.nullary main_cst_9 (constant S_ .f32 0x00000000#32),
    StableHlo.unary main_cst_9 main_v38 (broadcastInDim S150000x64 ![] bcast_S_S150000x64),
    StableHlo.unary main_arg9 main_v39 (broadcastInDim S2000000x1 ![0] bcast_S2000000_S2000000x1_0),
    StableHlo.ternary main_v38 main_v39 main_v37 main_v40 (fun x i u => Host.scatterAdd scatter_S150000x64_S2000000x1_S2000000x64_1_0_0_1 x i u),
    StableHlo.binary main_arg0 main_v40 main_v41 addf,
    StableHlo.nullary main_c_10 (constantI S_ 32 0#32),
    StableHlo.unary main_c_10 main_v42 (broadcastInDim S2000000 ![] bcast_S_S2000000),
    StableHlo.binary main_arg8 main_v42 main_v43 (cmpi .slt),
    StableHlo.nullary main_c_11 (constantI S_ 32 150000#32),
    StableHlo.unary main_c_11 main_v44 (broadcastInDim S2000000 ![] bcast_S_S2000000),
    StableHlo.binary main_arg8 main_v44 main_v45 addi ]

abbrev ops1 : List (HloOp τ sig (Elt F)) :=
  [ StableHlo.ternary main_v43 main_v45 main_arg8 main_v46 select,
    StableHlo.unary main_v46 main_v47 (broadcastInDim S2000000x1 ![0] bcast_S2000000_S2000000x1_0),
    StableHlo.binary main_v40 main_v47 main_v48 (fun x i => Host.gather gather_S150000x64_S2000000x1_S2000000x64_1_0_n_n_0_1_164 x i),
    StableHlo.unary main_v27 main_v49 (broadcastInDim S2000000x1 ![0] bcast_S2000000_S2000000x1_0),
    StableHlo.unary main_v49 main_v50 (broadcastInDim S2000000x64 ![0, 1] bcast_S2000000x1_S2000000x64_0_1),
    StableHlo.binary main_v48 main_v50 main_v51 mulf,
    StableHlo.nullary main_cst_12 (constant S_ .f32 0x00000000#32),
    StableHlo.unary main_cst_12 main_v52 (broadcastInDim S150000x64 ![] bcast_S_S150000x64),
    StableHlo.unary main_arg9 main_v53 (broadcastInDim S2000000x1 ![0] bcast_S2000000_S2000000x1_0),
    StableHlo.ternary main_v52 main_v53 main_v51 main_v54 (fun x i u => Host.scatterAdd scatter_S150000x64_S2000000x1_S2000000x64_1_0_0_1 x i u),
    StableHlo.binary main_v41 main_v54 main_v55 addf,
    StableHlo.nullary main_c_13 (constantI S_ 32 0#32),
    StableHlo.unary main_c_13 main_v56 (broadcastInDim S2000000 ![] bcast_S_S2000000),
    StableHlo.binary main_arg8 main_v56 main_v57 (cmpi .slt),
    StableHlo.nullary main_c_14 (constantI S_ 32 150000#32),
    StableHlo.unary main_c_14 main_v58 (broadcastInDim S2000000 ![] bcast_S_S2000000),
    StableHlo.binary main_arg8 main_v58 main_v59 addi,
    StableHlo.ternary main_v57 main_v59 main_arg8 main_v60 select,
    StableHlo.unary main_v60 main_v61 (broadcastInDim S2000000x1 ![0] bcast_S2000000_S2000000x1_0),
    StableHlo.binary main_v54 main_v61 main_v62 (fun x i => Host.gather gather_S150000x64_S2000000x1_S2000000x64_1_0_n_n_0_1_164 x i),
    StableHlo.unary main_v27 main_v63 (broadcastInDim S2000000x1 ![0] bcast_S2000000_S2000000x1_0),
    StableHlo.unary main_v63 main_v64 (broadcastInDim S2000000x64 ![0, 1] bcast_S2000000x1_S2000000x64_0_1),
    StableHlo.binary main_v62 main_v64 main_v65 mulf,
    StableHlo.nullary main_cst_15 (constant S_ .f32 0x00000000#32),
    StableHlo.unary main_cst_15 main_v66 (broadcastInDim S150000x64 ![] bcast_S_S150000x64),
    StableHlo.unary main_arg9 main_v67 (broadcastInDim S2000000x1 ![0] bcast_S2000000_S2000000x1_0),
    StableHlo.ternary main_v66 main_v67 main_v65 main_v68 (fun x i u => Host.scatterAdd scatter_S150000x64_S2000000x1_S2000000x64_1_0_0_1 x i u),
    StableHlo.binary main_v55 main_v68 main_v69 addf,
    StableHlo.nullary main_cst_16 (constant S_ .f32 0x40800000#32),
    StableHlo.unary main_cst_16 main_v70 (broadcastInDim S150000x64 ![] bcast_S_S150000x64),
    StableHlo.binary main_v69 main_v70 main_v71 Host.divf,
    StableHlo.nullary main_c_17 (constantI S_ 32 0#32),
    StableHlo.unary main_c_17 main_v72 (broadcastInDim S2000000 ![] bcast_S_S2000000),
    StableHlo.binary main_arg8 main_v72 main_v73 (cmpi .slt),
    StableHlo.nullary main_c_18 (constantI S_ 32 150000#32),
    StableHlo.unary main_c_18 main_v74 (broadcastInDim S2000000 ![] bcast_S_S2000000),
    StableHlo.binary main_arg8 main_v74 main_v75 addi,
    StableHlo.ternary main_v73 main_v75 main_arg8 main_v76 select,
    StableHlo.unary main_v76 main_v77 (broadcastInDim S2000000x1 ![0] bcast_S2000000_S2000000x1_0),
    StableHlo.binary main_arg1 main_v77 main_v78 (fun x i => Host.gather gather_S150000x64_S2000000x1_S2000000x64_1_0_n_n_0_1_164 x i),
    StableHlo.unary main_v27 main_v79 (broadcastInDim S2000000x1 ![0] bcast_S2000000_S2000000x1_0),
    StableHlo.unary main_v79 main_v80 (broadcastInDim S2000000x64 ![0, 1] bcast_S2000000x1_S2000000x64_0_1),
    StableHlo.binary main_v78 main_v80 main_v81 mulf,
    StableHlo.nullary main_cst_19 (constant S_ .f32 0x00000000#32),
    StableHlo.unary main_cst_19 main_v82 (broadcastInDim S150000x64 ![] bcast_S_S150000x64),
    StableHlo.unary main_arg9 main_v83 (broadcastInDim S2000000x1 ![0] bcast_S2000000_S2000000x1_0),
    StableHlo.ternary main_v82 main_v83 main_v81 main_v84 (fun x i u => Host.scatterAdd scatter_S150000x64_S2000000x1_S2000000x64_1_0_0_1 x i u),
    StableHlo.binary main_arg1 main_v84 main_v85 addf,
    StableHlo.nullary main_c_20 (constantI S_ 32 0#32),
    StableHlo.unary main_c_20 main_v86 (broadcastInDim S2000000 ![] bcast_S_S2000000),
    StableHlo.binary main_arg8 main_v86 main_v87 (cmpi .slt),
    StableHlo.nullary main_c_21 (constantI S_ 32 150000#32),
    StableHlo.unary main_c_21 main_v88 (broadcastInDim S2000000 ![] bcast_S_S2000000),
    StableHlo.binary main_arg8 main_v88 main_v89 addi,
    StableHlo.ternary main_v87 main_v89 main_arg8 main_v90 select,
    StableHlo.unary main_v90 main_v91 (broadcastInDim S2000000x1 ![0] bcast_S2000000_S2000000x1_0),
    StableHlo.binary main_v84 main_v91 main_v92 (fun x i => Host.gather gather_S150000x64_S2000000x1_S2000000x64_1_0_n_n_0_1_164 x i),
    StableHlo.unary main_v27 main_v93 (broadcastInDim S2000000x1 ![0] bcast_S2000000_S2000000x1_0),
    StableHlo.unary main_v93 main_v94 (broadcastInDim S2000000x64 ![0, 1] bcast_S2000000x1_S2000000x64_0_1),
    StableHlo.binary main_v92 main_v94 main_v95 mulf ]

abbrev ops2 : List (HloOp τ sig (Elt F)) :=
  [ StableHlo.nullary main_cst_22 (constant S_ .f32 0x00000000#32),
    StableHlo.unary main_cst_22 main_v96 (broadcastInDim S150000x64 ![] bcast_S_S150000x64),
    StableHlo.unary main_arg9 main_v97 (broadcastInDim S2000000x1 ![0] bcast_S2000000_S2000000x1_0),
    StableHlo.ternary main_v96 main_v97 main_v95 main_v98 (fun x i u => Host.scatterAdd scatter_S150000x64_S2000000x1_S2000000x64_1_0_0_1 x i u),
    StableHlo.binary main_v85 main_v98 main_v99 addf,
    StableHlo.nullary main_c_23 (constantI S_ 32 0#32),
    StableHlo.unary main_c_23 main_v100 (broadcastInDim S2000000 ![] bcast_S_S2000000),
    StableHlo.binary main_arg8 main_v100 main_v101 (cmpi .slt),
    StableHlo.nullary main_c_24 (constantI S_ 32 150000#32),
    StableHlo.unary main_c_24 main_v102 (broadcastInDim S2000000 ![] bcast_S_S2000000),
    StableHlo.binary main_arg8 main_v102 main_v103 addi,
    StableHlo.ternary main_v101 main_v103 main_arg8 main_v104 select,
    StableHlo.unary main_v104 main_v105 (broadcastInDim S2000000x1 ![0] bcast_S2000000_S2000000x1_0),
    StableHlo.binary main_v98 main_v105 main_v106 (fun x i => Host.gather gather_S150000x64_S2000000x1_S2000000x64_1_0_n_n_0_1_164 x i),
    StableHlo.unary main_v27 main_v107 (broadcastInDim S2000000x1 ![0] bcast_S2000000_S2000000x1_0),
    StableHlo.unary main_v107 main_v108 (broadcastInDim S2000000x64 ![0, 1] bcast_S2000000x1_S2000000x64_0_1),
    StableHlo.binary main_v106 main_v108 main_v109 mulf,
    StableHlo.nullary main_cst_25 (constant S_ .f32 0x00000000#32),
    StableHlo.unary main_cst_25 main_v110 (broadcastInDim S150000x64 ![] bcast_S_S150000x64),
    StableHlo.unary main_arg9 main_v111 (broadcastInDim S2000000x1 ![0] bcast_S2000000_S2000000x1_0),
    StableHlo.ternary main_v110 main_v111 main_v109 main_v112 (fun x i u => Host.scatterAdd scatter_S150000x64_S2000000x1_S2000000x64_1_0_0_1 x i u),
    StableHlo.binary main_v99 main_v112 main_v113 addf,
    StableHlo.nullary main_cst_26 (constant S_ .f32 0x40800000#32),
    StableHlo.unary main_cst_26 main_v114 (broadcastInDim S150000x64 ![] bcast_S_S150000x64),
    StableHlo.binary main_v113 main_v114 main_v115 Host.divf,
    StableHlo.nullary main_c_27 (constantI S_ 32 100000#32),
    StableHlo.unary main_c_27 main_v116 (broadcastInDim S8192x1 ![] bcast_S_S8192x1),
    StableHlo.binary main_arg5 main_v116 main_v117 addi,
    StableHlo.nullary main_c_28 (constantI S_ 32 100000#32),
    StableHlo.unary main_c_28 main_v118 (broadcastInDim S8192x1 ![] bcast_S_S8192x1),
    StableHlo.binary main_arg6 main_v118 main_v119 addi,
    StableHlo.nullary main_c_29 (constantI S_ 32 0#32),
    StableHlo.unary main_c_29 main_v120 (broadcastInDim S8192x1 ![] bcast_S_S8192x1),
    StableHlo.binary main_arg4 main_v120 main_v121 (cmpi .slt),
    StableHlo.nullary main_c_30 (constantI S_ 32 150000#32),
    StableHlo.unary main_c_30 main_v122 (broadcastInDim S8192x1 ![] bcast_S_S8192x1),
    StableHlo.binary main_arg4 main_v122 main_v123 addi,
    StableHlo.ternary main_v121 main_v123 main_arg4 main_v124 select,
    StableHlo.unary main_v124 main_v125 (broadcastInDim S8192x1x1 ![0, 1] bcast_S8192x1_S8192x1x1_0_1),
    StableHlo.binary main_v71 main_v125 main_v126 (fun x i => Host.gather gather_S150000x64_S8192x1x1_S8192x1x64_2_0_n_n_0_2_164 x i),
    StableHlo.nullary main_c_31 (constantI S_ 32 0#32),
    StableHlo.unary main_c_31 main_v127 (broadcastInDim S8192x1 ![] bcast_S_S8192x1),
    StableHlo.binary main_arg4 main_v127 main_v128 (cmpi .slt),
    StableHlo.nullary main_c_32 (constantI S_ 32 150000#32),
    StableHlo.unary main_c_32 main_v129 (broadcastInDim S8192x1 ![] bcast_S_S8192x1),
    StableHlo.binary main_arg4 main_v129 main_v130 addi,
    StableHlo.ternary main_v128 main_v130 main_arg4 main_v131 select,
    StableHlo.unary main_v131 main_v132 (broadcastInDim S8192x1x1 ![0, 1] bcast_S8192x1_S8192x1x1_0_1),
    StableHlo.binary main_v115 main_v132 main_v133 (fun x i => Host.gather gather_S150000x64_S8192x1x1_S8192x1x64_2_0_n_n_0_2_164 x i),
    StableHlo.nullary main_c_33 (constantI S_ 32 0#32),
    StableHlo.unary main_c_33 main_v134 (broadcastInDim S8192x1 ![] bcast_S_S8192x1),
    StableHlo.binary main_v117 main_v134 main_v135 (cmpi .slt),
    StableHlo.nullary main_c_34 (constantI S_ 32 150000#32),
    StableHlo.unary main_c_34 main_v136 (broadcastInDim S8192x1 ![] bcast_S_S8192x1),
    StableHlo.binary main_v117 main_v136 main_v137 addi,
    StableHlo.ternary main_v135 main_v137 main_v117 main_v138 select,
    StableHlo.unary main_v138 main_v139 (broadcastInDim S8192x1x1 ![0, 1] bcast_S8192x1_S8192x1x1_0_1),
    StableHlo.binary main_v71 main_v139 main_v140 (fun x i => Host.gather gather_S150000x64_S8192x1x1_S8192x1x64_2_0_n_n_0_2_164 x i),
    StableHlo.nullary main_c_35 (constantI S_ 32 0#32),
    StableHlo.unary main_c_35 main_v141 (broadcastInDim S8192x1 ![] bcast_S_S8192x1) ]

abbrev ops3 : List (HloOp τ sig (Elt F)) :=
  [ StableHlo.binary main_v117 main_v141 main_v142 (cmpi .slt),
    StableHlo.nullary main_c_36 (constantI S_ 32 150000#32),
    StableHlo.unary main_c_36 main_v143 (broadcastInDim S8192x1 ![] bcast_S_S8192x1),
    StableHlo.binary main_v117 main_v143 main_v144 addi,
    StableHlo.ternary main_v142 main_v144 main_v117 main_v145 select,
    StableHlo.unary main_v145 main_v146 (broadcastInDim S8192x1x1 ![0, 1] bcast_S8192x1_S8192x1x1_0_1),
    StableHlo.binary main_v115 main_v146 main_v147 (fun x i => Host.gather gather_S150000x64_S8192x1x1_S8192x1x64_2_0_n_n_0_2_164 x i),
    StableHlo.nullary main_c_37 (constantI S_ 32 0#32),
    StableHlo.unary main_c_37 main_v148 (broadcastInDim S8192x1 ![] bcast_S_S8192x1),
    StableHlo.binary main_v119 main_v148 main_v149 (cmpi .slt),
    StableHlo.nullary main_c_38 (constantI S_ 32 150000#32),
    StableHlo.unary main_c_38 main_v150 (broadcastInDim S8192x1 ![] bcast_S_S8192x1),
    StableHlo.binary main_v119 main_v150 main_v151 addi,
    StableHlo.ternary main_v149 main_v151 main_v119 main_v152 select,
    StableHlo.unary main_v152 main_v153 (broadcastInDim S8192x1x1 ![0, 1] bcast_S8192x1_S8192x1x1_0_1),
    StableHlo.binary main_v71 main_v153 main_v154 (fun x i => Host.gather gather_S150000x64_S8192x1x1_S8192x1x64_2_0_n_n_0_2_164 x i),
    StableHlo.nullary main_c_39 (constantI S_ 32 0#32),
    StableHlo.unary main_c_39 main_v155 (broadcastInDim S8192x1 ![] bcast_S_S8192x1),
    StableHlo.binary main_v119 main_v155 main_v156 (cmpi .slt),
    StableHlo.nullary main_c_40 (constantI S_ 32 150000#32),
    StableHlo.unary main_c_40 main_v157 (broadcastInDim S8192x1 ![] bcast_S_S8192x1),
    StableHlo.binary main_v119 main_v157 main_v158 addi,
    StableHlo.ternary main_v156 main_v158 main_v119 main_v159 select,
    StableHlo.unary main_v159 main_v160 (broadcastInDim S8192x1x1 ![0, 1] bcast_S8192x1_S8192x1x1_0_1),
    StableHlo.binary main_v115 main_v160 main_v161 (fun x i => Host.gather gather_S150000x64_S8192x1x1_S8192x1x64_2_0_n_n_0_2_164 x i),
    StableHlo.binary main_v126 main_v140 main_v162 mulf,
    StableHlo.nullary main_cst_41 (constant S_ .f32 0x00000000#32),
    StableHlo.binary main_v162 main_cst_41 main_v163 (fun x v => Host.reduceAdd x v reducesTo_S8192x1x64_S8192x1_d2 h_S_),
    StableHlo.binary main_v126 main_v154 main_v164 mulf,
    StableHlo.nullary main_cst_42 (constant S_ .f32 0x00000000#32),
    StableHlo.binary main_v164 main_cst_42 main_v165 (fun x v => Host.reduceAdd x v reducesTo_S8192x1x64_S8192x1_d2 h_S_),
    StableHlo.binary main_v133 main_v147 main_v166 mulf,
    StableHlo.nullary main_cst_43 (constant S_ .f32 0x00000000#32),
    StableHlo.binary main_v166 main_cst_43 main_v167 (fun x v => Host.reduceAdd x v reducesTo_S8192x1x64_S8192x1_d2 h_S_),
    StableHlo.binary main_v133 main_v161 main_v168 mulf,
    StableHlo.nullary main_cst_44 (constant S_ .f32 0x00000000#32),
    StableHlo.binary main_v168 main_cst_44 main_v169 (fun x v => Host.reduceAdd x v reducesTo_S8192x1x64_S8192x1_d2 h_S_),
    StableHlo.binary main_v163 main_v167 main_v170 addf,
    StableHlo.binary main_v165 main_v169 main_v171 addf,
    StableHlo.unary main_arg7 main_v172 (uitofp .f32),
    StableHlo.unary main_arg7 main_v173 noti,
    StableHlo.unary main_v173 main_v174 (uitofp .f32),
    StableHlo.binary main_v163 main_v165 main_v175 subf,
    StableHlo.TRef.unary (.of main_v175) main_call0.v0 Host.negf,
    StableHlo.TRef.nullary main_call0.call0.cst (constant S_ .f32 0x00000000#32),
    StableHlo.TRef.unary main_call0.call0.cst main_call0.call0.v0 (broadcastInDim S8192x1 ![] bcast_S_S8192x1),
    StableHlo.TRef.binary main_call0.v0 main_call0.call0.v0 main_call0.call0.v1 maximumf,
    StableHlo.TRef.unary main_call0.call0.cst main_call0.call0.v2 (broadcastInDim S8192x1 ![] bcast_S_S8192x1),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S8192x1 ![] bcast_S_S8192x1),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.binary main_v172 main_v176 main_v177 mulf,
    StableHlo.nullary main_cst_45 (constant S_ .f32 0x00000000#32),
    StableHlo.binary main_v177 main_cst_45 main_v178 (fun x v => Host.reduceAdd x v reducesTo_S8192x1_S_d0_1 h_S_),
    StableHlo.nullary main_cst_46 (constant S_ .f32 0x46000000#32),
    StableHlo.binary main_v178 main_cst_46 main_v179 Host.divf,
    StableHlo.unary main_v179 main_v180 Host.negf,
    StableHlo.binary main_v169 main_v167 main_v181 subf,
    StableHlo.TRef.unary (.of main_v181) main_call1.v0 Host.negf,
    StableHlo.TRef.nullary main_call1.call0.cst (constant S_ .f32 0x00000000#32),
    StableHlo.TRef.unary main_call1.call0.cst main_call1.call0.v0 (broadcastInDim S8192x1 ![] bcast_S_S8192x1),
    StableHlo.TRef.binary main_call1.v0 main_call1.call0.v0 main_call1.call0.v1 maximumf,
    StableHlo.TRef.unary main_call1.call0.cst main_call1.call0.v2 (broadcastInDim S8192x1 ![] bcast_S_S8192x1),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S8192x1 ![] bcast_S_S8192x1),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.binary main_v172 main_v182 main_v183 mulf,
    StableHlo.nullary main_cst_47 (constant S_ .f32 0x00000000#32),
    StableHlo.binary main_v183 main_cst_47 main_v184 (fun x v => Host.reduceAdd x v reducesTo_S8192x1_S_d0_1 h_S_),
    StableHlo.nullary main_cst_48 (constant S_ .f32 0x46000000#32),
    StableHlo.binary main_v184 main_cst_48 main_v185 Host.divf,
    StableHlo.unary main_v185 main_v186 Host.negf,
    StableHlo.binary main_v167 main_v169 main_v187 subf,
    StableHlo.TRef.unary (.of main_v187) main_call2.v0 Host.negf,
    StableHlo.TRef.nullary main_call2.call0.cst (constant S_ .f32 0x00000000#32),
    StableHlo.TRef.unary main_call2.call0.cst main_call2.call0.v0 (broadcastInDim S8192x1 ![] bcast_S_S8192x1),
    StableHlo.TRef.binary main_call2.v0 main_call2.call0.v0 main_call2.call0.v1 maximumf,
    StableHlo.TRef.unary main_call2.call0.cst main_call2.call0.v2 (broadcastInDim S8192x1 ![] bcast_S_S8192x1),
    StableHlo.TRef.binary main_call2.v0 main_call2.call0.v2 main_call2.call0.v3 subf,
    StableHlo.TRef.binary main_call2.call0.v3 main_call2.call0.v3 main_call2.call0.v4 (cmpf .une),
    StableHlo.TRef.unary main_call2.call0.cst main_call2.call0.v5 (broadcastInDim S8192x1 ![] bcast_S_S8192x1),
    StableHlo.TRef.binary main_call2.v0 main_call2.call0.v5 main_call2.call0.v6 addf,
    StableHlo.TRef.unary main_call2.call0.v3 main_call2.call0.v7 Host.absf,
    StableHlo.TRef.unary main_call2.call0.v7 main_call2.call0.v8 Host.negf,
    StableHlo.TRef.unary main_call2.call0.v8 main_call2.call0.v9 Host.exp,
    StableHlo.TRef.unary main_call2.call0.v9 main_call2.call0.v10 Host.log1p,
    StableHlo.TRef.binary main_call2.call0.v1 main_call2.call0.v10 main_call2.call0.v11 addf,
    StableHlo.TRef.ternary main_call2.call0.v4 main_call2.call0.v6 main_call2.call0.v11 main_call2.call0.v12 select,
    StableHlo.TRef.unary main_call2.call0.v12 main_call2.v2 Host.negf ]

abbrev ops4 : List (HloOp τ sig (Elt F)) :=
  [ StableHlo.binary main_v174 main_v188 main_v189 mulf,
    StableHlo.nullary main_cst_49 (constant S_ .f32 0x00000000#32),
    StableHlo.binary main_v189 main_cst_49 main_v190 (fun x v => Host.reduceAdd x v reducesTo_S8192x1_S_d0_1 h_S_),
    StableHlo.nullary main_cst_50 (constant S_ .f32 0x46000000#32),
    StableHlo.binary main_v190 main_cst_50 main_v191 Host.divf,
    StableHlo.unary main_v191 main_v192 Host.negf,
    StableHlo.binary main_v186 main_v192 main_v193 subf,
    StableHlo.nullary main_c_51 (constantI S_ 32 0#32),
    StableHlo.unary main_c_51 main_v194 (broadcastInDim S8192x1 ![] bcast_S_S8192x1),
    StableHlo.binary main_arg5 main_v194 main_v195 (cmpi .slt),
    StableHlo.nullary main_c_52 (constantI S_ 32 50000#32),
    StableHlo.unary main_c_52 main_v196 (broadcastInDim S8192x1 ![] bcast_S_S8192x1),
    StableHlo.binary main_arg5 main_v196 main_v197 addi,
    StableHlo.ternary main_v195 main_v197 main_arg5 main_v198 select,
    StableHlo.unary main_v198 main_v199 (broadcastInDim S8192x1x1 ![0, 1] bcast_S8192x1_S8192x1x1_0_1),
    StableHlo.binary main_arg2 main_v199 main_v200 (fun x i => Host.gather gather_S50000_S8192x1x1_S8192x1_n_0_n_n_0_2_1 x i),
    StableHlo.TRef.nullary main_call3.cst (constant S_ .f32 0x00000000#32),
    StableHlo.TRef.unary main_call3.cst main_call3.v0 (broadcastInDim S8192x1 ![] bcast_S_S8192x1),
    StableHlo.TRef.binary (.of main_v200) main_call3.v0 main_call3.v1 maximumf,
    StableHlo.TRef.unary main_call3.cst main_call3.v2 (broadcastInDim S8192x1 ![] bcast_S_S8192x1),
    StableHlo.TRef.binary (.of main_v200) main_call3.v2 main_call3.v3 subf,
    StableHlo.TRef.binary main_call3.v3 main_call3.v3 main_call3.v4 (cmpf .une),
    StableHlo.TRef.unary main_call3.cst main_call3.v5 (broadcastInDim S8192x1 ![] bcast_S_S8192x1),
    StableHlo.TRef.binary (.of main_v200) main_call3.v5 main_call3.v6 addf,
    StableHlo.TRef.unary main_call3.v3 main_call3.v7 Host.absf,
    StableHlo.TRef.unary main_call3.v7 main_call3.v8 Host.negf,
    StableHlo.TRef.unary main_call3.v8 main_call3.v9 Host.exp,
    StableHlo.TRef.unary main_call3.v9 main_call3.v10 Host.log1p,
    StableHlo.TRef.binary main_call3.v1 main_call3.v10 main_call3.v11 addf,
    StableHlo.TRef.ternary main_call3.v4 main_call3.v6 main_call3.v11 main_call3.v12 select,
    StableHlo.nullary main_c_53 (constantI S_ 32 0#32),
    StableHlo.unary main_c_53 main_v202 (broadcastInDim S8192x1 ![] bcast_S_S8192x1),
    StableHlo.binary main_arg5 main_v202 main_v203 (cmpi .slt),
    StableHlo.nullary main_c_54 (constantI S_ 32 50000#32),
    StableHlo.unary main_c_54 main_v204 (broadcastInDim S8192x1 ![] bcast_S_S8192x1),
    StableHlo.binary main_arg5 main_v204 main_v205 addi,
    StableHlo.ternary main_v203 main_v205 main_arg5 main_v206 select,
    StableHlo.unary main_v206 main_v207 (broadcastInDim S8192x1x1 ![0, 1] bcast_S8192x1_S8192x1x1_0_1),
    StableHlo.binary main_arg3 main_v207 main_v208 (fun x i => Host.gather gather_S50000_S8192x1x1_S8192x1_n_0_n_n_0_2_1 x i),
    StableHlo.TRef.nullary main_call4.cst (constant S_ .f32 0x00000000#32),
    StableHlo.TRef.unary main_call4.cst main_call4.v0 (broadcastInDim S8192x1 ![] bcast_S_S8192x1),
    StableHlo.TRef.binary (.of main_v208) main_call4.v0 main_call4.v1 maximumf,
    StableHlo.TRef.unary main_call4.cst main_call4.v2 (broadcastInDim S8192x1 ![] bcast_S_S8192x1),
    StableHlo.TRef.binary (.of main_v208) main_call4.v2 main_call4.v3 subf,
    StableHlo.TRef.binary main_call4.v3 main_call4.v3 main_call4.v4 (cmpf .une),
    StableHlo.TRef.unary main_call4.cst main_call4.v5 (broadcastInDim S8192x1 ![] bcast_S_S8192x1),
    StableHlo.TRef.binary (.of main_v208) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select,
    StableHlo.binary main_v201 main_v209 main_v210 addf,
    StableHlo.nullary main_c_55 (constantI S_ 32 0#32),
    StableHlo.unary main_c_55 main_v211 (broadcastInDim S8192x1 ![] bcast_S_S8192x1),
    StableHlo.binary main_arg6 main_v211 main_v212 (cmpi .slt),
    StableHlo.nullary main_c_56 (constantI S_ 32 50000#32),
    StableHlo.unary main_c_56 main_v213 (broadcastInDim S8192x1 ![] bcast_S_S8192x1),
    StableHlo.binary main_arg6 main_v213 main_v214 addi,
    StableHlo.ternary main_v212 main_v214 main_arg6 main_v215 select,
    StableHlo.unary main_v215 main_v216 (broadcastInDim S8192x1x1 ![0, 1] bcast_S8192x1_S8192x1x1_0_1),
    StableHlo.binary main_arg2 main_v216 main_v217 (fun x i => Host.gather gather_S50000_S8192x1x1_S8192x1_n_0_n_n_0_2_1 x i),
    StableHlo.TRef.nullary main_call5.cst (constant S_ .f32 0x00000000#32),
    StableHlo.TRef.unary main_call5.cst main_call5.v0 (broadcastInDim S8192x1 ![] bcast_S_S8192x1),
    StableHlo.TRef.binary (.of main_v217) main_call5.v0 main_call5.v1 maximumf,
    StableHlo.TRef.unary main_call5.cst main_call5.v2 (broadcastInDim S8192x1 ![] bcast_S_S8192x1),
    StableHlo.TRef.binary (.of main_v217) main_call5.v2 main_call5.v3 subf,
    StableHlo.TRef.binary main_call5.v3 main_call5.v3 main_call5.v4 (cmpf .une),
    StableHlo.TRef.unary main_call5.cst main_call5.v5 (broadcastInDim S8192x1 ![] bcast_S_S8192x1),
    StableHlo.TRef.binary (.of main_v217) main_call5.v5 main_call5.v6 addf,
    StableHlo.TRef.unary main_call5.v3 main_call5.v7 Host.absf,
    StableHlo.TRef.unary main_call5.v7 main_call5.v8 Host.negf,
    StableHlo.TRef.unary main_call5.v8 main_call5.v9 Host.exp,
    StableHlo.TRef.unary main_call5.v9 main_call5.v10 Host.log1p,
    StableHlo.TRef.binary main_call5.v1 main_call5.v10 main_call5.v11 addf,
    StableHlo.TRef.ternary main_call5.v4 main_call5.v6 main_call5.v11 main_call5.v12 select,
    StableHlo.nullary main_c_57 (constantI S_ 32 0#32),
    StableHlo.unary main_c_57 main_v219 (broadcastInDim S8192x1 ![] bcast_S_S8192x1),
    StableHlo.binary main_arg6 main_v219 main_v220 (cmpi .slt),
    StableHlo.nullary main_c_58 (constantI S_ 32 50000#32),
    StableHlo.unary main_c_58 main_v221 (broadcastInDim S8192x1 ![] bcast_S_S8192x1),
    StableHlo.binary main_arg6 main_v221 main_v222 addi,
    StableHlo.ternary main_v220 main_v222 main_arg6 main_v223 select,
    StableHlo.unary main_v223 main_v224 (broadcastInDim S8192x1x1 ![0, 1] bcast_S8192x1_S8192x1x1_0_1),
    StableHlo.binary main_arg3 main_v224 main_v225 (fun x i => Host.gather gather_S50000_S8192x1x1_S8192x1_n_0_n_n_0_2_1 x i),
    StableHlo.TRef.nullary main_call6.cst (constant S_ .f32 0x00000000#32),
    StableHlo.TRef.unary main_call6.cst main_call6.v0 (broadcastInDim S8192x1 ![] bcast_S_S8192x1),
    StableHlo.TRef.binary (.of main_v225) main_call6.v0 main_call6.v1 maximumf,
    StableHlo.TRef.unary main_call6.cst main_call6.v2 (broadcastInDim S8192x1 ![] bcast_S_S8192x1),
    StableHlo.TRef.binary (.of main_v225) main_call6.v2 main_call6.v3 subf,
    StableHlo.TRef.binary main_call6.v3 main_call6.v3 main_call6.v4 (cmpf .une),
    StableHlo.TRef.unary main_call6.cst main_call6.v5 (broadcastInDim S8192x1 ![] bcast_S_S8192x1),
    StableHlo.TRef.binary (.of main_v225) main_call6.v5 main_call6.v6 addf,
    StableHlo.TRef.unary main_call6.v3 main_call6.v7 Host.absf,
    StableHlo.TRef.unary main_call6.v7 main_call6.v8 Host.negf,
    StableHlo.TRef.unary main_call6.v8 main_call6.v9 Host.exp,
    StableHlo.TRef.unary main_call6.v9 main_call6.v10 Host.log1p,
    StableHlo.TRef.binary main_call6.v1 main_call6.v10 main_call6.v11 addf,
    StableHlo.TRef.ternary main_call6.v4 main_call6.v6 main_call6.v11 main_call6.v12 select,
    StableHlo.binary main_v218 main_v226 main_v227 addf,
    StableHlo.unary main_v210 main_v228 Host.tanh,
    StableHlo.binary main_v228 main_v170 main_v229 mulf,
    StableHlo.unary main_v227 main_v230 Host.tanh,
    StableHlo.binary main_v230 main_v171 main_v231 mulf,
    StableHlo.binary main_v229 main_v231 main_v232 subf,
    StableHlo.TRef.unary (.of main_v232) main_call7.v0 Host.negf,
    StableHlo.TRef.nullary main_call7.call0.cst (constant S_ .f32 0x00000000#32),
    StableHlo.TRef.unary main_call7.call0.cst main_call7.call0.v0 (broadcastInDim S8192x1 ![] bcast_S_S8192x1),
    StableHlo.TRef.binary main_call7.v0 main_call7.call0.v0 main_call7.call0.v1 maximumf,
    StableHlo.TRef.unary main_call7.call0.cst main_call7.call0.v2 (broadcastInDim S8192x1 ![] bcast_S_S8192x1),
    StableHlo.TRef.binary main_call7.v0 main_call7.call0.v2 main_call7.call0.v3 subf,
    StableHlo.TRef.binary main_call7.call0.v3 main_call7.call0.v3 main_call7.call0.v4 (cmpf .une),
    StableHlo.TRef.unary main_call7.call0.cst main_call7.call0.v5 (broadcastInDim S8192x1 ![] bcast_S_S8192x1),
    StableHlo.TRef.binary main_call7.v0 main_call7.call0.v5 main_call7.call0.v6 addf,
    StableHlo.TRef.unary main_call7.call0.v3 main_call7.call0.v7 Host.absf,
    StableHlo.TRef.unary main_call7.call0.v7 main_call7.call0.v8 Host.negf,
    StableHlo.TRef.unary main_call7.call0.v8 main_call7.call0.v9 Host.exp,
    StableHlo.TRef.unary main_call7.call0.v9 main_call7.call0.v10 Host.log1p,
    StableHlo.TRef.binary main_call7.call0.v1 main_call7.call0.v10 main_call7.call0.v11 addf,
    StableHlo.TRef.ternary main_call7.call0.v4 main_call7.call0.v6 main_call7.call0.v11 main_call7.call0.v12 select,
    StableHlo.TRef.unary main_call7.call0.v12 main_call7.v2 Host.negf,
    StableHlo.nullary main_cst_59 (constant S_ .f32 0x00000000#32),
    StableHlo.binary main_v233 main_cst_59 main_v234 (fun x v => Host.reduceAdd x v reducesTo_S8192x1_S_d0_1 h_S_),
    StableHlo.nullary main_cst_60 (constant S_ .f32 0x46000000#32),
    StableHlo.binary main_v234 main_cst_60 main_v235 Host.divf,
    StableHlo.unary main_v235 main_v236 Host.negf ]

abbrev ops5 : List (HloOp τ sig (Elt F)) :=
  [ StableHlo.nullary main_cst_61 (constant S_ .f32 0x3DCCCCCD#32),
    StableHlo.binary main_cst_61 main_v180 main_v237 mulf,
    StableHlo.nullary main_cst_62 (constant S_ .f32 0x3DCCCCCD#32),
    StableHlo.binary main_cst_62 main_v193 main_v238 mulf,
    StableHlo.binary main_v237 main_v238 main_v239 addf,
    StableHlo.nullary main_cst_63 (constant S_ .f32 0x3E4CCCCD#32),
    StableHlo.binary main_cst_63 main_v236 main_v240 mulf,
    StableHlo.binary main_v239 main_v240 main_v241 addf ]

abbrev ops : List (HloOp τ sig (Elt F)) := ops0 ++ (ops1 ++ (ops2 ++ (ops3 ++ (ops4 ++ ops5))))

set_option maxRecDepth 16384 in
set_option maxHeartbeats 4000000 in

theorem main_part0_eq (c : Dev nD) : main_part0 (F := F) c = seq ops0 := rfl

set_option maxRecDepth 16384 in
set_option maxHeartbeats 4000000 in

theorem main_part1_eq (c : Dev nD) : main_part1 (F := F) c = seq ops1 := rfl

set_option maxRecDepth 16384 in
set_option maxHeartbeats 4000000 in

theorem main_part2_eq (c : Dev nD) : main_part2 (F := F) c = seq ops2 := rfl

set_option maxRecDepth 16384 in
set_option maxHeartbeats 4000000 in

theorem main_part3_eq (c : Dev nD) : main_part3 (F := F) c = seq ops3 := rfl

set_option maxRecDepth 16384 in
set_option maxHeartbeats 4000000 in

theorem main_part4_eq (c : Dev nD) : main_part4 (F := F) c = seq ops4 := rfl

set_option maxRecDepth 16384 in
set_option maxHeartbeats 4000000 in

theorem main_part5_eq (c : Dev nD) : main_part5 (F := F) c = seq ops5 := rfl

theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops0_sub : (ops0 : List (HloOp τ sig (Elt F))).Forall fun op => op.bufs ⊆ tcRefs τ sig := by
  simp only [List.Forall, nullary_bufs_sub, unary_bufs_sub, binary_bufs_sub, ternary_bufs_sub, and_self]
set_option maxRecDepth 16384 in
theorem ops1_sub : (ops1 : List (HloOp τ sig (Elt F))).Forall fun op => op.bufs ⊆ tcRefs τ sig := by
  simp only [List.Forall, nullary_bufs_sub, unary_bufs_sub, binary_bufs_sub, ternary_bufs_sub, and_self]
set_option maxRecDepth 16384 in
theorem ops2_sub : (ops2 : List (HloOp τ sig (Elt F))).Forall fun op => op.bufs ⊆ tcRefs τ sig := by
  simp only [List.Forall, nullary_bufs_sub, unary_bufs_sub, binary_bufs_sub, ternary_bufs_sub, and_self]
set_option maxRecDepth 16384 in
theorem ops3_sub : (ops3 : List (HloOp τ sig (Elt F))).Forall fun op => op.bufs ⊆ tcRefs τ sig := by
  simp only [List.Forall, nullary_bufs_sub, unary_bufs_sub, binary_bufs_sub, ternary_bufs_sub, and_self]
set_option maxRecDepth 16384 in
theorem ops4_sub : (ops4 : List (HloOp τ sig (Elt F))).Forall fun op => op.bufs ⊆ tcRefs τ sig := by
  simp only [List.Forall, nullary_bufs_sub, unary_bufs_sub, binary_bufs_sub, ternary_bufs_sub, and_self]
set_option maxRecDepth 16384 in
theorem ops5_sub : (ops5 : List (HloOp τ sig (Elt F))).Forall fun op => op.bufs ⊆ tcRefs τ sig := by
  simp only [List.Forall, nullary_bufs_sub, unary_bufs_sub, binary_bufs_sub, ternary_bufs_sub, and_self]
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h]

abbrev W0 : List (Ref sig .tc) := [main_cst, main_v0, main_cst_0, main_v1, main_v2, main_v3, main_cst_1, main_v4, main_v5, main_v6, main_cst_2, main_v7, main_v8, main_v9, main_c, main_v10, main_v11, main_c_3, main_v12, main_v13, main_v14, main_v15, main_v16, main_cst_4, main_v17, main_v18, main_v19, main_c_5, main_v20, main_v21, main_c_6, main_v22, main_v23, main_v24, main_v25, main_v26, main_v27, main_c_7, main_v28, main_v29, main_c_8, main_v30, main_v31, main_v32, main_v33, main_v34, main_v35, main_v36, main_v37, main_cst_9, main_v38, main_v39, main_v40, main_v41, main_c_10, main_v42, main_v43, main_c_11, main_v44, main_v45]
set_option maxRecDepth 16384 in
set_option maxHeartbeats 4000000 in
theorem ops0_writes : (ops0 : List (HloOp τ sig (Elt F))).Forall fun op => op.writes ⊆ (W0.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

abbrev W1 : List (Ref sig .tc) := [main_v46, main_v47, main_v48, main_v49, main_v50, main_v51, main_cst_12, main_v52, main_v53, main_v54, main_v55, main_c_13, main_v56, main_v57, main_c_14, main_v58, main_v59, main_v60, main_v61, main_v62, main_v63, main_v64, main_v65, main_cst_15, main_v66, main_v67, main_v68, main_v69, main_cst_16, main_v70, main_v71, main_c_17, main_v72, main_v73, main_c_18, main_v74, main_v75, main_v76, main_v77, main_v78, main_v79, main_v80, main_v81, main_cst_19, main_v82, main_v83, main_v84, main_v85, main_c_20, main_v86, main_v87, main_c_21, main_v88, main_v89, main_v90, main_v91, main_v92, main_v93, main_v94, main_v95]
set_option maxRecDepth 16384 in
set_option maxHeartbeats 4000000 in
theorem ops1_writes : (ops1 : List (HloOp τ sig (Elt F))).Forall fun op => op.writes ⊆ (W1.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

abbrev W2 : List (Ref sig .tc) := [main_cst_22, main_v96, main_v97, main_v98, main_v99, main_c_23, main_v100, main_v101, main_c_24, main_v102, main_v103, main_v104, main_v105, main_v106, main_v107, main_v108, main_v109, main_cst_25, main_v110, main_v111, main_v112, main_v113, main_cst_26, main_v114, main_v115, main_c_27, main_v116, main_v117, main_c_28, main_v118, main_v119, main_c_29, main_v120, main_v121, main_c_30, main_v122, main_v123, main_v124, main_v125, main_v126, main_c_31, main_v127, main_v128, main_c_32, main_v129, main_v130, main_v131, main_v132, main_v133, main_c_33, main_v134, main_v135, main_c_34, main_v136, main_v137, main_v138, main_v139, main_v140, main_c_35, main_v141]
set_option maxRecDepth 16384 in
set_option maxHeartbeats 4000000 in
theorem ops2_writes : (ops2 : List (HloOp τ sig (Elt F))).Forall fun op => op.writes ⊆ (W2.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

abbrev W3 : List (Ref sig .tc) := [main_v142, main_c_36, main_v143, main_v144, main_v145, main_v146, main_v147, main_c_37, main_v148, main_v149, main_c_38, main_v150, main_v151, main_v152, main_v153, main_v154, main_c_39, main_v155, main_v156, main_c_40, main_v157, main_v158, main_v159, main_v160, main_v161, main_v162, main_cst_41, main_v163, main_v164, main_cst_42, main_v165, main_v166, main_cst_43, main_v167, main_v168, main_cst_44, main_v169, main_v170, main_v171, main_v172, main_v173, main_v174, main_v175, (main_call0.v0).ref, (main_call0.call0.cst).ref, (main_call0.call0.v0).ref, (main_call0.call0.v1).ref, (main_call0.call0.v2).ref, (main_call0.call0.v3).ref, (main_call0.call0.v4).ref, (main_call0.call0.v5).ref, (main_call0.call0.v6).ref, (main_call0.call0.v7).ref, (main_call0.call0.v8).ref, (main_call0.call0.v9).ref, (main_call0.call0.v10).ref, (main_call0.call0.v11).ref, (main_call0.call0.v12).ref, (main_call0.v2).ref, main_v177, main_cst_45, main_v178, main_cst_46, main_v179, main_v180, main_v181, (main_call1.v0).ref, (main_call1.call0.cst).ref, (main_call1.call0.v0).ref, (main_call1.call0.v1).ref, (main_call1.call0.v2).ref, (main_call1.call0.v3).ref, (main_call1.call0.v4).ref, (main_call1.call0.v5).ref, (main_call1.call0.v6).ref, (main_call1.call0.v7).ref, (main_call1.call0.v8).ref, (main_call1.call0.v9).ref, (main_call1.call0.v10).ref, (main_call1.call0.v11).ref, (main_call1.call0.v12).ref, (main_call1.v2).ref, main_v183, main_cst_47, main_v184, main_cst_48, main_v185, main_v186, main_v187, (main_call2.v0).ref, (main_call2.call0.cst).ref, (main_call2.call0.v0).ref, (main_call2.call0.v1).ref, (main_call2.call0.v2).ref, (main_call2.call0.v3).ref, (main_call2.call0.v4).ref, (main_call2.call0.v5).ref, (main_call2.call0.v6).ref, (main_call2.call0.v7).ref, (main_call2.call0.v8).ref, (main_call2.call0.v9).ref, (main_call2.call0.v10).ref, (main_call2.call0.v11).ref, (main_call2.call0.v12).ref, (main_call2.v2).ref]
set_option maxRecDepth 16384 in
set_option maxHeartbeats 4000000 in
theorem ops3_writes : (ops3 : List (HloOp τ sig (Elt F))).Forall fun op => op.writes ⊆ (W3.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

abbrev W4 : List (Ref sig .tc) := [main_v189, main_cst_49, main_v190, main_cst_50, main_v191, main_v192, main_v193, main_c_51, main_v194, main_v195, main_c_52, main_v196, main_v197, main_v198, main_v199, main_v200, (main_call3.cst).ref, (main_call3.v0).ref, (main_call3.v1).ref, (main_call3.v2).ref, (main_call3.v3).ref, (main_call3.v4).ref, (main_call3.v5).ref, (main_call3.v6).ref, (main_call3.v7).ref, (main_call3.v8).ref, (main_call3.v9).ref, (main_call3.v10).ref, (main_call3.v11).ref, (main_call3.v12).ref, main_c_53, main_v202, main_v203, main_c_54, main_v204, main_v205, main_v206, main_v207, main_v208, (main_call4.cst).ref, (main_call4.v0).ref, (main_call4.v1).ref, (main_call4.v2).ref, (main_call4.v3).ref, (main_call4.v4).ref, (main_call4.v5).ref, (main_call4.v6).ref, (main_call4.v7).ref, (main_call4.v8).ref, (main_call4.v9).ref, (main_call4.v10).ref, (main_call4.v11).ref, (main_call4.v12).ref, main_v210, main_c_55, main_v211, main_v212, main_c_56, main_v213, main_v214, main_v215, main_v216, main_v217, (main_call5.cst).ref, (main_call5.v0).ref, (main_call5.v1).ref, (main_call5.v2).ref, (main_call5.v3).ref, (main_call5.v4).ref, (main_call5.v5).ref, (main_call5.v6).ref, (main_call5.v7).ref, (main_call5.v8).ref, (main_call5.v9).ref, (main_call5.v10).ref, (main_call5.v11).ref, (main_call5.v12).ref, main_c_57, main_v219, main_v220, main_c_58, main_v221, main_v222, main_v223, main_v224, main_v225, (main_call6.cst).ref, (main_call6.v0).ref, (main_call6.v1).ref, (main_call6.v2).ref, (main_call6.v3).ref, (main_call6.v4).ref, (main_call6.v5).ref, (main_call6.v6).ref, (main_call6.v7).ref, (main_call6.v8).ref, (main_call6.v9).ref, (main_call6.v10).ref, (main_call6.v11).ref, (main_call6.v12).ref, main_v227, main_v228, main_v229, main_v230, main_v231, main_v232, (main_call7.v0).ref, (main_call7.call0.cst).ref, (main_call7.call0.v0).ref, (main_call7.call0.v1).ref, (main_call7.call0.v2).ref, (main_call7.call0.v3).ref, (main_call7.call0.v4).ref, (main_call7.call0.v5).ref, (main_call7.call0.v6).ref, (main_call7.call0.v7).ref, (main_call7.call0.v8).ref, (main_call7.call0.v9).ref, (main_call7.call0.v10).ref, (main_call7.call0.v11).ref, (main_call7.call0.v12).ref, (main_call7.v2).ref, main_cst_59, main_v234, main_cst_60, main_v235, main_v236]
set_option maxRecDepth 16384 in
set_option maxHeartbeats 4000000 in
theorem ops4_writes : (ops4 : List (HloOp τ sig (Elt F))).Forall fun op => op.writes ⊆ (W4.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

abbrev W5 : List (Ref sig .tc) := [main_cst_61, main_v237, main_cst_62, main_v238, main_v239, main_cst_63, main_v240, main_v241]
set_option maxRecDepth 16384 in
set_option maxHeartbeats 4000000 in
theorem ops5_writes : (ops5 : List (HloOp τ sig (Elt F))).Forall fun op => op.writes ⊆ (W5.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem after_ops (V : Valuation τ sig (Elt F)) :
    after ops V = after ops5 (after ops4 (after ops3 (after ops2 (after ops1 (after ops0 V))))) := by
  simp only [ops, after_append]

theorem after_ops_keep (V : Valuation τ sig (Elt F)) (r : Ref sig .tc)
    (h0 : r ∉ W0) (h1 : r ∉ W1) (h2 : r ∉ W2) (h3 : r ∉ W3) (h4 : r ∉ W4) (h5 : r ∉ W5) :
    after ops V (Proc.devRef .tc r) = V (Proc.devRef .tc r) := by
  rw [after_ops, after_of_writes_sub ops5 _ ops5_writes h5, after_of_writes_sub ops4 _ ops4_writes h4,
    after_of_writes_sub ops3 _ ops3_writes h3, after_of_writes_sub ops2 _ ops2_writes h2,
    after_of_writes_sub ops1 _ ops1_writes h1, after_of_writes_sub ops0 _ ops0_writes h0]

set_option maxRecDepth 16384 in
theorem after_ops_arg (V : Valuation τ sig (Elt F)) :
    ∀ r ∈ [main_arg0, main_arg1, main_arg2, main_arg3, main_arg4, main_arg5, main_arg6, main_arg7, main_arg8, main_arg9],
      after ops V (Proc.devRef .tc r) = V (Proc.devRef .tc r) := fun r h =>
  after_ops_keep V r (by revert r; decide) (by revert r; decide) (by revert r; decide) (by revert r; decide) (by revert r; decide) (by revert r; decide)

def res (m : (ℓ : Loc nD τ sig) → Buf (Elt F) ℓ) (c : Dev nD) : Buf (Elt F) ((c.tc : Thread nD τ).loc main_v241) :=
  after ops (launchContents m c) (Proc.devRef .tc main_v241)

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v241) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c main_v241,
      (h c main_arg0).trans (after_ops_arg _ _ (by decide)),
      (h c main_arg1).trans (after_ops_arg _ _ (by decide)),
      (h c main_arg2).trans (after_ops_arg _ _ (by decide)),
      (h c main_arg3).trans (after_ops_arg _ _ (by decide)),
      (h c main_arg4).trans (after_ops_arg _ _ (by decide)),
      (h c main_arg5).trans (after_ops_arg _ _ (by decide)),
      (h c main_arg6).trans (after_ops_arg _ _ (by decide)),
      (h c main_arg7).trans (after_ops_arg _ _ (by decide)),
      (h c main_arg8).trans (after_ops_arg _ _ (by decide)),
      (h c main_arg9).trans (after_ops_arg _ _ (by decide))⟩)
    (run_seq scopedRefs_eq scopedSems_eq defs main (fun _ => ops) main_eq (fun _ => ops_sub) m ρ)

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run m ρ)

end Cert.ReferenceIdeal.Hand

end
-- ==== Proof.Ref.Value0.lean ====
import proofs.«409272_j89550068122385_3_alg».proof.Proof.Ref.Run
import proofs.«409272_j89550068122385_3_alg».proof.Proof.Spec.Defs
import proofs.«409272_j89550068122385_3_alg».proof.Proof.Spec.Inputs
import proofs.«409272_j89550068122385_3_alg».proof.Proof.Spec.IdxOps
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

def argsOfVal (V : Valuation τ sig (Elt Ideal)) : Spec.Args where
  eI n j := V (Proc.devRef .tc main_arg0) (ix2 n j)
  eP n j := V (Proc.devRef .tc main_arg1) (ix2 n j)
  q i := V (Proc.devRef .tc main_arg2) (ix1 i)
  b i := V (Proc.devRef .tc main_arg3) (ix1 i)
  user s := V (Proc.devRef .tc main_arg4) (ix2 s 0)
  itemP s := V (Proc.devRef .tc main_arg5) (ix2 s 0)
  itemN s := V (Proc.devRef .tc main_arg6) (ix2 s 0)
  mask s := V (Proc.devRef .tc main_arg7) (ix2 s 0)
  src e := V (Proc.devRef .tc main_arg8) (ix1 e)
  dst e := V (Proc.devRef .tc main_arg9) (ix1 e)

def val3 (V : Valuation τ sig (Elt Ideal)) : Valuation τ sig (Elt Ideal) := after ops2 (after ops1 (after ops0 V))

def wrapA (x : IVec S2000000 32) : IVec S2000000 32 :=
  select (cmpi .slt x (broadcastInDim S2000000 ![] bcast_S_S2000000 (constantI S_ 32 0#32)))
    (addi x (broadcastInDim S2000000 ![] bcast_S_S2000000 (constantI S_ 32 150000#32))) x

def colA {α : Type} (x : S2000000.Idx → α) : S2000000x1.Idx → α :=
  broadcastInDim S2000000x1 ![0] bcast_S2000000_S2000000x1_0 x

def degA (idx : IVec S2000000 32) : FVec Ideal S150000 .f32 :=
  Host.scatterAdd scatter_S150000_S2000000x1_S2000000_n_0_0_1
    (broadcastInDim S150000 ![] bcast_S_S150000 (constant S_ .f32 0x00000000#32)) (colA idx)
    (broadcastInDim S2000000 ![] bcast_S_S2000000 (constant S_ .f32 0x3F800000#32))

def rdegA (idx : IVec S2000000 32) : FVec Ideal S150000 .f32 :=
  Host.rsqrt (maximumf (degA idx) (broadcastInDim S150000 ![] bcast_S_S150000 (constant S_ .f32 0x3F800000#32)))

def nrmA (src dst : IVec S2000000 32) : FVec Ideal S2000000 .f32 :=
  mulf (Host.gather gather_S150000_S2000000x1_S2000000_n_0_n_n_0_1_1 (rdegA src) (colA (wrapA src)))
    (Host.gather gather_S150000_S2000000x1_S2000000_n_0_n_n_0_1_1 (rdegA dst) (colA (wrapA dst)))

def gsW (h : FVec Ideal S150000x64 .f32) (w : IVec S2000000 32) (nrm : FVec Ideal S2000000 .f32) : FVec Ideal S2000000x64 .f32 :=
  mulf (Host.gather gather_S150000x64_S2000000x1_S2000000x64_1_0_n_n_0_1_164 h (colA w))
    (broadcastInDim S2000000x64 ![0, 1] bcast_S2000000x1_S2000000x64_0_1 (colA nrm))

def gsA (h : FVec Ideal S150000x64 .f32) (src : IVec S2000000 32) (nrm : FVec Ideal S2000000 .f32) : FVec Ideal S2000000x64 .f32 :=
  gsW h (wrapA src) nrm

def saA (dst : IVec S2000000 32) (g : FVec Ideal S2000000x64 .f32) : FVec Ideal S150000x64 .f32 :=
  Host.scatterAdd scatter_S150000x64_S2000000x1_S2000000x64_1_0_0_1
    (broadcastInDim S150000x64 ![] bcast_S_S150000x64 (constant S_ .f32 0x00000000#32)) (colA dst) g

def layerA (h : FVec Ideal S150000x64 .f32) (src dst : IVec S2000000 32) (nrm : FVec Ideal S2000000 .f32) : FVec Ideal S150000x64 .f32 :=
  saA dst (gsA h src nrm)

def meanA (t : FVec Ideal S150000x64 .f32) (src dst : IVec S2000000 32) : FVec Ideal S150000x64 .f32 :=
  Host.divf
    (addf (addf (addf t (layerA t src dst (nrmA src dst)))
        (layerA (layerA t src dst (nrmA src dst)) src dst (nrmA src dst)))
      (layerA (layerA (layerA t src dst (nrmA src dst)) src dst (nrmA src dst)) src dst (nrmA src dst)))
    (broadcastInDim S150000x64 ![] bcast_S_S150000x64 (constant S_ .f32 0x40800000#32))

theorem hostRsqrt_apply {s : Shape} {φ : FTy} (x : FVec Ideal s φ) (i : s.Idx) : Host.rsqrt x i = Ideal.rsqrt (x i) := rfl

theorem wrapA_apply (x : IVec S2000000 32) (e : Fin 2000000) : wrapA x (ix1 e) = Spec.wrapI 150000#32 (x (ix1 e)) := rfl

theorem colA_apply {α : Type} (x : S2000000.Idx → α) (e : Fin 2000000) (c : Fin 1) : colA x (ix2 e c) = x (ix1 e) := by
  unfold colA
  exact broadcastInDim_apply _ _ _ _ (ix1 e) (fun a => by fin_cases a; rfl)

theorem degA_apply (idx : IVec S2000000 32) (n : Fin 150000) : degA idx (ix1 n) = Spec.deg (fun e => idx (ix1 e)) n := by
  unfold degA Spec.deg
  rw [Spec.IdxOps.scatterAdd_eq, Spec.IdxOps.scatterAdd_flat_apply _ rfl rfl rfl rfl]
  simp only [colA_apply]
  rfl

theorem rdegA_apply (idx : IVec S2000000 32) (n : Fin 150000) :
    rdegA idx (ix1 n) = Ideal.rsqrt (max (Spec.deg (fun e => idx (ix1 e)) n) Spec.oneLit) := by
  unfold rdegA
  rw [hostRsqrt_apply, maximumf_apply, degA_apply, broadcastInDim_scalar_apply, constant_apply]

theorem nrmA_apply (src dst : IVec S2000000 32) (e : Fin 2000000) :
    nrmA src dst (ix1 e) = Spec.nrmOf (fun e => src (ix1 e)) (fun e => dst (ix1 e)) e := by
  unfold nrmA Spec.nrmOf
  rw [mulf_apply, Spec.IdxOps.gather_flat_apply (by decide) _ rfl rfl rfl rfl rfl rfl rfl,
    Spec.IdxOps.gather_flat_apply (by decide) _ rfl rfl rfl rfl rfl rfl rfl, colA_apply, colA_apply, wrapA_apply, wrapA_apply,
    rdegA_apply, rdegA_apply]
  rfl

theorem gsA_apply (h : FVec Ideal S150000x64 .f32) (src : IVec S2000000 32) (nrm : FVec Ideal S2000000 .f32)
    (e : Fin 2000000) (j : Fin 64) :
    gsA h src nrm (ix2 e j) = h (ix2 (Spec.nodeOf (src (ix1 e))) j) * nrm (ix1 e) := by
  unfold gsA gsW
  rw [mulf_apply, Spec.IdxOps.gather_rows_apply (by decide) _ rfl rfl rfl rfl rfl rfl rfl, colA_apply, wrapA_apply,
    broadcastInDim_apply _ _ _ _ (ix2 e (0 : Fin 1)) (fun a => by fin_cases a <;> rfl), colA_apply]
  rfl

theorem saA_apply (dst : IVec S2000000 32) (g : FVec Ideal S2000000x64 .f32) (n : Fin 150000) (j : Fin 64) :
    saA dst g (ix2 n j) = 0 + ∑ e ∈ Finset.univ.filter (fun e : Fin 2000000 => Spec.lands (dst (ix1 e)) n), g (ix2 e j) := by
  unfold saA
  rw [Spec.IdxOps.scatterAdd_eq, Spec.IdxOps.scatterAdd_rows_apply _ rfl rfl rfl rfl, broadcastInDim_scalar_apply, constant_apply,
    Ideal.ofBits_zero_f32]
  simp only [colA_apply]

theorem layerA_apply (h : FVec Ideal S150000x64 .f32) (src dst : IVec S2000000 32) (nrm : FVec Ideal S2000000 .f32)
    (n : Fin 150000) (j : Fin 64) :
    layerA h src dst nrm (ix2 n j)
      = 0 + ∑ e ∈ Finset.univ.filter (fun e : Fin 2000000 => Spec.lands (dst (ix1 e)) n),
          h (ix2 (Spec.nodeOf (src (ix1 e))) j) * nrm (ix1 e) := by
  unfold layerA
  rw [saA_apply]
  simp only [gsA_apply]

theorem layerA_eq (A : Spec.Args) (src dst : IVec S2000000 32) (hs : A.src = fun e => src (ix1 e)) (hd : A.dst = fun e => dst (ix1 e))
    (h : FVec Ideal S150000x64 .f32) :
    (fun n j => layerA h src dst (nrmA src dst) (ix2 n j)) = Spec.layer (Spec.edgesOf A) (fun n j => h (ix2 n j)) := by
  funext n j
  rw [layerA_apply]
  unfold Spec.layer Spec.edgesOf
  simp only [nrmA_apply, hs, hd]

theorem meanA_eq (A : Spec.Args) (src dst : IVec S2000000 32) (hs : A.src = fun e => src (ix1 e)) (hd : A.dst = fun e => dst (ix1 e))
    (t : FVec Ideal S150000x64 .f32) :
    (fun n j => meanA t src dst (ix2 n j))
      = Spec.meanR (Ideal.ofBits .f32 0x40800000#32) (Spec.edgesOf A) (fun n j => t (ix2 n j)) := by
  have l1 := layerA_eq A src dst hs hd t
  have l2 := layerA_eq A src dst hs hd (layerA t src dst (nrmA src dst))
  have l3 := layerA_eq A src dst hs hd (layerA (layerA t src dst (nrmA src dst)) src dst (nrmA src dst))
  rw [l1] at l2; rw [l2] at l3
  funext n j
  unfold meanA Spec.meanR Spec.sum4
  rw [hostDivf_apply, addf_apply, addf_apply, addf_apply, broadcastInDim_scalar_apply, constant_apply]
  rw [← l3, ← l2, ← l1]

section Read

attribute [local irreducible] Host.gather Host.scatterAdd Host.rsqrt Host.divf broadcastInDim

section Window0
variable (V : Valuation τ sig (Elt Ideal))

theorem r1_main_arg0 : after ops0 V (Proc.devRef .tc main_arg0) = V (Proc.devRef .tc main_arg0) := after_of_writes_sub ops0 _ ops0_writes (by decide)
theorem r1_main_arg1 : after ops0 V (Proc.devRef .tc main_arg1) = V (Proc.devRef .tc main_arg1) := after_of_writes_sub ops0 _ ops0_writes (by decide)
theorem r1_main_arg8 : after ops0 V (Proc.devRef .tc main_arg8) = V (Proc.devRef .tc main_arg8) := after_of_writes_sub ops0 _ ops0_writes (by decide)
theorem r1_main_arg9 : after ops0 V (Proc.devRef .tc main_arg9) = V (Proc.devRef .tc main_arg9) := after_of_writes_sub ops0 _ ops0_writes (by decide)

set_option maxRecDepth 16384 in
set_option maxHeartbeats 4000000 in
theorem r1_v27 : after ops0 V (Proc.devRef .tc main_v27) = nrmA (V (Proc.devRef .tc main_arg8)) (V (Proc.devRef .tc main_arg9)) := by
  dsimp only [ops0]
  after_results_simp <;> rfl

set_option maxRecDepth 16384 in
set_option maxHeartbeats 4000000 in
theorem r1_v40 : after ops0 V (Proc.devRef .tc main_v40)
    = layerA (V (Proc.devRef .tc main_arg0)) (V (Proc.devRef .tc main_arg8)) (V (Proc.devRef .tc main_arg9)) (nrmA (V (Proc.devRef .tc main_arg8)) (V (Proc.devRef .tc main_arg9))) := by
  dsimp only [ops0]
  after_results_simp <;> rfl

set_option maxRecDepth 16384 in
set_option maxHeartbeats 4000000 in
theorem r1_v41 : after ops0 V (Proc.devRef .tc main_v41)
    = addf (V (Proc.devRef .tc main_arg0)) (layerA (V (Proc.devRef .tc main_arg0)) (V (Proc.devRef .tc main_arg8)) (V (Proc.devRef .tc main_arg9)) (nrmA (V (Proc.devRef .tc main_arg8)) (V (Proc.devRef .tc main_arg9)))) := by
  dsimp only [ops0]
  after_results_simp <;> rfl

set_option maxRecDepth 16384 in
set_option maxHeartbeats 4000000 in
theorem r1_v43 : after ops0 V (Proc.devRef .tc main_v43)
    = cmpi .slt (V (Proc.devRef .tc main_arg8)) (broadcastInDim S2000000 ![] bcast_S_S2000000 (constantI S_ 32 0#32)) := by
  dsimp only [ops0]
  after_results_simp <;> rfl

set_option maxRecDepth 16384 in
set_option maxHeartbeats 4000000 in
theorem r1_v45 : after ops0 V (Proc.devRef .tc main_v45)
    = addi (V (Proc.devRef .tc main_arg8)) (broadcastInDim S2000000 ![] bcast_S_S2000000 (constantI S_ 32 150000#32)) := by
  dsimp only [ops0]
  after_results_simp <;> rfl

end Window0

section Window1
variable (W : Valuation τ sig (Elt Ideal))

theorem r2_main_arg8 : after ops1 W (Proc.devRef .tc main_arg8) = W (Proc.devRef .tc main_arg8) := after_of_writes_sub ops1 _ ops1_writes (by decide)
theorem r2_main_arg9 : after ops1 W (Proc.devRef .tc main_arg9) = W (Proc.devRef .tc main_arg9) := after_of_writes_sub ops1 _ ops1_writes (by decide)
theorem r2_main_v27 : after ops1 W (Proc.devRef .tc main_v27) = W (Proc.devRef .tc main_v27) := after_of_writes_sub ops1 _ ops1_writes (by decide)

set_option maxRecDepth 16384 in
set_option maxHeartbeats 4000000 in
theorem r2_v71 : after ops1 W (Proc.devRef .tc main_v71)
    = Host.divf
        (addf (addf (W (Proc.devRef .tc main_v41))
            (saA (W (Proc.devRef .tc main_arg9)) (gsW (W (Proc.devRef .tc main_v40)) (select (W (Proc.devRef .tc main_v43)) (W (Proc.devRef .tc main_v45)) (W (Proc.devRef .tc main_arg8))) (W (Proc.devRef .tc main_v27)))))
          (layerA (saA (W (Proc.devRef .tc main_arg9)) (gsW (W (Proc.devRef .tc main_v40)) (select (W (Proc.devRef .tc main_v43)) (W (Proc.devRef .tc main_v45)) (W (Proc.devRef .tc main_arg8))) (W (Proc.devRef .tc main_v27))))
            (W (Proc.devRef .tc main_arg8)) (W (Proc.devRef .tc main_arg9)) (W (Proc.devRef .tc main_v27))))
        (broadcastInDim S150000x64 ![] bcast_S_S150000x64 (constant S_ .f32 0x40800000#32)) := by
  dsimp only [ops1]
  after_results_simp <;> rfl

set_option maxRecDepth 16384 in
set_option maxHeartbeats 4000000 in
theorem r2_v85 : after ops1 W (Proc.devRef .tc main_v85)
    = addf (W (Proc.devRef .tc main_arg1)) (layerA (W (Proc.devRef .tc main_arg1)) (W (Proc.devRef .tc main_arg8)) (W (Proc.devRef .tc main_arg9)) (W (Proc.devRef .tc main_v27))) := by
  dsimp only [ops1]
  after_results_simp <;> rfl

set_option maxRecDepth 16384 in
set_option maxHeartbeats 4000000 in
theorem r2_v95 : after ops1 W (Proc.devRef .tc main_v95)
    = gsA (layerA (W (Proc.devRef .tc main_arg1)) (W (Proc.devRef .tc main_arg8)) (W (Proc.devRef .tc main_arg9)) (W (Proc.devRef .tc main_v27))) (W (Proc.devRef .tc main_arg8)) (W (Proc.devRef .tc main_v27)) := by
  dsimp only [ops1]
  after_results_simp <;> rfl

end Window1

section Window2
variable (W : Valuation τ sig (Elt Ideal))

theorem r3_main_v71 : after ops2 W (Proc.devRef .tc main_v71) = W (Proc.devRef .tc main_v71) := after_of_writes_sub ops2 _ ops2_writes (by decide)

set_option maxRecDepth 16384 in
set_option maxHeartbeats 4000000 in
theorem r3_v115 : after ops2 W (Proc.devRef .tc main_v115)
    = Host.divf
        (addf (addf (W (Proc.devRef .tc main_v85)) (saA (W (Proc.devRef .tc main_arg9)) (W (Proc.devRef .tc main_v95))))
          (layerA (saA (W (Proc.devRef .tc main_arg9)) (W (Proc.devRef .tc main_v95))) (W (Proc.devRef .tc main_arg8)) (W (Proc.devRef .tc main_arg9)) (W (Proc.devRef .tc main_v27))))
        (broadcastInDim S150000x64 ![] bcast_S_S150000x64 (constant S_ .f32 0x40800000#32)) := by
  dsimp only [ops2]
  after_results_simp <;> rfl

end Window2

theorem val3_v71_arr (V : Valuation τ sig (Elt Ideal)) :
    val3 V (Proc.devRef .tc main_v71) = meanA (V (Proc.devRef .tc main_arg0)) (V (Proc.devRef .tc main_arg8)) (V (Proc.devRef .tc main_arg9)) := by
  unfold val3
  rw [r3_main_v71, r2_v71, r1_v41, r1_v40, r1_v43, r1_v45, r1_v27, r1_main_arg8, r1_main_arg9]
  rfl

theorem val3_v115_arr (V : Valuation τ sig (Elt Ideal)) :
    val3 V (Proc.devRef .tc main_v115) = meanA (V (Proc.devRef .tc main_arg1)) (V (Proc.devRef .tc main_arg8)) (V (Proc.devRef .tc main_arg9)) := by
  unfold val3
  rw [r3_v115, r2_v85, r2_v95, r2_main_v27, r2_main_arg8, r2_main_arg9, r1_v27, r1_main_arg1, r1_main_arg8, r1_main_arg9]
  rfl

end Read

theorem val3_v71 (V : Valuation τ sig (Elt Ideal)) :
    (fun n j => val3 V (Proc.devRef .tc main_v71) (ix2 n j))
      = Spec.meanR (Ideal.ofBits .f32 0x40800000#32) (Spec.edgesOf (argsOfVal V)) (argsOfVal V).eI := by
  rw [val3_v71_arr]
  exact meanA_eq (argsOfVal V) _ _ rfl rfl _

theorem val3_v115 (V : Valuation τ sig (Elt Ideal)) :
    (fun n j => val3 V (Proc.devRef .tc main_v115) (ix2 n j))
      = Spec.meanR (Ideal.ofBits .f32 0x40800000#32) (Spec.edgesOf (argsOfVal V)) (argsOfVal V).eP := by
  rw [val3_v115_arr]
  exact meanA_eq (argsOfVal V) _ _ rfl rfl _

theorem val3_main_arg0 (V : Valuation τ sig (Elt Ideal)) : val3 V (Proc.devRef .tc main_arg0) = V (Proc.devRef .tc main_arg0) := by
  unfold val3
  rw [after_of_writes_sub ops2 _ ops2_writes (by decide), after_of_writes_sub ops1 _ ops1_writes (by decide),
    after_of_writes_sub ops0 _ ops0_writes (by decide)]
theorem val3_main_arg1 (V : Valuation τ sig (Elt Ideal)) : val3 V (Proc.devRef .tc main_arg1) = V (Proc.devRef .tc main_arg1) := by
  unfold val3
  rw [after_of_writes_sub ops2 _ ops2_writes (by decide), after_of_writes_sub ops1 _ ops1_writes (by decide),
    after_of_writes_sub ops0 _ ops0_writes (by decide)]
theorem val3_main_arg2 (V : Valuation τ sig (Elt Ideal)) : val3 V (Proc.devRef .tc main_arg2) = V (Proc.devRef .tc main_arg2) := by
  unfold val3
  rw [after_of_writes_sub ops2 _ ops2_writes (by decide), after_of_writes_sub ops1 _ ops1_writes (by decide),
    after_of_writes_sub ops0 _ ops0_writes (by decide)]
theorem val3_main_arg3 (V : Valuation τ sig (Elt Ideal)) : val3 V (Proc.devRef .tc main_arg3) = V (Proc.devRef .tc main_arg3) := by
  unfold val3
  rw [after_of_writes_sub ops2 _ ops2_writes (by decide), after_of_writes_sub ops1 _ ops1_writes (by decide),
    after_of_writes_sub ops0 _ ops0_writes (by decide)]
theorem val3_main_arg4 (V : Valuation τ sig (Elt Ideal)) : val3 V (Proc.devRef .tc main_arg4) = V (Proc.devRef .tc main_arg4) := by
  unfold val3
  rw [after_of_writes_sub ops2 _ ops2_writes (by decide), after_of_writes_sub ops1 _ ops1_writes (by decide),
    after_of_writes_sub ops0 _ ops0_writes (by decide)]
theorem val3_main_arg5 (V : Valuation τ sig (Elt Ideal)) : val3 V (Proc.devRef .tc main_arg5) = V (Proc.devRef .tc main_arg5) := by
  unfold val3
  rw [after_of_writes_sub ops2 _ ops2_writes (by decide), after_of_writes_sub ops1 _ ops1_writes (by decide),
    after_of_writes_sub ops0 _ ops0_writes (by decide)]
theorem val3_main_arg6 (V : Valuation τ sig (Elt Ideal)) : val3 V (Proc.devRef .tc main_arg6) = V (Proc.devRef .tc main_arg6) := by
  unfold val3
  rw [after_of_writes_sub ops2 _ ops2_writes (by decide), after_of_writes_sub ops1 _ ops1_writes (by decide),
    after_of_writes_sub ops0 _ ops0_writes (by decide)]
theorem val3_main_arg7 (V : Valuation τ sig (Elt Ideal)) : val3 V (Proc.devRef .tc main_arg7) = V (Proc.devRef .tc main_arg7) := by
  unfold val3
  rw [after_of_writes_sub ops2 _ ops2_writes (by decide), after_of_writes_sub ops1 _ ops1_writes (by decide),
    after_of_writes_sub ops0 _ ops0_writes (by decide)]
theorem val3_main_arg8 (V : Valuation τ sig (Elt Ideal)) : val3 V (Proc.devRef .tc main_arg8) = V (Proc.devRef .tc main_arg8) := by
  unfold val3
  rw [after_of_writes_sub ops2 _ ops2_writes (by decide), after_of_writes_sub ops1 _ ops1_writes (by decide),
    after_of_writes_sub ops0 _ ops0_writes (by decide)]
theorem val3_main_arg9 (V : Valuation τ sig (Elt Ideal)) : val3 V (Proc.devRef .tc main_arg9) = V (Proc.devRef .tc main_arg9) := by
  unfold val3
  rw [after_of_writes_sub ops2 _ ops2_writes (by decide), after_of_writes_sub ops1 _ ops1_writes (by decide),
    after_of_writes_sub ops0 _ ops0_writes (by decide)]

end Cert.ReferenceIdeal.Hand

end
-- ==== Proof.Ref.Terms.lean ====
import proofs.«409272_j89550068122385_3_alg».proof.Proof.Gen.ReferenceIdeal
import proofs.«409272_j89550068122385_3_alg».proof.Proof.Spec.Defs
import proofs.«409272_j89550068122385_3_alg».proof.Proof.Spec.Inputs
import Idealize.ShloMosaic.Lib.StableHlo.Run
import Idealize.ShloMosaic.Lib.ValueIdx

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo

abbrev zR : EReal := Ideal.ofBits .f32 0x00000000#32

def softplusR (x : EReal) : EReal :=
  Scalar.select (Ideal.cmp .une (x - zR) (x - zR)) (x + zR)
    (max x zR + Ideal.log1p (Ideal.exp (-(max (x - zR) (-(x - zR))))))

def logSigmoidR (x : EReal) : EReal := -(softplusR (-x))

def termsR : Spec.Terms where
  tInt r := r.mf * logSigmoidR (r.d1 - r.d2)
  tA r := r.mf * logSigmoidR (r.d4 - r.d3)
  tB r := r.nmf * logSigmoidR (r.d3 - r.d4)
  tT r := logSigmoidR (Ideal.tanh (softplusR r.qp + softplusR r.bp) * (r.d1 + r.d3)
            - Ideal.tanh (softplusR r.qn + softplusR r.bn) * (r.d2 + r.d4))

abbrev fourR : EReal := Ideal.ofBits .f32 0x40800000#32
abbrev tenthR : EReal := Ideal.ofBits .f32 0x3DCCCCCD#32
abbrev fifthR : EReal := Ideal.ofBits .f32 0x3E4CCCCD#32
abbrev nR : EReal := Ideal.ofBits .f32 0x46000000#32

end Cert.ReferenceIdeal.Hand

end
-- ==== Proof.Ref.Sample.lean ====
import proofs.«409272_j89550068122385_3_alg».proof.Proof.Ref.Terms
import proofs.«409272_j89550068122385_3_alg».proof.Proof.Spec.IdxOps
import proofs.«409272_j89550068122385_3_alg».proof.Proof.Spec.IdxLayout
import Idealize.ShloMosaic.PureOps.Ideal.Laws

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec.IdxOps

section Stages
variable {F : FTy → Type} [FloatOps F]

abbrev zeroS : FVec F S_ .f32 := constant S_ .f32 0x00000000#32

abbrev zeroV : FVec F S8192x1 .f32 := broadcastInDim S8192x1 ![] bcast_S_S8192x1 zeroS

def wrapS (n : BitVec 32) (x : IVec S8192x1 32) : IVec S8192x1x1 32 :=
  broadcastInDim S8192x1x1 ![0, 1] bcast_S8192x1_S8192x1x1_0_1
    (select (cmpi .slt x (broadcastInDim S8192x1 ![] bcast_S_S8192x1 (constantI S_ 32 0#32)))
      (addi x (broadcastInDim S8192x1 ![] bcast_S_S8192x1 (constantI S_ 32 n))) x)

def shiftI (x : IVec S8192x1 32) : IVec S8192x1 32 :=
  addi x (broadcastInDim S8192x1 ![] bcast_S_S8192x1 (constantI S_ 32 100000#32))

def rowsG (t : FVec F S150000x64 .f32) (x : IVec S8192x1 32) : FVec F S8192x1x64 .f32 :=
  Host.gather gather_S150000x64_S8192x1x1_S8192x1x64_2_0_n_n_0_2_164 t (wrapS 150000#32 x)

def popG (t : FVec F S50000 .f32) (x : IVec S8192x1 32) : FVec F S8192x1 .f32 :=
  Host.gather gather_S50000_S8192x1x1_S8192x1_n_0_n_n_0_2_1 t (wrapS 50000#32 x)

def dotG (a b : FVec F S8192x1x64 .f32) : FVec F S8192x1 .f32 :=
  Host.reduceAdd (mulf a b) zeroS reducesTo_S8192x1x64_S8192x1_d2 h_S_

def softplusV (x : FVec F S8192x1 .f32) : FVec F S8192x1 .f32 :=
  select (cmpf .une (subf x zeroV) (subf x zeroV)) (addf x zeroV)
    (addf (maximumf x zeroV) (Host.log1p (Host.exp (Host.negf (Host.absf (subf x zeroV))))))

def logSigV (x : FVec F S8192x1 .f32) : FVec F S8192x1 .f32 := Host.negf (softplusV (Host.negf x))

def negMeanV (x : FVec F S8192x1 .f32) : FVec F S_ .f32 :=
  Host.negf (Host.divf (Host.reduceAdd x zeroS reducesTo_S8192x1_S_d0_1 h_S_) (constant S_ .f32 0x46000000#32))

def resultV (fI fP : FVec F S150000x64 .f32) (q b : FVec F S50000 .f32) (user itemP itemN : IVec S8192x1 32)
    (mask : IVec S8192x1 1) : FVec F S_ .f32 :=
  let d1 := dotG (rowsG fI user) (rowsG fI (shiftI itemP))
  let d2 := dotG (rowsG fI user) (rowsG fI (shiftI itemN))
  let d3 := dotG (rowsG fP user) (rowsG fP (shiftI itemP))
  let d4 := dotG (rowsG fP user) (rowsG fP (shiftI itemN))
  let mf : FVec F S8192x1 .f32 := uitofp .f32 mask
  let nmf : FVec F S8192x1 .f32 := uitofp .f32 (noti mask)
  let lInt := negMeanV (mulf mf (logSigV (subf d1 d2)))
  let lA := negMeanV (mulf mf (logSigV (subf d4 d3)))
  let lB := negMeanV (mulf nmf (logSigV (subf d3 d4)))
  let popP := addf (softplusV (popG q itemP)) (softplusV (popG b itemP))
  let popN := addf (softplusV (popG q itemN)) (softplusV (popG b itemN))
  let lT := negMeanV (logSigV (subf (mulf (Host.tanh popP) (addf d1 d3)) (mulf (Host.tanh popN) (addf d2 d4))))
  addf (addf (mulf (constant S_ .f32 0x3DCCCCCD#32) lInt) (mulf (constant S_ .f32 0x3DCCCCCD#32) (subf lA lB)))
    (mulf (constant S_ .f32 0x3E4CCCCD#32) lT)

end Stages

theorem wrapS_apply (n : BitVec 32) (x : IVec S8192x1 32) (s : Fin 8192) (a b : Fin 1) :
    wrapS n x (ix3 s a b) = Spec.wrapI n (x (ix2 s 0)) := by
  unfold wrapS
  rw [bcast_col3_apply]
  rfl

theorem rowsG_apply (t : FVec Ideal S150000x64 .f32) (x : IVec S8192x1 32) (s : Fin 8192) (c : Fin 1) (j : Fin 64) :
    rowsG t x (ix3 s c j) = t (ix2 (Spec.nodeOf (x (ix2 s 0))) j) := by
  unfold rowsG
  rw [gather_rows3_apply (by decide) _ rfl rfl rfl rfl rfl rfl rfl, wrapS_apply]
  rfl

theorem popG_apply (t : FVec Ideal S50000 .f32) (x : IVec S8192x1 32) (s : Fin 8192) (c : Fin 1) :
    popG t x (ix2 s c) = t (ix1 (Spec.rowOf 50000 (by decide) (Spec.wrapI 50000#32 (x (ix2 s 0))))) := by
  unfold popG
  rw [gather_flat3_apply (by decide) _ rfl rfl rfl rfl rfl rfl rfl, wrapS_apply]

theorem dotG_apply (a b : FVec Ideal S8192x1x64 .f32) (s : Fin 8192) (c : Fin 1) :
    dotG a b (ix2 s c) = ∑ j : Fin 64, a (ix3 s 0 j) * b (ix3 s 0 j) := by
  show Ideal.hostReduceAdd reducesTo_S8192x1x64_S8192x1_d2 (mulf a b) (Ideal.ofBits .f32 0x00000000#32) (ix2 s c) = _
  rw [hostReduceAdd_last_apply, Ideal.ofBits_zero_f32, zero_add]
  rfl

theorem softplusV_apply (x : FVec Ideal S8192x1 .f32) (i : S8192x1.Idx) : softplusV x i = softplusR (x i) := rfl

theorem logSigV_apply (x : FVec Ideal S8192x1 .f32) (i : S8192x1.Idx) : logSigV x i = logSigmoidR (x i) := rfl

theorem negMeanV_apply (x : FVec Ideal S8192x1 .f32) (i : S_.Idx) :
    negMeanV x i = -(Ideal.div (0 + ∑ s : Fin 8192, x (ix2 s 0)) nR) := by
  show -(Ideal.div (Ideal.hostReduceAdd reducesTo_S8192x1_S_d0_1 x (Ideal.ofBits .f32 0x00000000#32) i) nR) = _
  rw [hostReduceAdd_all_apply, Ideal.ofBits_zero_f32]

theorem shiftI_apply (x : IVec S8192x1 32) (i : S8192x1.Idx) : shiftI x i = IntOp.addi (x i) 100000#32 := rfl

theorem tanhV_apply (x : FVec Ideal S8192x1 .f32) (i : S8192x1.Idx) : Host.tanh x i = Ideal.tanh (x i) := rfl

theorem dot_rows_apply (t : FVec Ideal S150000x64 .f32) (x y : IVec S8192x1 32) (s : Fin 8192) (c : Fin 1) :
    dotG (rowsG t x) (rowsG t y) (ix2 s c)
      = Spec.dot (fun j => t (ix2 (Spec.nodeOf (x (ix2 s 0))) j)) (fun j => t (ix2 (Spec.nodeOf (y (ix2 s 0))) j)) := by
  rw [dotG_apply]
  simp only [rowsG_apply]
  rfl

abbrev rowsOf (A : Spec.Args) (fI fP : FVec Ideal S150000x64 .f32) : Fin 8192 → Spec.Row :=
  Spec.rowOfTabs A (Spec.samplesOf A) (Spec.fmOf A) (Spec.fnmOf A) (fun n j => fI (ix2 n j)) (fun n j => fP (ix2 n j))

theorem resultV_eq (A : Spec.Args) (fI fP : FVec Ideal S150000x64 .f32) (q b : FVec Ideal S50000 .f32)
    (user itemP itemN : IVec S8192x1 32) (mask : IVec S8192x1 1)
    (hq : ∀ i, q (ix1 i) = A.q i) (hb : ∀ i, b (ix1 i) = A.b i)
    (hu : ∀ s, user (ix2 s 0) = A.user s) (hp : ∀ s, itemP (ix2 s 0) = A.itemP s) (hn : ∀ s, itemN (ix2 s 0) = A.itemN s)
    (hm : ∀ s, mask (ix2 s 0) = A.mask s) (i : S_.Idx) :
    resultV fI fP q b user itemP itemN mask i
      = Spec.combineR tenthR fifthR nR (Spec.totR (rowsOf A fI fP) termsR.tInt) (Spec.totR (rowsOf A fI fP) termsR.tA)
          (Spec.totR (rowsOf A fI fP) termsR.tB) (Spec.totR (rowsOf A fI fP) termsR.tT) := by
  have e1 : ∀ s : Fin 8192, mulf (uitofp .f32 mask : FVec Ideal S8192x1 .f32) (logSigV (subf (dotG (rowsG fI user) (rowsG fI (shiftI itemP))) (dotG (rowsG fI user) (rowsG fI (shiftI itemN))))) (ix2 s 0)
      = termsR.tInt (rowsOf A fI fP s) := by
    intro s
    rw [mulf_apply, logSigV_apply, subf_apply, dot_rows_apply, dot_rows_apply]
    simp only [shiftI_apply, hu, hp, hn]
    show FloatOps.uitofp .f32 (mask (ix2 s 0)) * _ = _
    rw [hm]
    rfl
  have e2 : ∀ s : Fin 8192, mulf (uitofp .f32 mask : FVec Ideal S8192x1 .f32) (logSigV (subf (dotG (rowsG fP user) (rowsG fP (shiftI itemN))) (dotG (rowsG fP user) (rowsG fP (shiftI itemP))))) (ix2 s 0)
      = termsR.tA (rowsOf A fI fP s) := by
    intro s
    rw [mulf_apply, logSigV_apply, subf_apply, dot_rows_apply, dot_rows_apply]
    simp only [shiftI_apply, hu, hp, hn]
    show FloatOps.uitofp .f32 (mask (ix2 s 0)) * _ = _
    rw [hm]
    rfl
  have e3 : ∀ s : Fin 8192, mulf (uitofp .f32 (noti mask) : FVec Ideal S8192x1 .f32) (logSigV (subf (dotG (rowsG fP user) (rowsG fP (shiftI itemP))) (dotG (rowsG fP user) (rowsG fP (shiftI itemN))))) (ix2 s 0)
      = termsR.tB (rowsOf A fI fP s) := by
    intro s
    rw [mulf_apply, logSigV_apply, subf_apply, dot_rows_apply, dot_rows_apply]
    simp only [shiftI_apply, hu, hp, hn]
    show FloatOps.uitofp .f32 (~~~(mask (ix2 s 0))) * _ = _
    rw [hm]
    rfl
  have e4 : ∀ s : Fin 8192,
      logSigV (subf
          (mulf (Host.tanh (addf (softplusV (popG q itemP)) (softplusV (popG b itemP))))
            (addf (dotG (rowsG fI user) (rowsG fI (shiftI itemP))) (dotG (rowsG fP user) (rowsG fP (shiftI itemP)))))
          (mulf (Host.tanh (addf (softplusV (popG q itemN)) (softplusV (popG b itemN))))
            (addf (dotG (rowsG fI user) (rowsG fI (shiftI itemN))) (dotG (rowsG fP user) (rowsG fP (shiftI itemN)))))) (ix2 s 0)
      = termsR.tT (rowsOf A fI fP s) := by
    intro s
    simp only [logSigV_apply, subf_apply, mulf_apply, addf_apply, tanhV_apply, softplusV_apply, dot_rows_apply, popG_apply,
      shiftI_apply, hu, hp, hn, hq, hb]
    rfl
  have s1 := Finset.sum_congr (s₁ := (Finset.univ : Finset (Fin 8192))) rfl (fun s _ => e1 s)
  have s2 := Finset.sum_congr (s₁ := (Finset.univ : Finset (Fin 8192))) rfl (fun s _ => e2 s)
  have s3 := Finset.sum_congr (s₁ := (Finset.univ : Finset (Fin 8192))) rfl (fun s _ => e3 s)
  have s4 := Finset.sum_congr (s₁ := (Finset.univ : Finset (Fin 8192))) rfl (fun s _ => e4 s)
  unfold Spec.combineR Spec.totR
  rw [← s1, ← s2, ← s3, ← s4]
  unfold resultV
  simp only [addf_apply, mulf_apply, subf_apply, constant_apply, negMeanV_apply]

end Cert.ReferenceIdeal.Hand

end
-- ==== Proof.Ref.Tail.lean ====
import proofs.«409272_j89550068122385_3_alg».proof.Proof.Ref.Run
import proofs.«409272_j89550068122385_3_alg».proof.Proof.Ref.Sample

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

abbrev ops2t : List (HloOp τ sig (Elt F)) :=
  [ StableHlo.nullary main_c_27 (constantI S_ 32 100000#32),
    StableHlo.unary main_c_27 main_v116 (broadcastInDim S8192x1 ![] bcast_S_S8192x1 : (⟨S_, .i32⟩ : BufTy).Contents (Elt F) → (⟨S8192x1, .i32⟩ : BufTy).Contents (Elt F)),
    StableHlo.binary main_arg5 main_v116 main_v117 (addi : (⟨S8192x1, .i32⟩ : BufTy).Contents (Elt F) → (⟨S8192x1, .i32⟩ : BufTy).Contents (Elt F) → (⟨S8192x1, .i32⟩ : BufTy).Contents (Elt F)),
    StableHlo.nullary main_c_28 (constantI S_ 32 100000#32),
    StableHlo.unary main_c_28 main_v118 (broadcastInDim S8192x1 ![] bcast_S_S8192x1 : (⟨S_, .i32⟩ : BufTy).Contents (Elt F) → (⟨S8192x1, .i32⟩ : BufTy).Contents (Elt F)),
    StableHlo.binary main_arg6 main_v118 main_v119 (addi : (⟨S8192x1, .i32⟩ : BufTy).Contents (Elt F) → (⟨S8192x1, .i32⟩ : BufTy).Contents (Elt F) → (⟨S8192x1, .i32⟩ : BufTy).Contents (Elt F)),
    StableHlo.nullary main_c_29 (constantI S_ 32 0#32),
    StableHlo.unary main_c_29 main_v120 (broadcastInDim S8192x1 ![] bcast_S_S8192x1 : (⟨S_, .i32⟩ : BufTy).Contents (Elt F) → (⟨S8192x1, .i32⟩ : BufTy).Contents (Elt F)),
    StableHlo.binary main_arg4 main_v120 main_v121 (cmpi .slt : (⟨S8192x1, .i32⟩ : BufTy).Contents (Elt F) → (⟨S8192x1, .i32⟩ : BufTy).Contents (Elt F) → (⟨S8192x1, .i1⟩ : BufTy).Contents (Elt F)),
    StableHlo.nullary main_c_30 (constantI S_ 32 150000#32),
    StableHlo.unary main_c_30 main_v122 (broadcastInDim S8192x1 ![] bcast_S_S8192x1 : (⟨S_, .i32⟩ : BufTy).Contents (Elt F) → (⟨S8192x1, .i32⟩ : BufTy).Contents (Elt F)),
    StableHlo.binary main_arg4 main_v122 main_v123 (addi : (⟨S8192x1, .i32⟩ : BufTy).Contents (Elt F) → (⟨S8192x1, .i32⟩ : BufTy).Contents (Elt F) → (⟨S8192x1, .i32⟩ : BufTy).Contents (Elt F)),
    StableHlo.ternary main_v121 main_v123 main_arg4 main_v124 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.unary main_v124 main_v125 (broadcastInDim S8192x1x1 ![0, 1] bcast_S8192x1_S8192x1x1_0_1 : (⟨S8192x1, .i32⟩ : BufTy).Contents (Elt F) → (⟨S8192x1x1, .i32⟩ : BufTy).Contents (Elt F)),
    StableHlo.binary main_v71 main_v125 main_v126 ((fun x i => Host.gather gather_S150000x64_S8192x1x1_S8192x1x64_2_0_n_n_0_2_164 x i) : (⟨S150000x64, .f32⟩ : BufTy).Contents (Elt F) → (⟨S8192x1x1, .i32⟩ : BufTy).Contents (Elt F) → (⟨S8192x1x64, .f32⟩ : BufTy).Contents (Elt F)),
    StableHlo.nullary main_c_31 (constantI S_ 32 0#32),
    StableHlo.unary main_c_31 main_v127 (broadcastInDim S8192x1 ![] bcast_S_S8192x1 : (⟨S_, .i32⟩ : BufTy).Contents (Elt F) → (⟨S8192x1, .i32⟩ : BufTy).Contents (Elt F)),
    StableHlo.binary main_arg4 main_v127 main_v128 (cmpi .slt : (⟨S8192x1, .i32⟩ : BufTy).Contents (Elt F) → (⟨S8192x1, .i32⟩ : BufTy).Contents (Elt F) → (⟨S8192x1, .i1⟩ : BufTy).Contents (Elt F)),
    StableHlo.nullary main_c_32 (constantI S_ 32 150000#32),
    StableHlo.unary main_c_32 main_v129 (broadcastInDim S8192x1 ![] bcast_S_S8192x1 : (⟨S_, .i32⟩ : BufTy).Contents (Elt F) → (⟨S8192x1, .i32⟩ : BufTy).Contents (Elt F)),
    StableHlo.binary main_arg4 main_v129 main_v130 (addi : (⟨S8192x1, .i32⟩ : BufTy).Contents (Elt F) → (⟨S8192x1, .i32⟩ : BufTy).Contents (Elt F) → (⟨S8192x1, .i32⟩ : BufTy).Contents (Elt F)),
    StableHlo.ternary main_v128 main_v130 main_arg4 main_v131 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.unary main_v131 main_v132 (broadcastInDim S8192x1x1 ![0, 1] bcast_S8192x1_S8192x1x1_0_1 : (⟨S8192x1, .i32⟩ : BufTy).Contents (Elt F) → (⟨S8192x1x1, .i32⟩ : BufTy).Contents (Elt F)),
    StableHlo.binary main_v115 main_v132 main_v133 ((fun x i => Host.gather gather_S150000x64_S8192x1x1_S8192x1x64_2_0_n_n_0_2_164 x i) : (⟨S150000x64, .f32⟩ : BufTy).Contents (Elt F) → (⟨S8192x1x1, .i32⟩ : BufTy).Contents (Elt F) → (⟨S8192x1x64, .f32⟩ : BufTy).Contents (Elt F)),
    StableHlo.nullary main_c_33 (constantI S_ 32 0#32),
    StableHlo.unary main_c_33 main_v134 (broadcastInDim S8192x1 ![] bcast_S_S8192x1 : (⟨S_, .i32⟩ : BufTy).Contents (Elt F) → (⟨S8192x1, .i32⟩ : BufTy).Contents (Elt F)),
    StableHlo.binary main_v117 main_v134 main_v135 (cmpi .slt : (⟨S8192x1, .i32⟩ : BufTy).Contents (Elt F) → (⟨S8192x1, .i32⟩ : BufTy).Contents (Elt F) → (⟨S8192x1, .i1⟩ : BufTy).Contents (Elt F)),
    StableHlo.nullary main_c_34 (constantI S_ 32 150000#32),
    StableHlo.unary main_c_34 main_v136 (broadcastInDim S8192x1 ![] bcast_S_S8192x1 : (⟨S_, .i32⟩ : BufTy).Contents (Elt F) → (⟨S8192x1, .i32⟩ : BufTy).Contents (Elt F)),
    StableHlo.binary main_v117 main_v136 main_v137 (addi : (⟨S8192x1, .i32⟩ : BufTy).Contents (Elt F) → (⟨S8192x1, .i32⟩ : BufTy).Contents (Elt F) → (⟨S8192x1, .i32⟩ : BufTy).Contents (Elt F)),
    StableHlo.ternary main_v135 main_v137 main_v117 main_v138 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.unary main_v138 main_v139 (broadcastInDim S8192x1x1 ![0, 1] bcast_S8192x1_S8192x1x1_0_1 : (⟨S8192x1, .i32⟩ : BufTy).Contents (Elt F) → (⟨S8192x1x1, .i32⟩ : BufTy).Contents (Elt F)),
    StableHlo.binary main_v71 main_v139 main_v140 ((fun x i => Host.gather gather_S150000x64_S8192x1x1_S8192x1x64_2_0_n_n_0_2_164 x i) : (⟨S150000x64, .f32⟩ : BufTy).Contents (Elt F) → (⟨S8192x1x1, .i32⟩ : BufTy).Contents (Elt F) → (⟨S8192x1x64, .f32⟩ : BufTy).Contents (Elt F)),
    StableHlo.nullary main_c_35 (constantI S_ 32 0#32),
    StableHlo.unary main_c_35 main_v141 (broadcastInDim S8192x1 ![] bcast_S_S8192x1 : (⟨S_, .i32⟩ : BufTy).Contents (Elt F) → (⟨S8192x1, .i32⟩ : BufTy).Contents (Elt F)) ]

theorem ops2_split : (ops2 : List (HloOp τ sig (Elt F))) = ops2.take 25 ++ ops2t := rfl

set_option maxRecDepth 16384 in
set_option maxHeartbeats 8000000 in

theorem tail_result (W : Valuation τ sig (Elt F)) :
    after ops5 (after ops4 (after ops3 (after ops2t W))) (Proc.devRef .tc main_v241)
      = resultV (W (Proc.devRef .tc main_v71)) (W (Proc.devRef .tc main_v115)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  after_results_simp <;> (try simp only [TRef.ofBuf, TRef.toBuf, cast_eq]) <;> rfl

set_option maxRecDepth 16384 in

theorem tail_keep (W : Valuation τ sig (Elt F)) :
    after ops2t W (Proc.devRef .tc main_v71) = W (Proc.devRef .tc main_v71)
    ∧ after ops2t W (Proc.devRef .tc main_v115) = W (Proc.devRef .tc main_v115)
    ∧ after ops2t W (Proc.devRef .tc main_arg2) = W (Proc.devRef .tc main_arg2)
    ∧ after ops2t W (Proc.devRef .tc main_arg3) = W (Proc.devRef .tc main_arg3)
    ∧ after ops2t W (Proc.devRef .tc main_arg4) = W (Proc.devRef .tc main_arg4)
    ∧ after ops2t W (Proc.devRef .tc main_arg5) = W (Proc.devRef .tc main_arg5)
    ∧ after ops2t W (Proc.devRef .tc main_arg6) = W (Proc.devRef .tc main_arg6)
    ∧ after ops2t W (Proc.devRef .tc main_arg7) = W (Proc.devRef .tc main_arg7) := by
  refine ⟨?_, ?_, ?_, ?_, ?_, ?_, ?_, ?_⟩ <;> after_results_simp

end Cert.ReferenceIdeal.Hand

end
-- ==== Proof.Ref.Value.lean ====
import proofs.«409272_j89550068122385_3_alg».proof.Proof.Ref.Run
import proofs.«409272_j89550068122385_3_alg».proof.Proof.Ref.Value0
import proofs.«409272_j89550068122385_3_alg».proof.Proof.Ref.Sample
import proofs.«409272_j89550068122385_3_alg».proof.Proof.Ref.Tail

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

theorem after_tail (V : Valuation τ sig (Elt Ideal)) :
    after ops5 (after ops4 (after ops3 (val3 V))) (Proc.devRef .tc main_v241)
      = resultV (F := Ideal) (val3 V (Proc.devRef .tc main_v71)) (val3 V (Proc.devRef .tc main_v115)) (val3 V (Proc.devRef .tc main_arg2))
          (val3 V (Proc.devRef .tc main_arg3)) (val3 V (Proc.devRef .tc main_arg4)) (val3 V (Proc.devRef .tc main_arg5))
          (val3 V (Proc.devRef .tc main_arg6)) (val3 V (Proc.devRef .tc main_arg7)) := by
  have hX : val3 V = after ops2t (after (ops2.take 25) (after ops1 (after ops0 V))) :=
    (congrArg (fun l => after l (after ops1 (after ops0 V))) ops2_split).trans (StableHlo.after_append _ _ _)
  obtain ⟨k1, k2, k3, k4, k5, k6, k7, k8⟩ := tail_keep (after (ops2.take 25) (after ops1 (after ops0 V)))
  rw [hX, tail_result, k1, k2, k3, k4, k5, k6, k7, k8]

theorem after_ops_result (V : Valuation τ sig (Elt Ideal)) :
    after ops V (Proc.devRef .tc main_v241)
      = fun _ => Spec.plainResult (argsOfVal V) termsR fourR tenthR fifthR nR := by
  rw [after_ops]
  show after ops5 (after ops4 (after ops3 (val3 V))) (Proc.devRef .tc main_v241) = _
  rw [after_tail]
  funext i
  rw [resultV_eq (argsOfVal V) _ _ _ _ _ _ _ _
    (fun i => by rw [val3_main_arg2]; rfl) (fun i => by rw [val3_main_arg3]; rfl)
    (fun s => by rw [val3_main_arg4]; rfl) (fun s => by rw [val3_main_arg5]; rfl) (fun s => by rw [val3_main_arg6]; rfl)
    (fun s => by rw [val3_main_arg7]; rfl) i]
  unfold Spec.plainResult Spec.resR rowsOf
  rw [val3_v71, val3_v115]

theorem res_eq (m : (ℓ : Loc nD τ sig) → Buf (Elt Ideal) ℓ) (c : Dev nD) :
    res (F := Ideal) m c
      = fun _ => Spec.plainResult (argsOfVal (launchContents m c)) termsR fourR tenthR fifthR nR :=
  after_ops_result (launchContents m c)

end Cert.ReferenceIdeal.Hand

end
-- ==== Proof.Bridge.Main.lean ====
import proofs.«409272_j89550068122385_3_alg».proof.Proof.Spec.Defs
import proofs.«409272_j89550068122385_3_alg».proof.Proof.Spec.Inputs
import Mathlib.Data.EReal.Operations
import Mathlib.Algebra.BigOperators.Fin
import Mathlib.Data.Fintype.BigOperators
import Mathlib.Logic.Equiv.Fin.Basic

noncomputable section

open scoped BigOperators

namespace Cert.Bridge

open Idealize.ShloMosaic
open Cert.Spec

theorem lo_fuse (a b : Tab 150000 64) : lo (fuse a b) = a := by
  funext n j
  show (if h : (⟨j.val, _⟩ : Fin 128).val < 64 then a n ⟨j.val, h⟩ else _) = a n j
  rw [dif_pos j.isLt]

theorem hi_fuse (a b : Tab 150000 64) : hi (fuse a b) = b := by
  funext n j
  have hj : ¬ (64 + j.val < 64) := by omega
  show (if h : (⟨64 + j.val, _⟩ : Fin 128).val < 64 then _ else b n ⟨64 + j.val - 64, _⟩) = b n j
  rw [dif_neg hj]
  congr 1
  apply Fin.ext
  show 64 + j.val - 64 = j.val
  omega

theorem lo_layer (E : Edges) (h : Tab 150000 128) : lo (layer E h) = layer E (lo h) := rfl
theorem hi_layer (E : Edges) (h : Tab 150000 128) : hi (layer E h) = layer E (hi h) := rfl

theorem lo_sum4 (E : Edges) (h : Tab 150000 128) : lo (sum4 E h) = sum4 E (lo h) := rfl
theorem hi_sum4 (E : Edges) (h : Tab 150000 128) : hi (sum4 E h) = sum4 E (hi h) := rfl

theorem mul_quarter_eq_div_four (x : EReal) :
    x * ((1 / 4 : ℝ) : EReal) = Ideal.div x ((4 : ℝ) : EReal) :=
  (Ideal.div_coe (by norm_num) x).symm

theorem lo_meanK (E : Edges) (a b : Tab 150000 64) (quarter four : EReal)
    (hq : quarter = ((1 / 4 : ℝ) : EReal)) (h4 : four = ((4 : ℝ) : EReal)) :
    lo (meanK quarter E (fuse a b)) = meanR four E a := by
  funext n j
  show lo (sum4 E (fuse a b)) n j * quarter = Ideal.div (sum4 E a n j) four
  rw [lo_sum4, lo_fuse, hq, h4, mul_quarter_eq_div_four]

theorem hi_meanK (E : Edges) (a b : Tab 150000 64) (quarter four : EReal)
    (hq : quarter = ((1 / 4 : ℝ) : EReal)) (h4 : four = ((4 : ℝ) : EReal)) :
    hi (meanK quarter E (fuse a b)) = meanR four E b := by
  funext n j
  show hi (sum4 E (fuse a b)) n j * quarter = Ideal.div (sum4 E b n j) four
  rw [hi_sum4, hi_fuse, hq, h4, mul_quarter_eq_div_four]

theorem sum_blocks (g : Fin 8192 → EReal) :
    ∑ s : Fin 8192, g s = ∑ k : Fin 4, ∑ r : Fin 2048, g ⟨2048 * k.val + r.val, by omega⟩ := by
  rw [← Fintype.sum_prod_type' (fun (k : Fin 4) (r : Fin 2048) => g ⟨2048 * k.val + r.val, by omega⟩)]
  symm
  refine Fintype.sum_equiv (finProdFinEquiv : Fin 4 × Fin 2048 ≃ Fin (4 * 2048)) _ _ ?_
  rintro ⟨k, r⟩
  congr 1
  apply Fin.ext
  show 2048 * k.val + r.val = r.val + 2048 * k.val
  omega

theorem accK_eq_totR (rows : Fin 8192 → Row) (f : Row → EReal) : accK rows f = totR rows f := by
  unfold accK totR blockSum
  rw [sum_blocks (fun s => f (rows s)), Fin.sum_univ_four]
  simp only [zero_add, add_assoc]

theorem combine_eq (t d : ℝ) (ht : 0 ≤ t) (hd : 0 ≤ d) (a b c e : EReal) :
    combineK ((-t : ℝ) : EReal) (t : EReal) (d : EReal) ((8192 : ℝ) : EReal) a b c e
      = combineR (t : EReal) (d : EReal) ((8192 : ℝ) : EReal) a b c e := by
  have hn : (8192 : ℝ) ≠ 0 := by norm_num
  have hr : (0 : EReal) ≤ ((1 / 8192 : ℝ) : EReal) := EReal.coe_nonneg.mpr (by norm_num)
  have hr' : ((1 / 8192 : ℝ) : EReal) ≠ ⊤ := EReal.coe_ne_top _
  have ht0 : (0 : EReal) ≤ (t : EReal) := EReal.coe_nonneg.mpr ht
  have ht' : (t : EReal) ≠ ⊤ := EReal.coe_ne_top _
  unfold combineK combineR
  simp only [Ideal.div_coe hn, EReal.coe_neg, sub_eq_add_neg, neg_neg, neg_mul, mul_neg,
    EReal.right_distrib_of_nonneg_of_ne_top hr hr', EReal.left_distrib_of_nonneg_of_ne_top ht0 ht',
    mul_assoc, add_assoc]

theorem fused_eq_plain (A : Spec.Args) (TK TR : Spec.Terms)
    (hT : ∀ r, TK.tInt r = TR.tInt r ∧ TK.tA r = TR.tA r ∧ TK.tB r = TR.tB r ∧ TK.tT r = TR.tT r)
    (quarter four negTenth tenth fifth n : EReal)
    (hq : quarter = ((1 / 4 : ℝ) : EReal)) (h4 : four = ((4 : ℝ) : EReal))
    (t d : ℝ) (ht : 0 ≤ t) (hd : 0 ≤ d) (htenth : tenth = (t : EReal))
    (hneg : negTenth = ((-t : ℝ) : EReal)) (hfifth : fifth = (d : EReal))
    (hn : n = ((8192 : ℝ) : EReal)) :
    Spec.fusedResult A TK quarter negTenth tenth fifth n = Spec.plainResult A TR four tenth fifth n := by
  have hK : TK = TR := by
    cases TK; cases TR
    simp only [Terms.mk.injEq]
    exact ⟨funext fun r => (hT r).1, funext fun r => (hT r).2.1, funext fun r => (hT r).2.2.1,
      funext fun r => (hT r).2.2.2⟩
  subst hK hneg htenth hfifth hn
  unfold fusedResult plainResult resK resR
  simp only [lo_meanK _ _ _ quarter four hq h4, hi_meanK _ _ _ quarter four hq h4, accK_eq_totR]
  exact combine_eq t d ht hd _ _ _ _

end Cert.Bridge

end
-- ==== Proof.Bridge.Consts.lean ====
import Idealize.ShloMosaic.PureOps.Ideal

noncomputable section

namespace Cert.Bridge.Consts

open Idealize.ShloMosaic

def tenthR : ℝ := 13421773 / 134217728

def fifthR : ℝ := 13421773 / 67108864

theorem tenthR_nonneg : 0 ≤ tenthR := by unfold tenthR; norm_num
theorem fifthR_nonneg : 0 ≤ fifthR := by unfold fifthR; norm_num

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_tenth : Ideal.ofBits .f32 0x3DCCCCCD#32 = ((tenthR : ℝ) : EReal) := by
  unfold tenthR; simp [Ideal.ofBits, Ideal.ieee, -EReal.coe_mul]; norm_num

theorem ofBits_negTenth : Ideal.ofBits .f32 0xBDCCCCCD#32 = ((-tenthR : ℝ) : EReal) := by
  unfold tenthR; simp [Ideal.ofBits, Ideal.ieee, -EReal.coe_mul]; norm_num

theorem ofBits_fifth : Ideal.ofBits .f32 0x3E4CCCCD#32 = ((fifthR : ℝ) : EReal) := by
  unfold fifthR; simp [Ideal.ofBits, Ideal.ieee, -EReal.coe_mul]; norm_num

end Cert.Bridge.Consts

end
-- ==== Proof.Bridge.Terms.lean ====
import proofs.«409272_j89550068122385_3_alg».proof.Proof.KI.Reg1Value
import proofs.«409272_j89550068122385_3_alg».proof.Proof.Ref.Terms
import proofs.«409272_j89550068122385_3_alg».proof.Proof.Bridge.Consts

noncomputable section

namespace Cert.Bridge

open Idealize.ShloMosaic
open Cert.Spec

theorem cmp_one_self (y : EReal) : Ideal.cmp .one y y = 0#1 := by simp [Ideal.cmp]
theorem cmp_une_self (y : EReal) : Ideal.cmp .une y y = 0#1 := by simp [Ideal.cmp]

theorem zK_eq : Cert.KernelIdeal.Hand.zK = 0 := Consts.ofBits_zero
theorem zR_eq : Cert.ReferenceIdeal.Hand.zR = 0 := Consts.ofBits_zero

theorem softplus_eq (x : EReal) : Cert.KernelIdeal.Hand.softplusK x = Cert.ReferenceIdeal.Hand.softplusR x := by
  unfold Cert.KernelIdeal.Hand.softplusK Cert.ReferenceIdeal.Hand.softplusR
  rw [cmp_one_self, cmp_une_self, zK_eq, zR_eq]
  simp only [Scalar.select, zero_sub]

theorem logSigmoid_eq (x : EReal) :
    Cert.KernelIdeal.Hand.zK - Cert.KernelIdeal.Hand.softplusK (Cert.KernelIdeal.Hand.zK - x) = Cert.ReferenceIdeal.Hand.logSigmoidR x := by
  unfold Cert.ReferenceIdeal.Hand.logSigmoidR
  rw [zK_eq, zero_sub, zero_sub, softplus_eq]

theorem terms_eq (r : Spec.Row) :
    Cert.KernelIdeal.Hand.termsK.tInt r = Cert.ReferenceIdeal.Hand.termsR.tInt r
    ∧ Cert.KernelIdeal.Hand.termsK.tA r = Cert.ReferenceIdeal.Hand.termsR.tA r
    ∧ Cert.KernelIdeal.Hand.termsK.tB r = Cert.ReferenceIdeal.Hand.termsR.tB r
    ∧ Cert.KernelIdeal.Hand.termsK.tT r = Cert.ReferenceIdeal.Hand.termsR.tT r := by
  refine ⟨?_, ?_, ?_, ?_⟩
  · show r.mf * _ = r.mf * _
    rw [logSigmoid_eq]
  · show r.mf * _ = r.mf * _
    rw [logSigmoid_eq]
  · show r.nmf * _ = r.nmf * _
    rw [logSigmoid_eq]
  · show Cert.KernelIdeal.Hand.zK - Cert.KernelIdeal.Hand.softplusK (Cert.KernelIdeal.Hand.zK - _) = Cert.ReferenceIdeal.Hand.logSigmoidR _
    rw [logSigmoid_eq]
    simp only [softplus_eq]

end Cert.Bridge

end
-- ==== Proof.lean ====
import proofs.«409272_j89550068122385_3_alg».proof.Defs
import proofs.«409272_j89550068122385_3_alg».proof.Proof.Gen.Kernel
import proofs.«409272_j89550068122385_3_alg».proof.Proof.Gen.KernelIdeal
import proofs.«409272_j89550068122385_3_alg».proof.Proof.Gen.ReferenceIdeal
import proofs.«409272_j89550068122385_3_alg».proof.Proof.Gen.Pre_finite_inputs
import proofs.«409272_j89550068122385_3_alg».proof.Proof.SameText
import proofs.«409272_j89550068122385_3_alg».proof.Proof.KI.Run
import proofs.«409272_j89550068122385_3_alg».proof.Proof.KI.Value
import proofs.«409272_j89550068122385_3_alg».proof.Proof.Ref.Value
import proofs.«409272_j89550068122385_3_alg».proof.Proof.Bridge.Main
import proofs.«409272_j89550068122385_3_alg».proof.Proof.Bridge.Terms
import proofs.«409272_j89550068122385_3_alg».proof.Proof.Bridge.Consts

noncomputable section

namespace Cert.Proof

open Idealize.ShloMosaic Idealize.SL.Sem
open Idealize.ShloMosaic.ValueIdx

/-- The word-level program has the idealization's body table and text, so the frame proved there at every float instance serves it. -/
theorem frame_p : Cert.frame_Kernel := fun m ρ _ => by
  rw [Cert.Kernel.Hand.defs_eq, Cert.Kernel.Hand.main_eq]; exact Cert.KernelIdeal.Hand.frame (F := Bits) m ρ

theorem frame_pi : Cert.frame_KernelIdeal := fun m ρ _ => Cert.KernelIdeal.Hand.frame m ρ

theorem frame_ri : Cert.frame_ReferenceIdeal := fun m ρ _ => Cert.ReferenceIdeal.Hand.frame m ρ

theorem algebraic : Cert.algebraic_KernelIdeal_ReferenceIdeal := by
  intro m ρ m' ρ' _ hagree
  refine ⟨fun c => fun _ => Cert.Spec.fusedResult (Cert.KernelIdeal.Hand.argsOfVal (Cert.KernelIdeal.Hand.W0 m ρ c)) Cert.KernelIdeal.Hand.termsK
      (Ideal.ofBits .f32 0x3E800000#32) (Ideal.ofBits .f32 0xBDCCCCCD#32) (Ideal.ofBits .f32 0x3DCCCCCD#32) (Ideal.ofBits .f32 0x3E4CCCCD#32) (Ideal.ofBits .f32 0x46000000#32), ?_, ?_⟩
  · refine (θ_run Cert.KernelIdeal.defs _ _).mono (fun r h c => ?_) (Cert.KernelIdeal.Hand.run_main (F := Ideal) m ρ)
    refine ⟨(h c _ (Cert.KernelIdeal.Hand.mem_uc Cert.KernelIdeal.main_v141 (by decide))).trans (Cert.KernelIdeal.Hand.result_eq m ρ c),
      (h c _ (Cert.KernelIdeal.Hand.mem_uc Cert.KernelIdeal.main_arg0 (by decide))).trans (Cert.KernelIdeal.Hand.W5_arg m ρ c Cert.KernelIdeal.main_arg0 (by decide)),
      (h c _ (Cert.KernelIdeal.Hand.mem_uc Cert.KernelIdeal.main_arg1 (by decide))).trans (Cert.KernelIdeal.Hand.W5_arg m ρ c Cert.KernelIdeal.main_arg1 (by decide)),
      (h c _ (Cert.KernelIdeal.Hand.mem_uc Cert.KernelIdeal.main_arg2 (by decide))).trans (Cert.KernelIdeal.Hand.W5_arg m ρ c Cert.KernelIdeal.main_arg2 (by decide)),
      (h c _ (Cert.KernelIdeal.Hand.mem_uc Cert.KernelIdeal.main_arg3 (by decide))).trans (Cert.KernelIdeal.Hand.W5_arg m ρ c Cert.KernelIdeal.main_arg3 (by decide)),
      (h c _ (Cert.KernelIdeal.Hand.mem_uc Cert.KernelIdeal.main_arg4 (by decide))).trans (Cert.KernelIdeal.Hand.W5_arg m ρ c Cert.KernelIdeal.main_arg4 (by decide)),
      (h c _ (Cert.KernelIdeal.Hand.mem_uc Cert.KernelIdeal.main_arg5 (by decide))).trans (Cert.KernelIdeal.Hand.W5_arg m ρ c Cert.KernelIdeal.main_arg5 (by decide)),
      (h c _ (Cert.KernelIdeal.Hand.mem_uc Cert.KernelIdeal.main_arg6 (by decide))).trans (Cert.KernelIdeal.Hand.W5_arg m ρ c Cert.KernelIdeal.main_arg6 (by decide)),
      (h c _ (Cert.KernelIdeal.Hand.mem_uc Cert.KernelIdeal.main_arg7 (by decide))).trans (Cert.KernelIdeal.Hand.W5_arg m ρ c Cert.KernelIdeal.main_arg7 (by decide)),
      (h c _ (Cert.KernelIdeal.Hand.mem_uc Cert.KernelIdeal.main_arg8 (by decide))).trans (Cert.KernelIdeal.Hand.W5_arg m ρ c Cert.KernelIdeal.main_arg8 (by decide)),
      (h c _ (Cert.KernelIdeal.Hand.mem_uc Cert.KernelIdeal.main_arg9 (by decide))).trans (Cert.KernelIdeal.Hand.W5_arg m ρ c Cert.KernelIdeal.main_arg9 (by decide))⟩
  · refine (θ_run Cert.ReferenceIdeal.defs _ _).mono (fun r h c => ⟨(h c).1.trans ?_, (h c).2⟩)
      (Cert.ReferenceIdeal.Hand.run (F := Ideal) m' ρ')
    obtain ⟨h0, h1, h2, h3, h4, h5, h6, h7, h8, h9⟩ := hagree c
    have hargs : Cert.ReferenceIdeal.Hand.argsOfVal (StableHlo.launchContents m' c) = Cert.KernelIdeal.Hand.argsOfVal (Cert.KernelIdeal.Hand.W0 m ρ c) := by
      unfold Cert.ReferenceIdeal.Hand.argsOfVal Cert.KernelIdeal.Hand.argsOfVal
      congr 1
      · funext n j; exact congrFun h0 _
      · funext n j; exact congrFun h1 _
      · funext i; exact congrFun h2 _
      · funext i; exact congrFun h3 _
      · funext s; exact congrFun h4 _
      · funext s; exact congrFun h5 _
      · funext s; exact congrFun h6 _
      · funext s; exact congrFun h7 _
      · funext e; exact congrFun h8 _
      · funext e; exact congrFun h9 _
    rw [Cert.ReferenceIdeal.Hand.res_eq, hargs]
    funext _
    exact (Cert.Bridge.fused_eq_plain _ Cert.KernelIdeal.Hand.termsK Cert.ReferenceIdeal.Hand.termsR Cert.Bridge.terms_eq
      _ _ _ _ _ _ Cert.Bridge.Consts.ofBits_quarter Cert.Bridge.Consts.ofBits_four
      Cert.Bridge.Consts.tenthR Cert.Bridge.Consts.fifthR Cert.Bridge.Consts.tenthR_nonneg Cert.Bridge.Consts.fifthR_nonneg
      Cert.Bridge.Consts.ofBits_tenth Cert.Bridge.Consts.ofBits_negTenth Cert.Bridge.Consts.ofBits_fifth Cert.Bridge.Consts.ofBits_8192).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
